-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S1048576x3 : Shape := ⟨2, ![1048576, 3]⟩
abbrev S1048576 : Shape := ⟨1, ![1048576]⟩
abbrev S64x64 : Shape := ⟨2, ![64, 64]⟩
abbrev S64 : Shape := ⟨1, ![64]⟩
abbrev S64x3 : Shape := ⟨2, ![64, 3]⟩
abbrev S3 : Shape := ⟨1, ![3]⟩
abbrev S64x20 : Shape := ⟨2, ![64, 20]⟩
abbrev S20 : Shape := ⟨1, ![20]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S1048576x3 : S_.BroadcastsInDim S1048576x3 (![] : Fin 0 → Fin S1048576x3.rank)
  reducesTo_S1048576x3_S_d0_1 : S1048576x3.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_
  bcast_S_S64x20 : S_.BroadcastsInDim S64x20 (![] : Fin 0 → Fin S64x20.rank)
  reducesTo_S64x20_S_d0_1 : S64x20.ReducesTo [0, 1] S_
  bcast_S_S20 : S_.BroadcastsInDim S20 (![] : Fin 0 → Fin S20.rank)
  reducesTo_S20_S_d0 : S20.ReducesTo [0] S_
  bcast_S_S1048576 : S_.BroadcastsInDim S1048576 (![] : Fin 0 → Fin S1048576.rank)
  reducesTo_S1048576_S_d0 : S1048576.ReducesTo [0] S_

variable [Facts]

def fn_part3 {F : FTy → Type} [FloatOps F] (main_arg2 : IVec S1048576 32) (main_arg13 : FVec F S20 .f32) (main_v48 : IVec S_ 1) (main_v49 : FVec F S20 .f32) (main_v50 : FVec F S20 .f32) : IVec S_ 1 :=
  let main_v51 : IVec S20 1 := cmpf .olt main_v49 main_v50
  let main_c_19 : IVec S_ 1 := constantI S_ 1 1#1
  let main_v52 : IVec S_ 1 := (fun x v => Host.reduce IntOp.andi x v reducesTo_S20_S_d0 h_S_) main_v51 main_c_19
  let main_v53 : IVec S_ 1 := andi main_v48 main_v52
  let main_v54 : FVec F S20 .f32 := Host.absf main_arg13
  let main_cst_20 : FVec F S_ .f32 := constant S_ .f32 0x7F800000#32
  let main_v55 : FVec F S20 .f32 := broadcastInDim S20 ![] bcast_S_S20 main_cst_20
  let main_v56 : IVec S20 1 := cmpf .olt main_v54 main_v55
  let main_c_21 : IVec S_ 1 := constantI S_ 1 1#1
  let main_v57 : IVec S_ 1 := (fun x v => Host.reduce IntOp.andi x v reducesTo_S20_S_d0 h_S_) main_v56 main_c_21
  let main_v58 : IVec S_ 1 := andi main_v53 main_v57
  let main_c_22 : IVec S_ 32 := constantI S_ 32 4294967295#32
  let main_v59 : IVec S1048576 32 := broadcastInDim S1048576 ![] bcast_S_S1048576 main_c_22
  let main_v60 : IVec S1048576 1 := cmpi .sge main_arg2 main_v59
  let main_c_23 : IVec S_ 32 := constantI S_ 32 20#32
  let main_v61 : IVec S1048576 32 := broadcastInDim S1048576 ![] bcast_S_S1048576 main_c_23
  let main_v62 : IVec S1048576 1 := cmpi .slt main_arg2 main_v61
  let main_v63 : IVec S1048576 1 := andi main_v60 main_v62
  let main_c_24 : IVec S_ 1 := constantI S_ 1 1#1
  let main_v64 : IVec S_ 1 := (fun x v => Host.reduce IntOp.andi x v reducesTo_S1048576_S_d0 h_S_) main_v63 main_c_24
  let main_v65 : IVec S_ 1 := andi main_v58 main_v64
  main_v65

def fn_part2 {F : FTy → Type} [FloatOps F] (main_arg2 : IVec S1048576 32) (main_arg9 : FVec F S64x3 .f32) (main_arg10 : FVec F S3 .f32) (main_arg11 : FVec F S64x20 .f32) (main_arg12 : FVec F S20 .f32) (main_arg13 : FVec F S20 .f32) (main_v33 : IVec S_ 1) : IVec S_ 1 :=
  let main_v34 : FVec F S64x3 .f32 := Host.absf main_arg9
  let main_cst_12 : FVec F S_ .f32 := constant S_ .f32 0x7F800000#32
  let main_v35 : FVec F S64x3 .f32 := broadcastInDim S64x3 ![] bcast_S_S64x3 main_cst_12
  let main_v36 : IVec S64x3 1 := cmpf .olt main_v34 main_v35
  let main_c_13 : IVec S_ 1 := constantI S_ 1 1#1
  let main_v37 : IVec S_ 1 := (fun x v => Host.reduce IntOp.andi x v reducesTo_S64x3_S_d0_1 h_S_) main_v36 main_c_13
  let main_v38 : IVec S_ 1 := andi main_v33 main_v37
  let main_v39 : FVec F S3 .f32 := Host.absf main_arg10
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  let main_v44 : FVec F S64x20 .f32 := Host.absf main_arg11
  let main_cst_16 : FVec F S_ .f32 := constant S_ .f32 0x7F800000#32
  let main_v45 : FVec F S64x20 .f32 := broadcastInDim S64x20 ![] bcast_S_S64x20 main_cst_16
  let main_v46 : IVec S64x20 1 := cmpf .olt main_v44 main_v45
  let main_c_17 : IVec S_ 1 := constantI S_ 1 1#1
  let main_v47 : IVec S_ 1 := (fun x v => Host.reduce IntOp.andi x v reducesTo_S64x20_S_d0_1 h_S_) main_v46 main_c_17
  let main_v48 : IVec S_ 1 := andi main_v43 main_v47
  let main_v49 : FVec F S20 .f32 := Host.absf main_arg12
  let main_cst_18 : FVec F S_ .f32 := constant S_ .f32 0x7F800000#32
  let main_v50 : FVec F S20 .f32 := broadcastInDim S20 ![] bcast_S_S20 main_cst_18
  fn_part3 (F := F) main_arg2 main_arg13 main_v48 main_v49 main_v50

def fn_part1 {F : FTy → Type} [FloatOps F] (main_arg2 : IVec S1048576 32) (main_arg6 : FVec F S64 .f32) (main_arg7 : FVec F S64 .f32) (main_arg8 : FVec F S64 .f32) (main_arg9 : FVec F S64x3 .f32) (main_arg10 : FVec F S3 .f32) (main_arg11 : FVec F S64x20 .f32) (main_arg12 : FVec F S20 .f32) (main_arg13 : FVec F S20 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg2 main_arg9 main_arg10 main_arg11 main_arg12 main_arg13 main_v33

def fn {F : FTy → Type} [FloatOps F] (main_arg0 : FVec F S1048576x64 .f32) (main_arg1 : FVec F S1048576x3 .f32) (main_arg2 : IVec S1048576 32) (main_arg3 : IVec S1048576 32) (main_arg4 : FVec F S1048576x3 .f32) (main_arg5 : FVec F S64x64 .f32) (main_arg6 : FVec F S64 .f32) (main_arg7 : FVec F S64 .f32) (main_arg8 : FVec F S64 .f32) (main_arg9 : FVec F S64x3 .f32) (main_arg10 : FVec F S3 .f32) (main_arg11 : FVec F S64x20 .f32) (main_arg12 : FVec F S20 .f32) (main_arg13 : FVec F S20 .f32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_v4 : FVec F S1048576x3 .f32 := Host.absf main_arg1
  let main_cst_0 : FVec F S_ .f32 := constant S_ .f32 0x7F800000#32
  let main_v5 : FVec F S1048576x3 .f32 := broadcastInDim S1048576x3 ![] bcast_S_S1048576x3 main_cst_0
  let main_v6 : IVec S1048576x3 1 := cmpf .olt main_v4 main_v5
  let main_c_1 : IVec S_ 1 := constantI S_ 1 1#1
  let main_v7 : IVec S_ 1 := (fun x v => Host.reduce IntOp.andi x v reducesTo_S1048576x3_S_d0_1 h_S_) main_v6 main_c_1
  let main_v8 : IVec S_ 1 := andi main_v3 main_v7
  let main_v9 : FVec F S1048576x3 .f32 := Host.absf main_arg4
  let main_cst_2 : FVec F S_ .f32 := constant S_ .f32 0x7F800000#32
  let main_v10 : FVec F S1048576x3 .f32 := broadcastInDim S1048576x3 ![] bcast_S_S1048576x3 main_cst_2
  let main_v11 : IVec S1048576x3 1 := cmpf .olt main_v9 main_v10
  let main_c_3 : IVec S_ 1 := constantI S_ 1 1#1
  let main_v12 : IVec S_ 1 := (fun x v => Host.reduce IntOp.andi x v reducesTo_S1048576x3_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg2 main_arg6 main_arg7 main_arg8 main_arg9 main_arg10 main_arg11 main_arg12 main_arg13 main_v13 main_v16
-- ==== Kernel.lean ====
abbrev S1048576x64 : Shape := ⟨2, ![1048576, 64]⟩
abbrev S1048576x3 : Shape := ⟨2, ![1048576, 3]⟩
abbrev S1048576 : Shape := ⟨1, ![1048576]⟩
abbrev S64x64 : Shape := ⟨2, ![64, 64]⟩
abbrev S64 : Shape := ⟨1, ![64]⟩
abbrev S64x3 : Shape := ⟨2, ![64, 3]⟩
abbrev S3 : Shape := ⟨1, ![3]⟩
abbrev S64x20 : Shape := ⟨2, ![64, 20]⟩
abbrev S20 : Shape := ⟨1, ![20]⟩
abbrev S1x64 : Shape := ⟨2, ![1, 64]⟩
abbrev S1x3 : Shape := ⟨2, ![1, 3]⟩
abbrev S1x20 : Shape := ⟨2, ![1, 20]⟩
abbrev S2x1x64 : Shape := ⟨3, ![2, 1, 64]⟩
abbrev S16384x64 : Shape := ⟨2, ![16384, 64]⟩
abbrev S1x1x64 : Shape := ⟨3, ![1, 1, 64]⟩
abbrev S_ : Shape := ⟨0, ![]⟩
abbrev S1048576x1 : Shape := ⟨2, ![1048576, 1]⟩
abbrev S2x1x1 : Shape := ⟨3, ![2, 1, 1]⟩
abbrev S2048x64 : Shape := ⟨2, ![2048, 64]⟩
abbrev S2048x3 : Shape := ⟨2, ![2048, 3]⟩
abbrev S2048x1 : Shape := ⟨2, ![2048, 1]⟩
abbrev S1x1x1 : Shape := ⟨3, ![1, 1, 1]⟩
abbrev S1x1 : Shape := ⟨2, ![1, 1]⟩
abbrev S2048 : Shape := ⟨1, ![2048]⟩
abbrev S2048x20 : Shape := ⟨2, ![2048, 20]⟩
abbrev S1 : Shape := ⟨1, ![1]⟩
abbrev S4 : Shape := ⟨1, ![4]⟩

abbrev nBuf : Space → Nat
  | .hbm => 96
  | .vmem => 35
  | .smem => 0
  | _ => 0

abbrev bufTy : (tb : Table) → Fin (tcTables nBuf tb) → BufTy
  | .hbm, ⟨0, _⟩ => ⟨S1048576x64, .f32⟩
  | .hbm, ⟨1, _⟩ => ⟨S1048576x3, .f32⟩
  | .hbm, ⟨2, _⟩ => ⟨S1048576, .i32⟩
  | .hbm, ⟨3, _⟩ => ⟨S1048576, .i32⟩
  | .hbm, ⟨4, _⟩ => ⟨S1048576x3, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64x3, .f32⟩
  | .hbm, ⟨10, _⟩ => ⟨S3, .f32⟩
  | .hbm, ⟨11, _⟩ => ⟨S64x20, .f32⟩
  | .hbm, ⟨12, _⟩ => ⟨S20, .f32⟩
  | .hbm, ⟨13, _⟩ => ⟨S20, .f32⟩
  | .hbm, ⟨14, _⟩ => ⟨S1x64, .f32⟩
  | .hbm, ⟨15, _⟩ => ⟨S1x3, .f32⟩
  | .hbm, ⟨16, _⟩ => ⟨S1x20, .f32⟩
  | .hbm, ⟨17, _⟩ => ⟨S1x20, .f32⟩
  | .hbm, ⟨18, _⟩ => ⟨S2x1x64, .f32⟩
  | .hbm, ⟨19, _⟩ => ⟨S2x1x64, .f32⟩
  | .hbm, ⟨20, _⟩ => ⟨S1x1x64, .f32⟩
  | .hbm, ⟨21, _⟩ => ⟨S64, .f32⟩
  | .hbm, ⟨22, _⟩ => ⟨S1x1x64, .f32⟩
  | .hbm, ⟨23, _⟩ => ⟨S64, .f32⟩
  | .hbm, ⟨24, _⟩ => ⟨S64, .f32⟩
  | .hbm, ⟨25, _⟩ => ⟨S1x64, .f32⟩
  | .hbm, ⟨26, _⟩ => ⟨S1x1x64, .f32⟩
  | .hbm, ⟨27, _⟩ => ⟨S64, .f32⟩
  | .hbm, ⟨28, _⟩ => ⟨S1x1x64, .f32⟩
  | .hbm, ⟨29, _⟩ => ⟨S64, .f32⟩
  | .hbm, ⟨30, _⟩ => ⟨S64, .f32⟩
  | .hbm, ⟨31, _⟩ => ⟨S1x64, .f32⟩
  | .hbm, ⟨32, _⟩ => ⟨S_, .f32⟩
  | .hbm, ⟨33, _⟩ => ⟨S1x64, .f32⟩
  | .hbm, ⟨34, _⟩ => ⟨S1x64, .f32⟩
  | .hbm, ⟨35, _⟩ => ⟨S_, .f32⟩
  | .hbm, ⟨36, _⟩ => ⟨S1x64, .f32⟩
  | .hbm, ⟨37, _⟩ => ⟨S1x64, .f32⟩
  | .hbm, ⟨38, _⟩ => ⟨S1x64, .f32⟩
  | .hbm, ⟨39, _⟩ => ⟨S1x64, .f32⟩
  | .hbm, ⟨40, _⟩ => ⟨S1x64, .f32⟩
  | .hbm, ⟨41, _⟩ => ⟨S_, .f32⟩
  | .hbm, ⟨42, _⟩ => ⟨S1x64, .f32⟩
  | .hbm, ⟨43, _⟩ => ⟨S1x64, .f32⟩
  | .hbm, ⟨44, _⟩ => ⟨S1x64, .f32⟩
  | .hbm, ⟨45, _⟩ => ⟨S1x64, .f32⟩
  | .hbm, ⟨46, _⟩ => ⟨S64x64, .f32⟩
  | .hbm, ⟨47, _⟩ => ⟨S64x64, .f32⟩
  | .hbm, ⟨48, _⟩ => ⟨S1x64, .f32⟩
  | .hbm, ⟨49, _⟩ => ⟨S1x64, .f32⟩
  | .hbm, ⟨50, _⟩ => ⟨S1x64, .f32⟩
  | .hbm, ⟨51, _⟩ => ⟨S1x64, .f32⟩
  | .hbm, ⟨52, _⟩ => ⟨S1048576x1, .i32⟩
  | .hbm, ⟨53, _⟩ => ⟨S1048576x1, .i32⟩
  | .hbm, ⟨54, _⟩ => ⟨S2x1x1, .f32⟩
  | .hbm, ⟨55, _⟩ => ⟨S2x1x1, .f32⟩
  | .hbm, ⟨56, _⟩ => ⟨S2x1x1, .f32⟩
  | .hbm, ⟨57, _⟩ => ⟨S2x1x1, .f32⟩
  | .hbm, ⟨58, _⟩ => ⟨S2x1x1, .f32⟩
  | .hbm, ⟨59, _⟩ => ⟨S1x1x1, .f32⟩
  | .hbm, ⟨60, _⟩ => ⟨S_, .f32⟩
  | .hbm, ⟨61, _⟩ => ⟨S1x1x1, .f32⟩
  | .hbm, ⟨62, _⟩ => ⟨S_, .f32⟩
  | .hbm, ⟨63, _⟩ => ⟨S_, .f32⟩
  | .hbm, ⟨64, _⟩ => ⟨S1x1x1, .f32⟩
  | .hbm, ⟨65, _⟩ => ⟨S_, .f32⟩
  | .hbm, ⟨66, _⟩ => ⟨S1x1x1, .f32⟩
  | .hbm, ⟨67, _⟩ => ⟨S_, .f32⟩
  | .hbm, ⟨68, _⟩ => ⟨S_, .f32⟩
  | .hbm, ⟨69, _⟩ => ⟨S1x1x1, .f32⟩
  | .hbm, ⟨70, _⟩ => ⟨S_, .f32⟩
  | .hbm, ⟨71, _⟩ => ⟨S1x1x1, .f32⟩
  | .hbm, ⟨72, _⟩ => ⟨S_, .f32⟩
  | .hbm, ⟨73, _⟩ => ⟨S_, .f32⟩
  | .hbm, ⟨74, _⟩ => ⟨S1x1x1, .f32⟩
  | .hbm, ⟨75, _⟩ => ⟨S_, .f32⟩
  | .hbm, ⟨76, _⟩ => ⟨S1x1x1, .f32⟩
  | .hbm, ⟨77, _⟩ => ⟨S_, .f32⟩
  | .hbm, ⟨78, _⟩ => ⟨S_, .f32⟩
  | .hbm, ⟨79, _⟩ => ⟨S1x1x1, .f32⟩
  | .hbm, ⟨80, _⟩ => ⟨S_, .f32⟩
  | .hbm, ⟨81, _⟩ => ⟨S1x1x1, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S1, .f32⟩
  | .hbm, ⟨92, _⟩ => ⟨S1, .f32⟩
  | .hbm, ⟨93, _⟩ => ⟨S1, .f32⟩
  | .hbm, ⟨94, _⟩ => ⟨S1, .f32⟩
  | .hbm, ⟨95, _⟩ => ⟨S4, .f32⟩
  | .local _ .vmem, ⟨0, _⟩ => ⟨S16384x64, .f32⟩
  | .local _ .vmem, ⟨1, _⟩ => ⟨S16384x64, .f32⟩
  | .local _ .vmem, ⟨2, _⟩ => ⟨S64x64, .f32⟩
  | .local _ .vmem, ⟨3, _⟩ => ⟨S1x64, .f32⟩
  | .local _ .vmem, ⟨4, _⟩ => ⟨S1x1x64, .f32⟩
  | .local _ .vmem, ⟨5, _⟩ => ⟨S1x1x64, .f32⟩
  | .local _ .vmem, ⟨6, _⟩ => ⟨S1x1x64, .f32⟩
  | .local _ .vmem, ⟨7, _⟩ => ⟨S1x1x64, .f32⟩
  | .local _ .vmem, ⟨8, _⟩ => ⟨S2048x64, .f32⟩
  | .local _ .vmem, ⟨9, _⟩ => ⟨S2048x64, .f32⟩
  | .local _ .vmem, ⟨10, _⟩ => ⟨S2048x3, .f32⟩
  | .local _ .vmem, ⟨11, _⟩ => ⟨S2048x3, .f32⟩
  | .local _ .vmem, ⟨12, _⟩ => ⟨S2048x3, .f32⟩
  | .local _ .vmem, ⟨13, _⟩ => ⟨S2048x3, .f32⟩
  | .local _ .vmem, ⟨14, _⟩ => ⟨S2048x1, .i32⟩
  | .local _ .vmem, ⟨15, _⟩ => ⟨S2048x1, .i32⟩
  | .local _ .vmem, ⟨16, _⟩ => ⟨S2048x1, .i32⟩
  | .local _ .vmem, ⟨17, _⟩ => ⟨S2048x1, .i32⟩
  | .local _ .vmem, ⟨18, _⟩ => ⟨S64x64, .f32⟩
  | .local _ .vmem, ⟨19, _⟩ => ⟨S1x64, .f32⟩
  | .local _ .vmem, ⟨20, _⟩ => ⟨S64x3, .f32⟩
  | .local _ .vmem, ⟨21, _⟩ => ⟨S1x3, .f32⟩
  | .local _ .vmem, ⟨22, _⟩ => ⟨S64x20, .f32⟩
  | .local _ .vmem, ⟨23, _⟩ => ⟨S1x20, .f32⟩
  | .local _ .vmem, ⟨24, _⟩ => ⟨S1x20, .f32⟩
  | .local _ .vmem, ⟨25, _⟩ => ⟨S1x1x1, .f32⟩
  | .local _ .vmem, ⟨26, _⟩ => ⟨S1x1x1, .f32⟩
  | .local _ .vmem, ⟨27, _⟩ => ⟨S1x1x1, .f32⟩
  | .local _ .vmem, ⟨28, _⟩ => ⟨S1x1x1, .f32⟩
  | .local _ .vmem, ⟨29, _⟩ => ⟨S1x1x1, .f32⟩
  | .local _ .vmem, ⟨30, _⟩ => ⟨S1x1x1, .f32⟩
  | .local _ .vmem, ⟨31, _⟩ => ⟨S1x1x1, .f32⟩
  | .local _ .vmem, ⟨32, _⟩ => ⟨S1x1x1, .f32⟩
  | .local _ .vmem, ⟨33, _⟩ => ⟨S1x1x1, .f32⟩
  | .local _ .vmem, ⟨34, _⟩ => ⟨S1x1x1, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4_0 : Ref sig .tc := ⟨.hbm, 18, rfl⟩
abbrev main_v4_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36_0 : Ref sig .tc := ⟨.hbm, 54, rfl⟩
abbrev main_v36_1 : Ref sig .tc := ⟨.hbm, 55, rfl⟩
abbrev main_v36_2 : Ref sig .tc := ⟨.hbm, 56, rfl⟩
abbrev main_v36_3 : Ref sig .tc := ⟨.hbm, 57, rfl⟩
abbrev main_v36_4 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_2 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg12_0 : Ref sig .tc := ⟨.vmem, 25, rfl⟩
abbrev cc1_stg12_1 : Ref sig .tc := ⟨.vmem, 26, rfl⟩
abbrev cc1_stg13_0 : Ref sig .tc := ⟨.vmem, 27, rfl⟩
abbrev cc1_stg13_1 : Ref sig .tc := ⟨.vmem, 28, rfl⟩
abbrev cc1_stg14_0 : Ref sig .tc := ⟨.vmem, 29, rfl⟩
abbrev cc1_stg14_1 : Ref sig .tc := ⟨.vmem, 30, rfl⟩
abbrev cc1_stg15_0 : Ref sig .tc := ⟨.vmem, 31, rfl⟩
abbrev cc1_stg15_1 : Ref sig .tc := ⟨.vmem, 32, rfl⟩
abbrev cc1_stg16_0 : Ref sig .tc := ⟨.vmem, 33, rfl⟩
abbrev cc1_stg16_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem10_0 : DmaSem sig := 23
abbrev cc1_sem11_0 : DmaSem sig := 24
abbrev cc1_sem12_0 : DmaSem sig := 25
abbrev cc1_sem12_1 : DmaSem sig := 26
abbrev cc1_sem13_0 : DmaSem sig := 27
abbrev cc1_sem13_1 : DmaSem sig := 28
abbrev cc1_sem14_0 : DmaSem sig := 29
abbrev cc1_sem14_1 : DmaSem sig := 30
abbrev cc1_sem15_0 : DmaSem sig := 31
abbrev cc1_sem15_1 : DmaSem sig := 32
abbrev cc1_sem16_0 : DmaSem sig := 33
abbrev cc1_sem16_1 : DmaSem sig := 34

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16384x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![2, 256], ![false, false]⟩

def cc1_transform_0 (i : grid1.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_13 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_14 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_15 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_16 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2048x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2048x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S64x3 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x3 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S64x20 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1x20 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S1x20 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 2 → Memref sig .tc .vmem S1x1x1 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, false]

abbrev stage1_13 : Fin 2 → Memref sig .tc .vmem S1x1x1 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, false]

abbrev stage1_14 : Fin 2 → Memref sig .tc .vmem S1x1x1 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, false]

abbrev stage1_15 : Fin 2 → Memref sig .tc .vmem S1x1x1 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, false]

abbrev stage1_16 : Fin 2 → Memref sig .tc .vmem S1x1x1 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, false]

class Facts₀ : Prop where
  shapeCasts_S64_S1x64 : S64.ShapeCasts S1x64
  shapeCasts_S3_S1x3 : S3.ShapeCasts S1x3
  shapeCasts_S20_S1x20 : S20.ShapeCasts S1x20
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  shapeCasts_S1x64_S1x1x64 : S1x64.ShapeCasts S1x1x64
  inb_S16384x64_S16384x64_0_0 : ∀ a, (![0, 0] : Fin 2 → Nat) a + S16384x64.size a ≤ S16384x64.size a
  h_S16384x64 : 0 < S16384x64.numel
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16384x64 : S1x64.Broadcasts S16384x64
  reduces_S16384x64_S64 : S16384x64.Reduces [0] S64
  slices_S2x1x64_S1x1x64_0_0_0 : S2x1x64.Slices ![0, 0, 0] S1x1x64
  shapeCasts_S1x1x64_S64 : S1x1x64.ShapeCasts S64
  slices_S2x1x64_S1x1x64_1_0_0 : S2x1x64.Slices ![1, 0, 0] S1x1x64
  bcast_S_S1x64 : S_.BroadcastsInDim S1x64 (![] : Fin 0 → Fin S1x64.rank)
  bcast_S1x64_S64x64_0_1 : S1x64.BroadcastsInDim S64x64 (![0, 1] : Fin 2 → Fin S64x64.rank)
  shapeCasts_S1048576_S1048576x1 : S1048576.ShapeCasts S1048576x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S2048x64_S2048x64_0_0 : ∀ a, (![0, 0] : Fin 2 → Nat) a + S2048x64.size a ≤ S2048x64.size a
  h_S2048x64 : 0 < S2048x64.numel
  inb_S2048x3_S2048x3_0_0 : ∀ a, (![0, 0] : Fin 2 → Nat) a + S2048x3.size a ≤ S2048x3.size a
  h_S2048x3 : 0 < S2048x3.numel
  inb_S2048x1_S2048x1_0_0 : ∀ a, (![0, 0] : Fin 2 → Nat) a + S2048x1.size a ≤ S2048x1.size a
  h_S2048x1 : 0 < S2048x1.numel
  shapeCasts_S2048x1_S2048 : S2048x1.ShapeCasts S2048
  shapeCasts_S64x64_S64x64 : S64x64.ShapeCasts S64x64
  broadcasts_S1x64_S2048x64 : S1x64.Broadcasts S2048x64
  inb_S64x3_S64x3_0_0 : ∀ a, (![0, 0] : Fin 2 → Nat) a + S64x3.size a ≤ S64x3.size a
  h_S64x3 : 0 < S64x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2048x3 : S1x3.Broadcasts S2048x3
  inb_S64x20_S64x20_0_0 : ∀ a, (![0, 0] : Fin 2 → Nat) a + S64x20.size a ≤ S64x20.size a
  h_S64x20 : 0 < S64x20.numel
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S2048x20 : S1x20.Broadcasts S2048x20
  iota_S2048x20_d1_w32 : S2048x20.Iotas .tc 32 [1]
  shapeCasts_S2048_S2048x1 : S2048.ShapeCasts S2048x1
  broadcasts_S2048x1_S2048x20 : S2048x1.Broadcasts S2048x20
  natLt_1_32 : 1 < 32
  reduces_S2048x20_S2048 : S2048x20.Reduces [1] S2048
  reduces_S2048x1_S1 : S2048x1.Reduces [0] S1
  shapeCasts_S1_S1x1 : S1.ShapeCasts S1x1
  reduces_S2048x3_S2048 : S2048x3.Reduces [1] S2048
  broadcasts_S2048x1_S2048x3 : S2048x1.Broadcasts S2048x3
  slices_S2x1x1_S1x1x1_0_0_0 : S2x1x1.Slices ![0, 0, 0] S1x1x1
  shapeCasts_S1x1x1_S_ : S1x1x1.ShapeCasts S_
  slices_S2x1x1_S1x1x1_1_0_0 : S2x1x1.Slices ![1, 0, 0] S1x1x1
  bcast_S_S1 : S_.BroadcastsInDim S1 (![] : Fin 0 → Fin S1.rank)
  concatenates_S1_S1_S1_S1_S4_d0 : Shape.Concatenates [S1, S1, S1, S1] S4 0
  dot_S16384x64_S64x64_S16384x64_1_0_0_1_n_n_wf : DotDims.WF S16384x64 S64x64 S16384x64 [1] [0] [0] [1] [] []
  dot_S2048x64_S64x64_S2048x64_1_0_0_1_n_n_wf : DotDims.WF S2048x64 S64x64 S2048x64 [1] [0] [0] [1] [] []
  dot_S2048x64_S64x3_S2048x3_1_0_0_1_n_n_wf : DotDims.WF S2048x64 S64x3 S2048x3 [1] [0] [0] [1] [] []
  dot_S2048x64_S64x20_S2048x20_1_0_0_1_n_n_wf : DotDims.WF S2048x64 S64x20 S2048x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x64.size a ≤ S1048576x64.size a
  hwx0_0 : ∀ i : grid0.Coords, EltTy.bits .f32 = 32 ∨ (Rect.block (s := S1048576x64) S16384x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x64.size a ≤ S2x1x64.size a
  hwx0_3 : ∀ i : grid0.Coords, EltTy.bits .f32 = 32 ∨ (Rect.block (s := S2x1x64) S1x1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64.size a ≤ S2x1x64.size a
  hwx0_4 : ∀ i : grid0.Coords, EltTy.bits .f32 = 32 ∨ (Rect.block (s := S2x1x64) S1x1x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S1048576x64.size a
  hwx1_0 : ∀ i : grid1.Coords, EltTy.bits .f32 = 32 ∨ (Rect.block (s := S1048576x64) S2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x3.size a ≤ S1048576x3.size a
  hwx1_1 : ∀ i : grid1.Coords, EltTy.bits .f32 = 32 ∨ (Rect.block (s := S1048576x3) S2048x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x3.size a ≤ S1048576x3.size a
  hwx1_2 : ∀ i : grid1.Coords, EltTy.bits .f32 = 32 ∨ (Rect.block (s := S1048576x3) S2048x3.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S1048576x1.size a
  hwx1_3 : ∀ i : grid1.Coords, EltTy.bits .i32 = 32 ∨ (Rect.block (s := S1048576x1) S2048x1.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x1.size a ≤ S1048576x1.size a
  hwx1_4 : ∀ i : grid1.Coords, EltTy.bits .i32 = 32 ∨ (Rect.block (s := S1048576x1) S2048x1.size (cc1_transform_4 i) (hinb1_4 i)).WholeWords (EltTy.packing .i32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x3.size a ≤ S64x3.size a
  hwx1_7 : ∀ i : grid1.Coords, EltTy.bits .f32 = 32 ∨ (Rect.block (s := S64x3) S64x3.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x3.size a ≤ S1x3.size a
  hwx1_8 : ∀ i : grid1.Coords, EltTy.bits .f32 = 32 ∨ (Rect.block (s := S1x3) S1x3.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x20.size a ≤ S64x20.size a
  hwx1_9 : ∀ i : grid1.Coords, EltTy.bits .f32 = 32 ∨ (Rect.block (s := S64x20) S64x20.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x20.size a ≤ S1x20.size a
  hwx1_10 : ∀ i : grid1.Coords, EltTy.bits .f32 = 32 ∨ (Rect.block (s := S1x20) S1x20.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x20.size a ≤ S1x20.size a
  hwx1_11 : ∀ i : grid1.Coords, EltTy.bits .f32 = 32 ∨ (Rect.block (s := S1x20) S1x20.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S1x1x1.size a ≤ S2x1x1.size a
  hwx1_12 : ∀ i : grid1.Coords, EltTy.bits .f32 = 32 ∨ (Rect.block (s := S2x1x1) S1x1x1.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S1x1x1.size a ≤ S2x1x1.size a
  hwx1_13 : ∀ i : grid1.Coords, EltTy.bits .f32 = 32 ∨ (Rect.block (s := S2x1x1) S1x1x1.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S1x1x1.size a ≤ S2x1x1.size a
  hwx1_14 : ∀ i : grid1.Coords, EltTy.bits .f32 = 32 ∨ (Rect.block (s := S2x1x1) S1x1x1.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S1x1x1.size a ≤ S2x1x1.size a
  hwx1_15 : ∀ i : grid1.Coords, EltTy.bits .f32 = 32 ∨ (Rect.block (s := S2x1x1) S1x1x1.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S1x1x1.size a ≤ S2x1x1.size a
  hwx1_16 : ∀ i : grid1.Coords, EltTy.bits .f32 = 32 ∨ (Rect.block (s := S2x1x1) S1x1x1.size (cc1_transform_16 i) (hinb1_16 i)).WholeWords (EltTy.packing .f32)

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x3_S2048x3_1_0_0_1_n_n : DotDims S2048x64 S64x3 S2048x3 where
  lhsContracting := [1]
  rhsContracting := [0]
  lhsNonContracting := [0]
  rhsNonContracting := [1]
  lhsBatch := []
  rhsBatch := []
  wf := dot_S2048x64_S64x3_S2048x3_1_0_0_1_n_n_wf
def dot_S2048x64_S64x20_S2048x20_1_0_0_1_n_n : DotDims S2048x64 S64x20 S2048x20 where
  lhsContracting := [1]
  rhsContracting := [0]
  lhsNonContracting := [0]
  rhsNonContracting := [1]
  lhsBatch := []
  rhsBatch := []
  wf := dot_S2048x64_S64x20_S2048x20_1_0_0_1_n_n_wf

abbrev win0_0 : Pipeline.Window sig grid0 :=
  Pipeline.Window.ofSpec (Memref.whole main_arg0) S16384x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1x1x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1x1x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2048x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S2048x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S2048x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v35) S2048x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v29) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S64x3.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v1) S1x3.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg11) S64x20.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v2) S1x20.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v3) S1x20.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v36_0) S1x1x1.size cc1_transform_12 reads1_12 true false 2 stage1_12 sem1_12
    hrank1 hreads1_12 hinb1_12 nbuf1_12 (Memref.isWhole_whole _) hwx1_12 hstage1_12

abbrev win1_13 : Pipeline.Window sig grid1 :=
  Pipeline.Window.ofSpec (Memref.whole main_v36_1) S1x1x1.size cc1_transform_13 reads1_13 true false 2 stage1_13 sem1_13
    hrank1 hreads1_13 hinb1_13 nbuf1_13 (Memref.isWhole_whole _) hwx1_13 hstage1_13

abbrev win1_14 : Pipeline.Window sig grid1 :=
  Pipeline.Window.ofSpec (Memref.whole main_v36_2) S1x1x1.size cc1_transform_14 reads1_14 true false 2 stage1_14 sem1_14
    hrank1 hreads1_14 hinb1_14 nbuf1_14 (Memref.isWhole_whole _) hwx1_14 hstage1_14

abbrev win1_15 : Pipeline.Window sig grid1 :=
  Pipeline.Window.ofSpec (Memref.whole main_v36_3) S1x1x1.size cc1_transform_15 reads1_15 true false 2 stage1_15 sem1_15
    hrank1 hreads1_15 hinb1_15 nbuf1_15 (Memref.isWhole_whole _) hwx1_15 hstage1_15

abbrev win1_16 : Pipeline.Window sig grid1 :=
  Pipeline.Window.ofSpec (Memref.whole main_v36_4) S1x1x1.size cc1_transform_16 reads1_16 true false 2 stage1_16 sem1_16
    hrank1 hreads1_16 hinb1_16 nbuf1_16 (Memref.isWhole_whole _) hwx1_16 hstage1_16

abbrev win1 : Fin 17 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | ⟨_ + 17, h⟩ => absurd h (Nat.not_lt.2 (Nat.le_add_left _ _))
abbrev spec1 : Fin 17 → Pipeline.WinSpec sig grid1.rank := fun w => (win1 w).toWinSpec

class Facts : Prop extends Facts₀ where

variable [Facts]
-- ==== ReferenceIdeal.lean ====
abbrev S1048576x64 : Shape := ⟨2, ![1048576, 64]⟩
abbrev S1048576x3 : Shape := ⟨2, ![1048576, 3]⟩
abbrev S1048576 : Shape := ⟨1, ![1048576]⟩
abbrev S64x64 : Shape := ⟨2, ![64, 64]⟩
abbrev S64 : Shape := ⟨1, ![64]⟩
abbrev S64x3 : Shape := ⟨2, ![64, 3]⟩
abbrev S3 : Shape := ⟨1, ![3]⟩
abbrev S64x20 : Shape := ⟨2, ![64, 20]⟩
abbrev S20 : Shape := ⟨1, ![20]⟩
abbrev S1x64 : Shape := ⟨2, ![1, 64]⟩
abbrev S_ : Shape := ⟨0, ![]⟩
abbrev S1x3 : Shape := ⟨2, ![1, 3]⟩
abbrev S1048576x20 : Shape := ⟨2, ![1048576, 20]⟩
abbrev S1x20 : Shape := ⟨2, ![1, 20]⟩
abbrev S1048576x1 : Shape := ⟨2, ![1048576, 1]⟩
abbrev S1048576x1x1 : Shape := ⟨3, ![1048576, 1, 1]⟩
abbrev S1 : Shape := ⟨1, ![1]⟩
abbrev S1x1x1 : Shape := ⟨3, ![1, 1, 1]⟩
abbrev S4 : Shape := ⟨1, ![4]⟩

abbrev nBuf : Space → Nat
  | .hbm => 189
  | .vmem => 0
  | .smem => 0
  | _ => 0

abbrev hbmTy0_0 (i : Nat) : BufTy := match i % 128 with
  | 0 => ⟨S1048576x64, .f32⟩
  | 1 => ⟨S1048576x3, .f32⟩
  | 2 => ⟨S1048576, .i32⟩
  | 3 => ⟨S1048576, .i32⟩
  | 4 => ⟨S1048576x3, .f32⟩
  | 5 => ⟨S64x64, .f32⟩
  | 6 => ⟨S64, .f32⟩
  | 7 => ⟨S64, .f32⟩
  | 8 => ⟨S64, .f32⟩
  | 9 => ⟨S64x3, .f32⟩
  | 10 => ⟨S3, .f32⟩
  | 11 => ⟨S64x20, .f32⟩
  | 12 => ⟨S20, .f32⟩
  | 13 => ⟨S20, .f32⟩
  | 14 => ⟨S1048576x64, .f32⟩
  | 15 => ⟨S1x64, .f32⟩
  | 16 => ⟨S1048576x64, .f32⟩
  | 17 => ⟨S1048576x64, .f32⟩
  | 18 => ⟨S_, .f32⟩
  | 19 => ⟨S64, .f32⟩
  | 20 => ⟨S_, .f32⟩
  | 21 => ⟨S64, .f32⟩
  | 22 => ⟨S64, .f32⟩
  | 23 => ⟨S_, .i32⟩
  | 24 => ⟨S_, .f32⟩
  | 25 => ⟨S64, .f32⟩
  | 26 => ⟨S1x64, .f32⟩
  | 27 => ⟨S_, .f32⟩
  | 28 => ⟨S1x64, .f32⟩
  | 29 => ⟨S1x64, .f32⟩
  | 30 => ⟨S1048576x64, .f32⟩
  | 31 => ⟨S1048576x64, .f32⟩
  | 32 => ⟨S1048576x64, .f32⟩
  | 33 => ⟨S_, .f32⟩
  | 34 => ⟨S_, .f32⟩
  | 35 => ⟨S_, .f32⟩
  | 36 => ⟨S_, .f32⟩
  | 37 => ⟨S64, .f32⟩
  | 38 => ⟨S64, .f32⟩
  | 39 => ⟨S64, .f32⟩
  | 40 => ⟨S_, .f32⟩
  | 41 => ⟨S_, .i1⟩
  | 42 => ⟨S_, .f32⟩
  | 43 => ⟨S_, .f32⟩
  | 44 => ⟨S64, .f32⟩
  | 45 => ⟨S64, .f32⟩
  | 46 => ⟨S1x64, .f32⟩
  | 47 => ⟨S1048576x64, .f32⟩
  | 48 => ⟨S1048576x64, .f32⟩
  | 49 => ⟨S_, .f32⟩
  | 50 => ⟨S64, .f32⟩
  | 51 => ⟨S64, .f32⟩
  | 52 => ⟨S64, .f32⟩
  | 53 => ⟨S1x64, .f32⟩
  | 54 => ⟨S1048576x64, .f32⟩
  | 55 => ⟨S1048576x64, .f32⟩
  | 56 => ⟨S1x64, .f32⟩
  | 57 => ⟨S1048576x64, .f32⟩
  | 58 => ⟨S1048576x64, .f32⟩
  | 59 => ⟨S1x64, .f32⟩
  | 60 => ⟨S1048576x64, .f32⟩
  | 61 => ⟨S1048576x64, .f32⟩
  | 62 => ⟨S_, .f32⟩
  | 63 => ⟨S1048576x64, .f32⟩
  | 64 => ⟨S1048576x64, .f32⟩
  | 65 => ⟨S1048576x3, .f32⟩
  | 66 => ⟨S1x3, .f32⟩
  | 67 => ⟨S1048576x3, .f32⟩
  | 68 => ⟨S1048576x3, .f32⟩
  | 69 => ⟨S1048576x20, .f32⟩
  | 70 => ⟨S1x20, .f32⟩
  | 71 => ⟨S1048576x20, .f32⟩
  | 72 => ⟨S1048576x20, .f32⟩
  | 73 => ⟨S_, .i32⟩
  | 74 => ⟨S1048576, .i32⟩
  | 75 => ⟨S1048576, .i1⟩
  | 76 => ⟨S_, .i32⟩
  | 77 => ⟨S_, .i32⟩
  | 78 => ⟨S1048576, .i32⟩
  | 79 => ⟨S1048576, .i32⟩
  | 80 => ⟨S_, .f32⟩
  | 81 => ⟨S1048576, .f32⟩
  | 82 => ⟨S_, .f32⟩
  | 83 => ⟨S1048576, .f32⟩
  | 84 => ⟨S1048576, .f32⟩
  | 85 => ⟨S1048576x1, .f32⟩
  | 86 => ⟨S1048576x20, .f32⟩
  | 87 => ⟨S1048576x20, .f32⟩
  | 88 => ⟨S1048576x20, .f32⟩
  | 89 => ⟨S_, .f32⟩
  | 90 => ⟨S1048576, .f32⟩
  | 91 => ⟨S1048576x1, .f32⟩
  | 92 => ⟨S1048576x1, .f32⟩
  | 93 => ⟨S1048576x20, .f32⟩
  | 94 => ⟨S1048576x20, .f32⟩
  | 95 => ⟨S1048576x1, .i32⟩
  | 96 => ⟨S_, .i32⟩
  | 97 => ⟨S1048576x1, .i32⟩
  | 98 => ⟨S1048576x1, .i1⟩
  | 99 => ⟨S_, .i32⟩
  | 100 => ⟨S1048576x1, .i32⟩
  | 101 => ⟨S1048576x1, .i32⟩
  | 102 => ⟨S1048576x1, .i32⟩
  | 103 => ⟨S1048576x1x1, .i32⟩
  | 104 => ⟨S1, .i32⟩
  | 105 => ⟨S_, .i32⟩
  | 106 => ⟨S1048576x1x1, .i32⟩
  | 107 => ⟨S1048576x1x1, .i1⟩
  | 108 => ⟨S1x1x1, .i32⟩
  | 109 => ⟨S1048576x1x1, .i32⟩
  | 110 => ⟨S1048576x1x1, .i1⟩
  | 111 => ⟨S1048576x1x1, .i1⟩
  | 112 => ⟨S_, .i1⟩
  | 113 => ⟨S1048576x1, .i1⟩
  | 114 => ⟨S1048576x1, .f32⟩
  | 115 => ⟨S_, .f32⟩
  | 116 => ⟨S1048576x1, .f32⟩
  | 117 => ⟨S1048576x1, .f32⟩
  | 118 => ⟨S1048576, .f32⟩
  | 119 => ⟨S1048576, .f32⟩
  | 120 => ⟨S_, .i32⟩
  | 121 => ⟨S1048576, .i32⟩
  | 122 => ⟨S1048576, .i1⟩
  | 123 => ⟨S_, .i32⟩
  | 124 => ⟨S1048576, .i32⟩
  | 125 => ⟨S1048576, .i32⟩
  | 126 => ⟨S1048576, .i32⟩
  | 127 => ⟨S1048576x1, .i32⟩
  | _ => ⟨S1048576x64, .f32⟩

abbrev hbmTy0_1 (i : Nat) : BufTy := match i % 128 with
  | 0 => ⟨S1048576, .f32⟩
  | 1 => ⟨S1048576, .f32⟩
  | 2 => ⟨S1048576, .f32⟩
  | 3 => ⟨S1048576, .f32⟩
  | 4 => ⟨S_, .f32⟩
  | 5 => ⟨S_, .f32⟩
  | 6 => ⟨S_, .f32⟩
  | 7 => ⟨S_, .f32⟩
  | 8 => ⟨S_, .f32⟩
  | 9 => ⟨S_, .i32⟩
  | 10 => ⟨S1048576, .i32⟩
  | 11 => ⟨S1048576, .i1⟩
  | 12 => ⟨S1048576, .f32⟩
  | 13 => ⟨S_, .f32⟩
  | 14 => ⟨S_, .f32⟩
  | 15 => ⟨S_, .f32⟩
  | 16 => ⟨S_, .f32⟩
  | 17 => ⟨S1048576x3, .f32⟩
  | 18 => ⟨S1048576x3, .f32⟩
  | 19 => ⟨S1048576x3, .f32⟩
  | 20 => ⟨S_, .f32⟩
  | 21 => ⟨S1048576, .f32⟩
  | 22 => ⟨S1048576, .f32⟩
  | 23 => ⟨S_, .f32⟩
  | 24 => ⟨S_, .f32⟩
  | 25 => ⟨S_, .f32⟩
  | 26 => ⟨S1048576x3, .f32⟩
  | 27 => ⟨S_, .f32⟩
  | 28 => ⟨S1048576, .f32⟩
  | 29 => ⟨S1048576x1, .f32⟩
  | 30 => ⟨S1048576x1, .f32⟩
  | 31 => ⟨S_, .f32⟩
  | 32 => ⟨S1048576x1, .f32⟩
  | 33 => ⟨S1048576x1, .f32⟩
  | 34 => ⟨S1048576x3, .f32⟩
  | 35 => ⟨S1048576x3, .f32⟩
  | 36 => ⟨S1048576x3, .f32⟩
  | 37 => ⟨S_, .f32⟩
  | 38 => ⟨S1048576, .f32⟩
  | 39 => ⟨S1048576x1, .f32⟩
  | 40 => ⟨S1048576x1, .f32⟩
  | 41 => ⟨S_, .f32⟩
  | 42 => ⟨S1048576x1, .f32⟩
  | 43 => ⟨S1048576x1, .f32⟩
  | 44 => ⟨S1048576x3, .f32⟩
  | 45 => ⟨S1048576x3, .f32⟩
  | 46 => ⟨S1048576x3, .f32⟩
  | 47 => ⟨S_, .f32⟩
  | 48 => ⟨S1048576, .f32⟩
  | 49 => ⟨S1048576, .f32⟩
  | 50 => ⟨S1048576, .f32⟩
  | 51 => ⟨S_, .f32⟩
  | 52 => ⟨S_, .f32⟩
  | 53 => ⟨S_, .f32⟩
  | 54 => ⟨S_, .f32⟩
  | 55 => ⟨S_, .f32⟩
  | 56 => ⟨S1, .f32⟩
  | 57 => ⟨S1, .f32⟩
  | 58 => ⟨S1, .f32⟩
  | 59 => ⟨S1, .f32⟩
  | 60 => ⟨S4, .f32⟩
  | _ => ⟨S1048576x64, .f32⟩

abbrev hbmTy (i : Nat) : BufTy := match i / 128 with
  | 0 => hbmTy0_0 i
  | 1 => hbmTy0_1 i
  | _ => ⟨S1048576x64, .f32⟩

abbrev bufTy : (tb : Table) → Fin (tcTables nBuf tb) → BufTy
  | .hbm, ⟨i, _⟩ => hbmTy i
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_c : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_cst_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_cst_1 : Ref sig .tc := ⟨.hbm, 34, rfl⟩
abbrev main_call0_v8 : Ref sig .tc := ⟨.hbm, 35, rfl⟩
abbrev main_call0_cst_2 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_cst_3 : Ref sig .tc := ⟨.hbm, 40, rfl⟩
abbrev main_call0_v12 : Ref sig .tc := ⟨.hbm, 41, rfl⟩
abbrev main_call0_cst_4 : Ref sig .tc := ⟨.hbm, 42, rfl⟩
abbrev main_call0_call0_v0 : Ref sig .tc := ⟨.hbm, 43, rfl⟩
abbrev main_call0_call0_v1 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_cst_1 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_call1_cst : Ref sig .tc := ⟨.hbm, 62, rfl⟩
abbrev main_call1_v0 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_c_2 : Ref sig .tc := ⟨.hbm, 73, rfl⟩
abbrev main_v32 : Ref sig .tc := ⟨.hbm, 74, rfl⟩
abbrev main_v33 : Ref sig .tc := ⟨.hbm, 75, rfl⟩
abbrev main_c_3 : Ref sig .tc := ⟨.hbm, 76, rfl⟩
abbrev main_call2_v0 : Ref sig .tc := ⟨.hbm, 77, rfl⟩
abbrev main_call2_v1 : Ref sig .tc := ⟨.hbm, 78, rfl⟩
abbrev main_v34 : Ref sig .tc := ⟨.hbm, 79, rfl⟩
abbrev main_call3_cst : Ref sig .tc := ⟨.hbm, 80, rfl⟩
abbrev main_call3_v0 : Ref sig .tc := ⟨.hbm, 81, rfl⟩
abbrev main_call3_cst_0 : Ref sig .tc := ⟨.hbm, 82, rfl⟩
abbrev main_call3_v1 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_v5 : Ref sig .tc := ⟨.hbm, 87, rfl⟩
abbrev main_call3_v6 : Ref sig .tc := ⟨.hbm, 88, rfl⟩
abbrev main_call3_cst_1 : Ref sig .tc := ⟨.hbm, 89, rfl⟩
abbrev main_call3_v7 : Ref sig .tc := ⟨.hbm, 90, rfl⟩
abbrev main_call3_v8 : Ref sig .tc := ⟨.hbm, 91, rfl⟩
abbrev main_call3_v9 : Ref sig .tc := ⟨.hbm, 92, rfl⟩
abbrev main_call3_v10 : Ref sig .tc := ⟨.hbm, 93, rfl⟩
abbrev main_v35 : Ref sig .tc := ⟨.hbm, 94, rfl⟩
abbrev main_v36 : Ref sig .tc := ⟨.hbm, 95, rfl⟩
abbrev main_call4_c : Ref sig .tc := ⟨.hbm, 96, rfl⟩
abbrev main_call4_v0 : Ref sig .tc := ⟨.hbm, 97, rfl⟩
abbrev main_call4_v1 : Ref sig .tc := ⟨.hbm, 98, rfl⟩
abbrev main_call4_c_0 : Ref sig .tc := ⟨.hbm, 99, rfl⟩
abbrev main_call4_v2 : Ref sig .tc := ⟨.hbm, 100, rfl⟩
abbrev main_call4_v3 : Ref sig .tc := ⟨.hbm, 101, rfl⟩
abbrev main_call4_v4 : Ref sig .tc := ⟨.hbm, 102, rfl⟩
abbrev main_call4_v5 : Ref sig .tc := ⟨.hbm, 103, rfl⟩
abbrev main_call4_c_1 : Ref sig .tc := ⟨.hbm, 104, rfl⟩
abbrev main_call4_c_2 : Ref sig .tc := ⟨.hbm, 105, rfl⟩
abbrev main_call4_v6 : Ref sig .tc := ⟨.hbm, 106, rfl⟩
abbrev main_call4_v7 : Ref sig .tc := ⟨.hbm, 107, rfl⟩
abbrev main_call4_v8 : Ref sig .tc := ⟨.hbm, 108, rfl⟩
abbrev main_call4_v9 : Ref sig .tc := ⟨.hbm, 109, rfl⟩
abbrev main_call4_v10 : Ref sig .tc := ⟨.hbm, 110, rfl⟩
abbrev main_call4_v11 : Ref sig .tc := ⟨.hbm, 111, rfl⟩
abbrev main_call4_c_3 : Ref sig .tc := ⟨.hbm, 112, rfl⟩
abbrev main_call4_v12 : Ref sig .tc := ⟨.hbm, 113, rfl⟩
abbrev main_call4_v13 : Ref sig .tc := ⟨.hbm, 114, rfl⟩
abbrev main_call4_cst : Ref sig .tc := ⟨.hbm, 115, rfl⟩
abbrev main_call4_v14 : Ref sig .tc := ⟨.hbm, 116, rfl⟩
abbrev main_v37 : Ref sig .tc := ⟨.hbm, 117, rfl⟩
abbrev main_v38 : Ref sig .tc := ⟨.hbm, 118, rfl⟩
abbrev main_v39 : Ref sig .tc := ⟨.hbm, 119, rfl⟩
abbrev main_c_4 : Ref sig .tc := ⟨.hbm, 120, rfl⟩
abbrev main_v40 : Ref sig .tc := ⟨.hbm, 121, rfl⟩
abbrev main_v41 : Ref sig .tc := ⟨.hbm, 122, rfl⟩
abbrev main_c_5 : Ref sig .tc := ⟨.hbm, 123, rfl⟩
abbrev main_v42 : Ref sig .tc := ⟨.hbm, 124, rfl⟩
abbrev main_v43 : Ref sig .tc := ⟨.hbm, 125, rfl⟩
abbrev main_v44 : Ref sig .tc := ⟨.hbm, 126, rfl⟩
abbrev main_v45 : Ref sig .tc := ⟨.hbm, 127, rfl⟩
abbrev main_v46 : Ref sig .tc := ⟨.hbm, 128, rfl⟩
abbrev main_v47 : Ref sig .tc := ⟨.hbm, 129, rfl⟩
abbrev main_v48 : Ref sig .tc := ⟨.hbm, 130, rfl⟩
abbrev main_v49 : Ref sig .tc := ⟨.hbm, 131, rfl⟩
abbrev main_cst_6 : Ref sig .tc := ⟨.hbm, 132, rfl⟩
abbrev main_v50 : Ref sig .tc := ⟨.hbm, 133, rfl⟩
abbrev main_cst_7 : Ref sig .tc := ⟨.hbm, 134, rfl⟩
abbrev main_v51 : Ref sig .tc := ⟨.hbm, 135, rfl⟩
abbrev main_v52 : Ref sig .tc := ⟨.hbm, 136, rfl⟩
abbrev main_c_8 : Ref sig .tc := ⟨.hbm, 137, rfl⟩
abbrev main_v53 : Ref sig .tc := ⟨.hbm, 138, rfl⟩
abbrev main_v54 : Ref sig .tc := ⟨.hbm, 139, rfl⟩
abbrev main_v55 : Ref sig .tc := ⟨.hbm, 140, rfl⟩
abbrev main_cst_9 : Ref sig .tc := ⟨.hbm, 141, rfl⟩
abbrev main_v56 : Ref sig .tc := ⟨.hbm, 142, rfl⟩
abbrev main_cst_10 : Ref sig .tc := ⟨.hbm, 143, rfl⟩
abbrev main_v57 : Ref sig .tc := ⟨.hbm, 144, rfl⟩
abbrev main_v58 : Ref sig .tc := ⟨.hbm, 145, rfl⟩
abbrev main_v59 : Ref sig .tc := ⟨.hbm, 146, rfl⟩
abbrev main_v60 : Ref sig .tc := ⟨.hbm, 147, rfl⟩
abbrev main_cst_11 : Ref sig .tc := ⟨.hbm, 148, rfl⟩
abbrev main_v61 : Ref sig .tc := ⟨.hbm, 149, rfl⟩
abbrev main_v62 : Ref sig .tc := ⟨.hbm, 150, rfl⟩
abbrev main_cst_12 : Ref sig .tc := ⟨.hbm, 151, rfl⟩
abbrev main_v63 : Ref sig .tc := ⟨.hbm, 152, rfl⟩
abbrev main_v64 : Ref sig .tc := ⟨.hbm, 153, rfl⟩
abbrev main_call5_v0 : Ref sig .tc := ⟨.hbm, 154, rfl⟩
abbrev main_call5_cst : Ref sig .tc := ⟨.hbm, 155, rfl⟩
abbrev main_call5_v1 : Ref sig .tc := ⟨.hbm, 156, rfl⟩
abbrev main_call5_v2 : Ref sig .tc := ⟨.hbm, 157, rfl⟩
abbrev main_v65 : Ref sig .tc := ⟨.hbm, 158, rfl⟩
abbrev main_cst_13 : Ref sig .tc := ⟨.hbm, 159, rfl⟩
abbrev main_v66 : Ref sig .tc := ⟨.hbm, 160, rfl⟩
abbrev main_v67 : Ref sig .tc := ⟨.hbm, 161, rfl⟩
abbrev main_v68 : Ref sig .tc := ⟨.hbm, 162, rfl⟩
abbrev main_v69 : Ref sig .tc := ⟨.hbm, 163, rfl⟩
abbrev main_call6_v0 : Ref sig .tc := ⟨.hbm, 164, rfl⟩
abbrev main_call6_cst : Ref sig .tc := ⟨.hbm, 165, rfl⟩
abbrev main_call6_v1 : Ref sig .tc := ⟨.hbm, 166, rfl⟩
abbrev main_call6_v2 : Ref sig .tc := ⟨.hbm, 167, rfl⟩
abbrev main_v70 : Ref sig .tc := ⟨.hbm, 168, rfl⟩
abbrev main_cst_14 : Ref sig .tc := ⟨.hbm, 169, rfl⟩
abbrev main_v71 : Ref sig .tc := ⟨.hbm, 170, rfl⟩
abbrev main_v72 : Ref sig .tc := ⟨.hbm, 171, rfl⟩
abbrev main_v73 : Ref sig .tc := ⟨.hbm, 172, rfl⟩
abbrev main_v74 : Ref sig .tc := ⟨.hbm, 173, rfl⟩
abbrev main_v75 : Ref sig .tc := ⟨.hbm, 174, rfl⟩
abbrev main_cst_15 : Ref sig .tc := ⟨.hbm, 175, rfl⟩
abbrev main_v76 : Ref sig .tc := ⟨.hbm, 176, rfl⟩
abbrev main_v77 : Ref sig .tc := ⟨.hbm, 177, rfl⟩
abbrev main_v78 : Ref sig .tc := ⟨.hbm, 178, rfl⟩
abbrev main_cst_16 : Ref sig .tc := ⟨.hbm, 179, rfl⟩
abbrev main_v79 : Ref sig .tc := ⟨.hbm, 180, rfl⟩
abbrev main_v80 : Ref sig .tc := ⟨.hbm, 181, rfl⟩
abbrev main_v81 : Ref sig .tc := ⟨.hbm, 182, rfl⟩
abbrev main_v82 : Ref sig .tc := ⟨.hbm, 183, rfl⟩
abbrev main_v83 : Ref sig .tc := ⟨.hbm, 184, rfl⟩
abbrev main_v84 : Ref sig .tc := ⟨.hbm, 185, rfl⟩
abbrev main_v85 : Ref sig .tc := ⟨.hbm, 186, rfl⟩
abbrev main_v86 : Ref sig .tc := ⟨.hbm, 187, rfl⟩
abbrev main_v87 : Ref sig .tc := ⟨.hbm, 188, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  reducesTo_S1048576x64_S64_d0 : S1048576x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S1048576x64 : S_.BroadcastsInDim S1048576x64 (![] : Fin 0 → Fin S1048576x64.rank)
  bcast_S3_S1x3_1 : S3.BroadcastsInDim S1x3 (![1] : Fin 1 → Fin S1x3.rank)
  bcast_S1x3_S1048576x3_0_1 : S1x3.BroadcastsInDim S1048576x3 (![0, 1] : Fin 2 → Fin S1048576x3.rank)
  bcast_S20_S1x20_1 : S20.BroadcastsInDim S1x20 (![1] : Fin 1 → Fin S1x20.rank)
  bcast_S1x20_S1048576x20_0_1 : S1x20.BroadcastsInDim S1048576x20 (![0, 1] : Fin 2 → Fin S1048576x20.rank)
  bcast_S_S1048576 : S_.BroadcastsInDim S1048576 (![] : Fin 0 → Fin S1048576.rank)
  reducesTo_S1048576x20_S1048576_d1 : S1048576x20.ReducesTo [1] S1048576
  bcast_S1048576_S1048576x1_0 : S1048576.BroadcastsInDim S1048576x1 (![0] : Fin 1 → Fin S1048576x1.rank)
  bcast_S1048576x1_S1048576x20_0_1 : S1048576x1.BroadcastsInDim S1048576x20 (![0, 1] : Fin 2 → Fin S1048576x20.rank)
  bcast_S_S1048576x1 : S_.BroadcastsInDim S1048576x1 (![] : Fin 0 → Fin S1048576x1.rank)
  shapeCasts_S1048576x1_S1048576x1x1 : S1048576x1.ShapeCasts S1048576x1x1
  bcast_S_S1048576x1x1 : S_.BroadcastsInDim S1048576x1x1 (![] : Fin 0 → Fin S1048576x1x1.rank)
  bcast_S1_S1x1x1_2 : S1.BroadcastsInDim S1x1x1 (![2] : Fin 1 → Fin S1x1x1.rank)
  bcast_S1x1x1_S1048576x1x1_0_1_2 : S1x1x1.BroadcastsInDim S1048576x1x1 (![0, 1, 2] : Fin 3 → Fin S1048576x1x1.rank)
  reducesTo_S1048576x1x1_S1048576x1_d2 : S1048576x1x1.ReducesTo [2] S1048576x1
  shapeCasts_S1048576x1_S1048576 : S1048576x1.ShapeCasts S1048576
  reducesTo_S1048576_S_d0 : S1048576.ReducesTo [0] S_
  reducesTo_S1048576x3_S1048576_d1 : S1048576x3.ReducesTo [1] S1048576
  bcast_S1048576x1_S1048576x3_0_1 : S1048576x1.BroadcastsInDim S1048576x3 (![0, 1] : Fin 2 → Fin S1048576x3.rank)
  bcast_S_S1 : S_.BroadcastsInDim S1 (![] : Fin 0 → Fin S1.rank)
  concatenates_S1_S1_S1_S1_S4_d0 : Shape.Concatenates [S1, S1, S1, S1] S4 0
  dot_S1048576x64_S64x64_S1048576x64_1_0_0_1_n_n_wf : DotDims.WF S1048576x64 S64x64 S1048576x64 [1] [0] [0] [1] [] []
  dot_S1048576x64_S64x3_S1048576x3_1_0_0_1_n_n_wf : DotDims.WF S1048576x64 S64x3 S1048576x3 [1] [0] [0] [1] [] []
  dot_S1048576x64_S64x20_S1048576x20_1_0_0_1_n_n_wf : DotDims.WF S1048576x64 S64x20 S1048576x20 [1] [0] [0] [1] [] []
  gather_S1048576x20_S1048576x1x1_S1048576x1_n_1_0_0_1_2_11_wf : GatherDims.WF S1048576x20 S1048576x1x1 S1048576x1 [] [1] [0] [1] [0] 2 ![1, 1]
  gather_S20_S1048576x1_S1048576_n_0_n_n_0_1_1_wf : GatherDims.WF S20 S1048576x1 S1048576 [] [0] [] [0] [] 1 ![1]

variable [Facts₀]

def dot_S1048576x64_S64x64_S1048576x64_1_0_0_1_n_n : DotDims S1048576x64 S64x64 S1048576x64 where
  lhsContracting := [1]
  rhsContracting := [0]
  lhsNonContracting := [0]
  rhsNonContracting := [1]
  lhsBatch := []
  rhsBatch := []
  wf := dot_S1048576x64_S64x64_S1048576x64_1_0_0_1_n_n_wf
def dot_S1048576x64_S64x3_S1048576x3_1_0_0_1_n_n : DotDims S1048576x64 S64x3 S1048576x3 where
  lhsContracting := [1]
  rhsContracting := [0]
  lhsNonContracting := [0]
  rhsNonContracting := [1]
  lhsBatch := []
  rhsBatch := []
  wf := dot_S1048576x64_S64x3_S1048576x3_1_0_0_1_n_n_wf
def dot_S1048576x64_S64x20_S1048576x20_1_0_0_1_n_n : DotDims S1048576x64 S64x20 S1048576x20 where
  lhsContracting := [1]
  rhsContracting := [0]
  lhsNonContracting := [0]
  rhsNonContracting := [1]
  lhsBatch := []
  rhsBatch := []
  wf := dot_S1048576x64_S64x20_S1048576x20_1_0_0_1_n_n_wf
def gather_S1048576x20_S1048576x1x1_S1048576x1_n_1_0_0_1_2_11 : GatherDims S1048576x20 S1048576x1x1 S1048576x1 where
  offsetDims := []
  collapsedSliceDims := [1]
  operandBatchingDims := [0]
  startIndicesBatchingDims := [0]
  startIndexMap := [1]
  indexVectorDim := 2
  sliceSizes := ![1, 1]
  wf := gather_S1048576x20_S1048576x1x1_S1048576x1_n_1_0_0_1_2_11_wf
def gather_S20_S1048576x1_S1048576_n_0_n_n_0_1_1 : GatherDims S20 S1048576x1 S1048576 where
  offsetDims := []
  collapsedSliceDims := [0]
  operandBatchingDims := []
  startIndicesBatchingDims := []
  startIndexMap := [0]
  indexVectorDim := 1
  sliceSizes := ![1]
  wf := gather_S20_S1048576x1_S1048576_n_0_n_n_0_1_1_wf

class Facts : Prop extends Facts₀ where

variable [Facts]
-- ==== Proof.KB.R0Runs.lean ====
import proofs.«423175_j2508260901476_3_alg».proof.Proof.Gen.Kernel.Launch
import proofs.«423175_j2508260901476_3_alg».proof.Proof.Gen.Kernel.Skeleton
import proofs.«423175_j2508260901476_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's memref arguments, in window order, each a whole buffer. -/
structure Bufs0 where
  a0 : Memref sig .tc .vmem S16384x64 .f32
  h0 : a0.IsWhole
  a1 : Memref sig .tc .vmem S64x64 .f32
  h1 : a1.IsWhole
  a2 : Memref sig .tc .vmem S1x64 .f32
  h2 : a2.IsWhole
  a3 : Memref sig .tc .vmem S1x1x64 .f32
  h3 : a3.IsWhole
  a4 : Memref sig .tc .vmem S1x1x64 .f32
  h4 : a4.IsWhole

/-- The blocks the body reads. -/
structure Ins0 (F : FTy → Type) where
  x0 : Vec F S16384x64 .f32
  x1 : Vec F S64x64 .f32
  x2 : Vec F S1x64 .f32

/-- The accumulator rows: the column sums of the block's layer and of its squares. -/
abbrev Acc0 (F : FTy → Type) := Vec F S1x1x64 .f32 × Vec F S1x1x64 .f32

/-- The body's one branch: the inner grid coordinate is 0, that is every 32th point in grid order. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)

abbrev VO0_3 : View sig .tc .vmem S1x1x64 .f32 := (Memref.whole cc0_stg3_0 : Memref sig .tc .vmem S1x1x64 .f32).view
abbrev VO0_4 : View sig .tc .vmem S1x1x64 .f32 := (Memref.whole cc0_stg4_0 : Memref sig .tc .vmem S1x1x64 .f32).view

/-- The body's memref arguments at point `t`. -/
abbrev bufs0 (t : Fin cfg0.N) : Bufs0 where
  a0 := win0_0.stage (cfg0.slots t 0)
  h0 := hstage0_0 ((cfg0.slots t 0).cast nbuf0_0)
  a1 := win0_1.stage (cfg0.slots t 1)
  h1 := hstage0_1 ((cfg0.slots t 1).cast nbuf0_1)
  a2 := win0_2.stage (cfg0.slots t 2)
  h2 := hstage0_2 ((cfg0.slots t 2).cast nbuf0_2)
  a3 := win0_3.stage (cfg0.slots t 3)
  h3 := hstage0_3 ((cfg0.slots t 3).cast nbuf0_3)
  a4 := win0_4.stage (cfg0.slots t 4)
  h4 := hstage0_4 ((cfg0.slots t 4).cast nbuf0_4)

section Region0
variable (V : (c : Dev nD) → (b : Ref sig .tc) → Buf (Elt F) ((c : Thread nD τ).loc b))

/-- Window `w`'s block of its array at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The blocks read at point `t`. -/
abbrev ins0 (c : Dev nD) (t : Fin cfg0.N) : Ins0 F where
  x0 := iblk0 V c 0 t
  x1 := iblk0 V c 1 t
  x2 := iblk0 V c 2 t

end Region0

end Cert.Kernel.Gen

end
-- ==== Proof.KB.R0RunA.lean ====
import proofs.«423175_j2508260901476_3_alg».proof.Proof.KB.R0Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point whose inner coordinate is 0: the rows are cleared, then the block's sums are added. -/
noncomputable def kernelRun0_A (c : Dev nD) (i : grid0.Coords) (b : Bufs0) (hc0 : cond0_0 i) (x : Ins0 F) :
    Σ' (L3 : List (View.Piece (Elt F) S1x1x64 .f32)), { L4 : List (View.Piece (Elt F) S1x1x64 .f32) //
      ∀ (E : Set ℕ) (K : PUnit → sProp 𝕄),
        iprop(owns (c : Thread nD τ) b.a0 fullShare x.x0 ∗ owns (c : Thread nD τ) b.a1 fullShare x.x1 ∗ owns (c : Thread nD τ) b.a2 fullShare x.x2
            ∗ (∃ d, owns (c : Thread nD τ) b.a3 fullShare d) ∗ (∃ d, owns (c : Thread nD τ) b.a4 fullShare d)
            ∗ (iprop(owns (c : Thread nD τ) b.a0 fullShare x.x0 ∗ owns (c : Thread nD τ) b.a1 fullShare x.x1 ∗ owns (c : Thread nD τ) b.a2 fullShare x.x2
                ∗ (∃ f, b.a3.view.loc (c : Thread nD τ) ↦[b.a3.view.set]{fullShare} b.a3.view.writes (Elt F) f L3)
                ∗ (∃ f, b.a4.view.loc (c : Thread nD τ) ↦[b.a4.view.set]{fullShare} b.a4.view.writes (Elt F) f L4)) -∗ K ⟨⟩))
          ⊢ wp frame (wpE (defs₀ (F := F)) Variants.none c none) E (cc0__stats_kernel i b.a0 b.h0 b.a1 b.h1 b.a2 b.h2 b.a3 b.h3 b.a4 b.h4) K } := by
  refine ⟨?_, ?_, fun E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := b.h0.eq_unread hf0; obtain rfl := b.h1.eq_unread hf1; obtain rfl := b.h2.eq_unread hf2
    sl_exec (disch := first | exact hc0)
    sl_step
    iapply Hk
    isplitl [H0]
    · iexists _; isplitr; · ipureintro; exact b.h0.read_unread _
      iexact H0
    isplitl [H1]
    · iexists _; isplitr; · ipureintro; exact b.h1.read_unread _
      iexact H1
    isplitl [H2]
    · iexists _; isplitr; · ipureintro; exact b.h2.read_unread _
      iexact H2
    isplitl [H3]; · iexists _; iexact H3
    iexists _; iexact H4

end Cert.Kernel.Gen

end
-- ==== Proof.KB.R0RunB.lean ====
import proofs.«423175_j2508260901476_3_alg».proof.Proof.KB.R0RunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point whose inner coordinate is not 0: the block's sums are added to the rows `xo`. -/
noncomputable def kernelRun0_B (c : Dev nD) (i : grid0.Coords) (b : Bufs0) (hc0 : ¬cond0_0 i) (x : Ins0 F) (xo : Acc0 F) :
    Σ' (L3 : List (View.Piece (Elt F) S1x1x64 .f32)), { L4 : List (View.Piece (Elt F) S1x1x64 .f32) //
      ∀ (E : Set ℕ) (K : PUnit → sProp 𝕄),
        iprop(owns (c : Thread nD τ) b.a0 fullShare x.x0 ∗ owns (c : Thread nD τ) b.a1 fullShare x.x1 ∗ owns (c : Thread nD τ) b.a2 fullShare x.x2
            ∗ owns (c : Thread nD τ) b.a3 fullShare xo.1 ∗ owns (c : Thread nD τ) b.a4 fullShare xo.2
            ∗ (iprop(owns (c : Thread nD τ) b.a0 fullShare x.x0 ∗ owns (c : Thread nD τ) b.a1 fullShare x.x1 ∗ owns (c : Thread nD τ) b.a2 fullShare x.x2
                ∗ (∃ f, b.a3.view.loc (c : Thread nD τ) ↦[b.a3.view.set]{fullShare} b.a3.view.writes (Elt F) f L3)
                ∗ (∃ f, b.a4.view.loc (c : Thread nD τ) ↦[b.a4.view.set]{fullShare} b.a4.view.writes (Elt F) f L4)) -∗ K ⟨⟩))
          ⊢ wp frame (wpE (defs₀ (F := F)) Variants.none c none) E (cc0__stats_kernel i b.a0 b.h0 b.a1 b.h1 b.a2 b.h2 b.a3 b.h3 b.a4 b.h4) K } := by
  refine ⟨?_, ?_, fun E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := b.h0.eq_unread hf0; obtain rfl := b.h1.eq_unread hf1; obtain rfl := b.h2.eq_unread hf2
    obtain rfl := b.h3.eq_unread hf3; obtain rfl := b.h4.eq_unread hf4
    sl_exec (disch := first | exact hc0)
    sl_step
    iapply Hk
    isplitl [H0]
    · iexists _; isplitr; · ipureintro; exact b.h0.read_unread _
      iexact H0
    isplitl [H1]
    · iexists _; isplitr; · ipureintro; exact b.h1.read_unread _
      iexact H1
    isplitl [H2]
    · iexists _; isplitr; · ipureintro; exact b.h2.read_unread _
      iexact H2
    isplitl [H3]; · iexists _; iexact H3
    iexists _; iexact H4

end Cert.Kernel.Gen

end
-- ==== Proof.KB.R0Body.lean ====
import proofs.«423175_j2508260901476_3_alg».proof.Proof.KB.R0RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The clearing case's stores tile each row. -/
theorem cover0_A (c : Dev nD) (i : grid0.Coords) (b : Bufs0) (hc0 : cond0_0 i) (x : Ins0 F) :
    (∀ y, ∃ pc ∈ (kernelRun0_A c i b hc0 x).1, y ∈ pc.1.set)
    ∧ (∀ y, ∃ pc ∈ (kernelRun0_A c i b hc0 x).2.1, y ∈ pc.1.set) :=
  ⟨View.cover_of_tiledL (kernelRun0_A c i b hc0 x).1 S1x1x64.size (by sl_kernel_rfl),
   View.cover_of_tiledL (kernelRun0_A c i b hc0 x).2.1 S1x1x64.size (by sl_kernel_rfl)⟩

/-- The rows after the clearing case. -/
def out0_A (c : Dev nD) (i : grid0.Coords) (b : Bufs0) (hc0 : cond0_0 i) (x : Ins0 F) : Acc0 F :=
  (VO0_3.read (Elt F) (VO0_3.writes (Elt F) VO0_3.junk (kernelRun0_A c i b hc0 x).1),
   VO0_4.read (Elt F) (VO0_4.writes (Elt F) VO0_4.junk (kernelRun0_A c i b hc0 x).2.1))

/-- The adding case's one store covers each row. -/
theorem cover0_B (c : Dev nD) (i : grid0.Coords) (b : Bufs0) (hc0 : ¬cond0_0 i) (x : Ins0 F) (xo : Acc0 F) :
    (∀ y, ∃ pc ∈ (kernelRun0_B c i b hc0 x xo).1, y ∈ pc.1.set)
    ∧ (∀ y, ∃ pc ∈ (kernelRun0_B c i b hc0 x xo).2.1, y ∈ pc.1.set) :=
  ⟨View.cover_of_tiledL (kernelRun0_B c i b hc0 x xo).1 S1x1x64.size (by sl_kernel_rfl),
   View.cover_of_tiledL (kernelRun0_B c i b hc0 x xo).2.1 S1x1x64.size (by sl_kernel_rfl)⟩

/-- The rows after the adding case, over the rows `xo` before it. -/
def out0_B (c : Dev nD) (i : grid0.Coords) (b : Bufs0) (hc0 : ¬cond0_0 i) (x : Ins0 F) (xo : Acc0 F) : Acc0 F :=
  (VO0_3.read (Elt F) (VO0_3.writes (Elt F) VO0_3.junk (kernelRun0_B c i b hc0 x xo).1),
   VO0_4.read (Elt F) (VO0_4.writes (Elt F) VO0_4.junk (kernelRun0_B c i b hc0 x xo).2.1))

section Region0
variable (V : (c : Dev nD) → (b : Ref sig .tc) → Buf (Elt F) ((c : Thread nD τ).loc b))

/-- The two cases at grid point `t`. -/
def outA0 (c : Dev nD) (t : Fin cfg0.N) (h0 : t.val % 32 = 0) : Acc0 F :=
  out0_A c (grid0.coords t) (bufs0 t) ((hcond0_0 t).mpr h0) (ins0 V c t)
def outB0 (c : Dev nD) (t : Fin cfg0.N) (h0 : ¬t.val % 32 = 0) (xo : Acc0 F) : Acc0 F :=
  out0_B c (grid0.coords t) (bufs0 t) (fun h => h0 ((hcond0_0 t).mp h)) (ins0 V c t) xo

/-- The rows after the body at position `n`: restarted at every 32th point, added to otherwise. -/
def outsAt0 (c : Dev nD) : (n : ℕ) → n < cfg0.N → Acc0 F
  | 0, hn => outA0 V c ⟨0, hn⟩ (Nat.zero_mod _)
  | n + 1, hn =>
    if h0 : (n + 1) % 32 = 0 then outA0 V c ⟨n + 1, hn⟩ h0
    else outB0 V c ⟨n + 1, hn⟩ h0 (outsAt0 c n (Nat.lt_of_succ_lt hn))

theorem outsAt0_A (c : Dev nD) (t : Fin cfg0.N) (h0 : t.val % 32 = 0) : outsAt0 V c t.val t.isLt = outA0 V c t h0 := by
  obtain ⟨n, hn⟩ := t
  cases n with
  | zero => exact rfl
  | succ n => exact (dif_pos h0).trans rfl

theorem outsAt0_B (c : Dev nD) (t : Fin cfg0.N) (h0 : ¬t.val % 32 = 0) :
    outsAt0 V c t.val t.isLt = outB0 V c t h0 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans rfl

/-- The region's proof data on core `c`: each input at its block, the rows at `outsAt0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := rfl
theorem after0_3 (c : Dev nD) (t : Fin cfg0.N) : (dat0 V c).after 3 t = (outsAt0 V c t.val t.isLt).1 := rfl
theorem after0_4 (c : Dev nD) (t : Fin cfg0.N) : (dat0 V c).after 4 t = (outsAt0 V c t.val t.isLt).2 := rfl

theorem after0_0 (c : Dev nD) (t : Fin cfg0.N) : (dat0 V c).after 0 t = iblk0 V c 0 t := rfl
theorem after0_1 (c : Dev nD) (t : Fin cfg0.N) : (dat0 V c).after 1 t = iblk0 V c 1 t := rfl
theorem after0_2 (c : Dev nD) (t : Fin cfg0.N) : (dat0 V c).after 2 t = iblk0 V c 2 t := rfl
theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

/-- At an adding point the rows are what the point before left. -/
theorem before0_acc_B (c : Dev nD) (t : Fin cfg0.N) (h0 : ¬t.val % 32 = 0) :
    (∀ d, (dat0 V c).before 3 t d = (outsAt0 V c (t.val - 1) (Nat.lt_of_le_of_lt (Nat.sub_le _ _) t.isLt)).1)
    ∧ (∀ d, (dat0 V c).before 4 t d = (outsAt0 V c (t.val - 1) (Nat.lt_of_le_of_lt (Nat.sub_le _ _) t.isLt)).2) := by
  have hN : t.val < 64 := lt_of_lt_of_eq t.isLt (show cfg0.N = 64 from N_0)
  refine ⟨fun d => ?_, fun d => ?_⟩
  · exact Dat.before_out_kept (dat0 V c) 3 rfl t (by omega) (Bool.eq_false_iff.mpr fun h => by have := (flush0_3 _).mp h; dsimp only at this; omega)
      (fun _ => rfl) (fun _ _ => rfl) d
  · exact Dat.before_out_kept (dat0 V c) 4 rfl t (by omega) (Bool.eq_false_iff.mpr fun h => by have := (flush0_4 _).mp h; dsimp only at this; omega)
      (fun _ => rfl) (fun _ _ => rfl) d

/-- What the body is given at point `t`, -/
def bodyPre0 (c : Dev nD) (t : Fin cfg0.N) : sProp 𝕄 :=
  iprop((dat0 V c).Φ t.castSucc ∗ (dat0 V c).owesAt () t.castSucc
    ∗ (∃ d, owns (c : Thread nD τ) (bufs0 t).a0 fullShare ((dat0 V c).before 0 t d))
    ∗ (∃ d, owns (c : Thread nD τ) (bufs0 t).a1 fullShare ((dat0 V c).before 1 t d))
    ∗ (∃ d, owns (c : Thread nD τ) (bufs0 t).a2 fullShare ((dat0 V c).before 2 t d))
    ∗ (∃ d, owns (c : Thread nD τ) (bufs0 t).a3 fullShare ((dat0 V c).before 3 t d))
    ∗ (∃ d, owns (c : Thread nD τ) (bufs0 t).a4 fullShare ((dat0 V c).before 4 t d)))
/-- and what it returns. -/
def bodyPost0 (c : Dev nD) (t : Fin cfg0.N) : sProp 𝕄 :=
  iprop((dat0 V c).Φ t.succ ∗ (dat0 V c).owesAt () t.succ
    ∗ owns (c : Thread nD τ) (bufs0 t).a0 fullShare ((dat0 V c).after 0 t)
    ∗ owns (c : Thread nD τ) (bufs0 t).a1 fullShare ((dat0 V c).after 1 t)
    ∗ owns (c : Thread nD τ) (bufs0 t).a2 fullShare ((dat0 V c).after 2 t)
    ∗ owns (c : Thread nD τ) (bufs0 t).a3 fullShare ((dat0 V c).after 3 t)
    ∗ owns (c : Thread nD τ) (bufs0 t).a4 fullShare ((dat0 V c).after 4 t))

set_option maxHeartbeats 1600000 in
/-- At every point one of the two cases' runs applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2,
    after0_3, after0_4]
  by_cases h0 : t.val % 32 = 0
  · rw [outsAt0_A V c t h0]
    dsimp only [outA0, out0_A]
    iintro ⟨HΦ, Ho, ⟨%d0, H0⟩, ⟨%d1, H1⟩, ⟨%d2, H2⟩, ⟨%d3, H3⟩, ⟨%d4, H4⟩⟩
    iapply ((kernelRun0_A c (grid0.coords t) (bufs0 t) ((hcond0_0 t).mpr h0) (ins0 V c t)).2.2 Set.univ _)
    iframe
    isplitl [H3]; · iexists _; iexact H3
    isplitl [H4]; · iexists _; iexact H4
    iintro ⟨H0, H1, H2, ⟨%e3, H3⟩, ⟨%e4, H4⟩⟩
    iframe
    isplitl [H3]
    · unfold owns; iexists _; isplitr
      swap; · iexact H3
      ipureintro; exact View.read_writes_of_cover _ _ _ _ _ (cover0_A c _ _ _ _).1
    · unfold owns; iexists _; isplitr
      swap; · iexact H4
      ipureintro; exact View.read_writes_of_cover _ _ _ _ _ (cover0_A c _ _ _ _).2
  · rw [outsAt0_B V c t h0]
    dsimp only [outB0, out0_B]
    simp only [before0_acc_B V c t h0]
    iintro ⟨HΦ, Ho, ⟨%d0, H0⟩, ⟨%d1, H1⟩, ⟨%d2, H2⟩, ⟨%d3, H3⟩, ⟨%d4, H4⟩⟩
    iapply ((kernelRun0_B c (grid0.coords t) (bufs0 t) (fun h => h0 ((hcond0_0 t).mp h)) (ins0 V c t) (outsAt0 V c (t.val - 1) (Nat.lt_of_le_of_lt (Nat.sub_le _ _) t.isLt))).2.2 Set.univ _)
    iframe
    iintro ⟨H0, H1, H2, ⟨%e3, H3⟩, ⟨%e4, H4⟩⟩
    iframe
    isplitl [H3]
    · unfold owns; iexists _; isplitr
      swap; · iexact H3
      ipureintro; exact View.read_writes_of_cover _ _ _ _ _ (cover0_B c _ _ _ _ _).1
    · unfold owns; iexists _; isplitr
      swap; · iexact H4
      ipureintro; exact View.read_writes_of_cover _ _ _ _ _ (cover0_B c _ _ _ _ _).2

theorem body_obligation0 (c : Dev nD) : BodyObligation (dat0 (F := F) V c) (defs₀ (F := F)) Variants.none () Set.univ := fun t => by
  rw [bigSep_W0, bigSep_W0]
  exact sound_body0 V c t

end Region0

end Cert.Kernel.Gen

end
-- ==== Proof.KB.R1Runs.lean ====
import proofs.«423175_j2508260901476_3_alg».proof.Proof.Gen.Kernel.Launch
import proofs.«423175_j2508260901476_3_alg».proof.Proof.Gen.Kernel.Skeleton
import proofs.«423175_j2508260901476_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's memref arguments, in window order, each a whole buffer. -/
structure Bufs1 where
  a0 : Memref sig .tc .vmem S2048x64 .f32
  h0 : a0.IsWhole
  a1 : Memref sig .tc .vmem S2048x3 .f32
  h1 : a1.IsWhole
  a2 : Memref sig .tc .vmem S2048x3 .f32
  h2 : a2.IsWhole
  a3 : Memref sig .tc .vmem S2048x1 .i32
  h3 : a3.IsWhole
  a4 : Memref sig .tc .vmem S2048x1 .i32
  h4 : a4.IsWhole
  a5 : Memref sig .tc .vmem S64x64 .f32
  h5 : a5.IsWhole
  a6 : Memref sig .tc .vmem S1x64 .f32
  h6 : a6.IsWhole
  a7 : Memref sig .tc .vmem S64x3 .f32
  h7 : a7.IsWhole
  a8 : Memref sig .tc .vmem S1x3 .f32
  h8 : a8.IsWhole
  a9 : Memref sig .tc .vmem S64x20 .f32
  h9 : a9.IsWhole
  a10 : Memref sig .tc .vmem S1x20 .f32
  h10 : a10.IsWhole
  a11 : Memref sig .tc .vmem S1x20 .f32
  h11 : a11.IsWhole
  a12 : Memref sig .tc .vmem S1x1x1 .f32
  h12 : a12.IsWhole
  a13 : Memref sig .tc .vmem S1x1x1 .f32
  h13 : a13.IsWhole
  a14 : Memref sig .tc .vmem S1x1x1 .f32
  h14 : a14.IsWhole
  a15 : Memref sig .tc .vmem S1x1x1 .f32
  h15 : a15.IsWhole
  a16 : Memref sig .tc .vmem S1x1x1 .f32
  h16 : a16.IsWhole

/-- The blocks the body reads. -/
structure Ins1 (F : FTy → Type) where
  x0 : Vec F S2048x64 .f32
  x1 : Vec F S2048x3 .f32
  x2 : Vec F S2048x3 .f32
  x3 : Vec F S2048x1 .i32
  x4 : Vec F S2048x1 .i32
  x5 : Vec F S64x64 .f32
  x6 : Vec F S1x64 .f32
  x7 : Vec F S64x3 .f32
  x8 : Vec F S1x3 .f32
  x9 : Vec F S64x20 .f32
  x10 : Vec F S1x20 .f32
  x11 : Vec F S1x20 .f32

/-- The accumulator rows: the sums of the weights, of weight * nll, of the mask, of the masked L1 distance, of the masked cosine term. -/
abbrev Acc1 (F : FTy → Type) := Vec F S1x1x1 .f32 × Vec F S1x1x1 .f32 × Vec F S1x1x1 .f32 × Vec F S1x1x1 .f32 × Vec F S1x1x1 .f32

/-- The body's one branch: the inner grid coordinate is 0, that is every 256th point in grid order. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 256 = 0 :=
  (by decide +kernel : ∀ t : Fin grid1.N, cond1_0 (grid1.coords t) ↔ t.val % 256 = 0)

abbrev VO1_12 : View sig .tc .vmem S1x1x1 .f32 := (Memref.whole cc1_stg12_0 : Memref sig .tc .vmem S1x1x1 .f32).view
abbrev VO1_13 : View sig .tc .vmem S1x1x1 .f32 := (Memref.whole cc1_stg13_0 : Memref sig .tc .vmem S1x1x1 .f32).view
abbrev VO1_14 : View sig .tc .vmem S1x1x1 .f32 := (Memref.whole cc1_stg14_0 : Memref sig .tc .vmem S1x1x1 .f32).view
abbrev VO1_15 : View sig .tc .vmem S1x1x1 .f32 := (Memref.whole cc1_stg15_0 : Memref sig .tc .vmem S1x1x1 .f32).view
abbrev VO1_16 : View sig .tc .vmem S1x1x1 .f32 := (Memref.whole cc1_stg16_0 : Memref sig .tc .vmem S1x1x1 .f32).view

/-- The body's memref arguments at point `t`. -/
abbrev bufs1 (t : Fin cfg1.N) : Bufs1 where
  a0 := win1_0.stage (cfg1.slots t 0)
  h0 := hstage1_0 ((cfg1.slots t 0).cast nbuf1_0)
  a1 := win1_1.stage (cfg1.slots t 1)
  h1 := hstage1_1 ((cfg1.slots t 1).cast nbuf1_1)
  a2 := win1_2.stage (cfg1.slots t 2)
  h2 := hstage1_2 ((cfg1.slots t 2).cast nbuf1_2)
  a3 := win1_3.stage (cfg1.slots t 3)
  h3 := hstage1_3 ((cfg1.slots t 3).cast nbuf1_3)
  a4 := win1_4.stage (cfg1.slots t 4)
  h4 := hstage1_4 ((cfg1.slots t 4).cast nbuf1_4)
  a5 := win1_5.stage (cfg1.slots t 5)
  h5 := hstage1_5 ((cfg1.slots t 5).cast nbuf1_5)
  a6 := win1_6.stage (cfg1.slots t 6)
  h6 := hstage1_6 ((cfg1.slots t 6).cast nbuf1_6)
  a7 := win1_7.stage (cfg1.slots t 7)
  h7 := hstage1_7 ((cfg1.slots t 7).cast nbuf1_7)
  a8 := win1_8.stage (cfg1.slots t 8)
  h8 := hstage1_8 ((cfg1.slots t 8).cast nbuf1_8)
  a9 := win1_9.stage (cfg1.slots t 9)
  h9 := hstage1_9 ((cfg1.slots t 9).cast nbuf1_9)
  a10 := win1_10.stage (cfg1.slots t 10)
  h10 := hstage1_10 ((cfg1.slots t 10).cast nbuf1_10)
  a11 := win1_11.stage (cfg1.slots t 11)
  h11 := hstage1_11 ((cfg1.slots t 11).cast nbuf1_11)
  a12 := win1_12.stage (cfg1.slots t 12)
  h12 := hstage1_12 ((cfg1.slots t 12).cast nbuf1_12)
  a13 := win1_13.stage (cfg1.slots t 13)
  h13 := hstage1_13 ((cfg1.slots t 13).cast nbuf1_13)
  a14 := win1_14.stage (cfg1.slots t 14)
  h14 := hstage1_14 ((cfg1.slots t 14).cast nbuf1_14)
  a15 := win1_15.stage (cfg1.slots t 15)
  h15 := hstage1_15 ((cfg1.slots t 15).cast nbuf1_15)
  a16 := win1_16.stage (cfg1.slots t 16)
  h16 := hstage1_16 ((cfg1.slots t 16).cast nbuf1_16)

section Region1
variable (V : (c : Dev nD) → (b : Ref sig .tc) → Buf (Elt F) ((c : Thread nD τ).loc b))

/-- Window `w`'s block of its array at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The blocks read at point `t`. -/
abbrev ins1 (c : Dev nD) (t : Fin cfg1.N) : Ins1 F where
  x0 := iblk1 V c 0 t
  x1 := iblk1 V c 1 t
  x2 := iblk1 V c 2 t
  x3 := iblk1 V c 3 t
  x4 := iblk1 V c 4 t
  x5 := iblk1 V c 5 t
  x6 := iblk1 V c 6 t
  x7 := iblk1 V c 7 t
  x8 := iblk1 V c 8 t
  x9 := iblk1 V c 9 t
  x10 := iblk1 V c 10 t
  x11 := iblk1 V c 11 t

end Region1

end Cert.Kernel.Gen

end
-- ==== Proof.KB.R1RunA.lean ====
import proofs.«423175_j2508260901476_3_alg».proof.Proof.KB.R1Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point whose inner coordinate is 0: the rows are cleared, then the block's sums are added. -/
noncomputable def kernelRun1_A (c : Dev nD) (i : grid1.Coords) (b : Bufs1) (hc0 : cond1_0 i) (x : Ins1 F) :
    Σ' (L12 L13 L14 L15 : List (View.Piece (Elt F) S1x1x1 .f32)), { L16 : List (View.Piece (Elt F) S1x1x1 .f32) //
      ∀ (E : Set ℕ) (K : PUnit → sProp 𝕄),
        iprop(owns (c : Thread nD τ) b.a0 fullShare x.x0 ∗ owns (c : Thread nD τ) b.a1 fullShare x.x1 ∗ owns (c : Thread nD τ) b.a2 fullShare x.x2
            ∗ owns (c : Thread nD τ) b.a3 fullShare x.x3 ∗ owns (c : Thread nD τ) b.a4 fullShare x.x4 ∗ owns (c : Thread nD τ) b.a5 fullShare x.x5
            ∗ owns (c : Thread nD τ) b.a6 fullShare x.x6 ∗ owns (c : Thread nD τ) b.a7 fullShare x.x7 ∗ owns (c : Thread nD τ) b.a8 fullShare x.x8
            ∗ owns (c : Thread nD τ) b.a9 fullShare x.x9 ∗ owns (c : Thread nD τ) b.a10 fullShare x.x10 ∗ owns (c : Thread nD τ) b.a11 fullShare x.x11
            ∗ (∃ d, owns (c : Thread nD τ) b.a12 fullShare d) ∗ (∃ d, owns (c : Thread nD τ) b.a13 fullShare d) ∗ (∃ d, owns (c : Thread nD τ) b.a14 fullShare d)
            ∗ (∃ d, owns (c : Thread nD τ) b.a15 fullShare d) ∗ (∃ d, owns (c : Thread nD τ) b.a16 fullShare d)
            ∗ (iprop(owns (c : Thread nD τ) b.a0 fullShare x.x0 ∗ owns (c : Thread nD τ) b.a1 fullShare x.x1 ∗ owns (c : Thread nD τ) b.a2 fullShare x.x2
            ∗ owns (c : Thread nD τ) b.a3 fullShare x.x3 ∗ owns (c : Thread nD τ) b.a4 fullShare x.x4 ∗ owns (c : Thread nD τ) b.a5 fullShare x.x5
            ∗ owns (c : Thread nD τ) b.a6 fullShare x.x6 ∗ owns (c : Thread nD τ) b.a7 fullShare x.x7 ∗ owns (c : Thread nD τ) b.a8 fullShare x.x8
            ∗ owns (c : Thread nD τ) b.a9 fullShare x.x9 ∗ owns (c : Thread nD τ) b.a10 fullShare x.x10 ∗ owns (c : Thread nD τ) b.a11 fullShare x.x11
                ∗ (∃ f, b.a12.view.loc (c : Thread nD τ) ↦[b.a12.view.set]{fullShare} b.a12.view.writes (Elt F) f L12)
                ∗ (∃ f, b.a13.view.loc (c : Thread nD τ) ↦[b.a13.view.set]{fullShare} b.a13.view.writes (Elt F) f L13)
                ∗ (∃ f, b.a14.view.loc (c : Thread nD τ) ↦[b.a14.view.set]{fullShare} b.a14.view.writes (Elt F) f L14)
                ∗ (∃ f, b.a15.view.loc (c : Thread nD τ) ↦[b.a15.view.set]{fullShare} b.a15.view.writes (Elt F) f L15)
                ∗ (∃ f, b.a16.view.loc (c : Thread nD τ) ↦[b.a16.view.set]{fullShare} b.a16.view.writes (Elt F) f L16)) -∗ K ⟨⟩))
          ⊢ wp frame (wpE (defs₀ (F := F)) Variants.none c none) E (cc1__main_kernel i b.a0 b.h0 b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16) K } := by
  refine ⟨?_, ?_, ?_, ?_, ?_, fun E K => ?run⟩
  case run =>
    simp only [cc1__main_kernel_eq_skeleton]; unfold cc1__main_kernel_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, Hk⟩
    obtain rfl := b.h0.eq_unread hf0; obtain rfl := b.h1.eq_unread hf1; obtain rfl := b.h2.eq_unread hf2
    obtain rfl := b.h3.eq_unread hf3; obtain rfl := b.h4.eq_unread hf4; obtain rfl := b.h5.eq_unread hf5
    obtain rfl := b.h6.eq_unread hf6; obtain rfl := b.h7.eq_unread hf7; obtain rfl := b.h8.eq_unread hf8
    obtain rfl := b.h9.eq_unread hf9; obtain rfl := b.h10.eq_unread hf10; obtain rfl := b.h11.eq_unread hf11
    sl_exec (disch := first | exact hc0)
    sl_step
    iapply Hk
    isplitl [H0]
    · iexists _; isplitr; · ipureintro; exact b.h0.read_unread _
      iexact H0
    isplitl [H1]
    · iexists _; isplitr; · ipureintro; exact b.h1.read_unread _
      iexact H1
    isplitl [H2]
    · iexists _; isplitr; · ipureintro; exact b.h2.read_unread _
      iexact H2
    isplitl [H3]
    · iexists _; isplitr; · ipureintro; exact b.h3.read_unread _
      iexact H3
    isplitl [H4]
    · iexists _; isplitr; · ipureintro; exact b.h4.read_unread _
      iexact H4
    isplitl [H5]
    · iexists _; isplitr; · ipureintro; exact b.h5.read_unread _
      iexact H5
    isplitl [H6]
    · iexists _; isplitr; · ipureintro; exact b.h6.read_unread _
      iexact H6
    isplitl [H7]
    · iexists _; isplitr; · ipureintro; exact b.h7.read_unread _
      iexact H7
    isplitl [H8]
    · iexists _; isplitr; · ipureintro; exact b.h8.read_unread _
      iexact H8
    isplitl [H9]
    · iexists _; isplitr; · ipureintro; exact b.h9.read_unread _
      iexact H9
    isplitl [H10]
    · iexists _; isplitr; · ipureintro; exact b.h10.read_unread _
      iexact H10
    isplitl [H11]
    · iexists _; isplitr; · ipureintro; exact b.h11.read_unread _
      iexact H11
    isplitl [H12]; · iexists _; iexact H12
    isplitl [H13]; · iexists _; iexact H13
    isplitl [H14]; · iexists _; iexact H14
    isplitl [H15]; · iexists _; iexact H15
    iexists _; iexact H16

end Cert.Kernel.Gen

end
-- ==== Proof.KB.R1RunB.lean ====
import proofs.«423175_j2508260901476_3_alg».proof.Proof.KB.R1Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point whose inner coordinate is not 0: the block's sums are added to the rows `xo`. -/
noncomputable def kernelRun1_B (c : Dev nD) (i : grid1.Coords) (b : Bufs1) (hc0 : ¬cond1_0 i) (x : Ins1 F) (xo : Acc1 F) :
    Σ' (L12 L13 L14 L15 : List (View.Piece (Elt F) S1x1x1 .f32)), { L16 : List (View.Piece (Elt F) S1x1x1 .f32) //
      ∀ (E : Set ℕ) (K : PUnit → sProp 𝕄),
        iprop(owns (c : Thread nD τ) b.a0 fullShare x.x0 ∗ owns (c : Thread nD τ) b.a1 fullShare x.x1 ∗ owns (c : Thread nD τ) b.a2 fullShare x.x2
            ∗ owns (c : Thread nD τ) b.a3 fullShare x.x3 ∗ owns (c : Thread nD τ) b.a4 fullShare x.x4 ∗ owns (c : Thread nD τ) b.a5 fullShare x.x5
            ∗ owns (c : Thread nD τ) b.a6 fullShare x.x6 ∗ owns (c : Thread nD τ) b.a7 fullShare x.x7 ∗ owns (c : Thread nD τ) b.a8 fullShare x.x8
            ∗ owns (c : Thread nD τ) b.a9 fullShare x.x9 ∗ owns (c : Thread nD τ) b.a10 fullShare x.x10 ∗ owns (c : Thread nD τ) b.a11 fullShare x.x11
            ∗ owns (c : Thread nD τ) b.a12 fullShare xo.1 ∗ owns (c : Thread nD τ) b.a13 fullShare xo.2.1 ∗ owns (c : Thread nD τ) b.a14 fullShare xo.2.2.1
            ∗ owns (c : Thread nD τ) b.a15 fullShare xo.2.2.2.1 ∗ owns (c : Thread nD τ) b.a16 fullShare xo.2.2.2.2
            ∗ (iprop(owns (c : Thread nD τ) b.a0 fullShare x.x0 ∗ owns (c : Thread nD τ) b.a1 fullShare x.x1 ∗ owns (c : Thread nD τ) b.a2 fullShare x.x2
            ∗ owns (c : Thread nD τ) b.a3 fullShare x.x3 ∗ owns (c : Thread nD τ) b.a4 fullShare x.x4 ∗ owns (c : Thread nD τ) b.a5 fullShare x.x5
            ∗ owns (c : Thread nD τ) b.a6 fullShare x.x6 ∗ owns (c : Thread nD τ) b.a7 fullShare x.x7 ∗ owns (c : Thread nD τ) b.a8 fullShare x.x8
            ∗ owns (c : Thread nD τ) b.a9 fullShare x.x9 ∗ owns (c : Thread nD τ) b.a10 fullShare x.x10 ∗ owns (c : Thread nD τ) b.a11 fullShare x.x11
                ∗ (∃ f, b.a12.view.loc (c : Thread nD τ) ↦[b.a12.view.set]{fullShare} b.a12.view.writes (Elt F) f L12)
                ∗ (∃ f, b.a13.view.loc (c : Thread nD τ) ↦[b.a13.view.set]{fullShare} b.a13.view.writes (Elt F) f L13)
                ∗ (∃ f, b.a14.view.loc (c : Thread nD τ) ↦[b.a14.view.set]{fullShare} b.a14.view.writes (Elt F) f L14)
                ∗ (∃ f, b.a15.view.loc (c : Thread nD τ) ↦[b.a15.view.set]{fullShare} b.a15.view.writes (Elt F) f L15)
                ∗ (∃ f, b.a16.view.loc (c : Thread nD τ) ↦[b.a16.view.set]{fullShare} b.a16.view.writes (Elt F) f L16)) -∗ K ⟨⟩))
          ⊢ wp frame (wpE (defs₀ (F := F)) Variants.none c none) E (cc1__main_kernel i b.a0 b.h0 b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16) K } := by
  refine ⟨?_, ?_, ?_, ?_, ?_, fun E K => ?run⟩
  case run =>
    simp only [cc1__main_kernel_eq_skeleton]; unfold cc1__main_kernel_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
    obtain rfl := b.h0.eq_unread hf0; obtain rfl := b.h1.eq_unread hf1; obtain rfl := b.h2.eq_unread hf2
    obtain rfl := b.h3.eq_unread hf3; obtain rfl := b.h4.eq_unread hf4; obtain rfl := b.h5.eq_unread hf5
    obtain rfl := b.h6.eq_unread hf6; obtain rfl := b.h7.eq_unread hf7; obtain rfl := b.h8.eq_unread hf8
    obtain rfl := b.h9.eq_unread hf9; obtain rfl := b.h10.eq_unread hf10; obtain rfl := b.h11.eq_unread hf11
    obtain rfl := b.h12.eq_unread hf12; obtain rfl := b.h13.eq_unread hf13; obtain rfl := b.h14.eq_unread hf14
    obtain rfl := b.h15.eq_unread hf15; obtain rfl := b.h16.eq_unread hf16
    sl_exec (disch := first | exact hc0)
    sl_step
    iapply Hk
    isplitl [H0]
    · iexists _; isplitr; · ipureintro; exact b.h0.read_unread _
      iexact H0
    isplitl [H1]
    · iexists _; isplitr; · ipureintro; exact b.h1.read_unread _
      iexact H1
    isplitl [H2]
    · iexists _; isplitr; · ipureintro; exact b.h2.read_unread _
      iexact H2
    isplitl [H3]
    · iexists _; isplitr; · ipureintro; exact b.h3.read_unread _
      iexact H3
    isplitl [H4]
    · iexists _; isplitr; · ipureintro; exact b.h4.read_unread _
      iexact H4
    isplitl [H5]
    · iexists _; isplitr; · ipureintro; exact b.h5.read_unread _
      iexact H5
    isplitl [H6]
    · iexists _; isplitr; · ipureintro; exact b.h6.read_unread _
      iexact H6
    isplitl [H7]
    · iexists _; isplitr; · ipureintro; exact b.h7.read_unread _
      iexact H7
    isplitl [H8]
    · iexists _; isplitr; · ipureintro; exact b.h8.read_unread _
      iexact H8
    isplitl [H9]
    · iexists _; isplitr; · ipureintro; exact b.h9.read_unread _
      iexact H9
    isplitl [H10]
    · iexists _; isplitr; · ipureintro; exact b.h10.read_unread _
      iexact H10
    isplitl [H11]
    · iexists _; isplitr; · ipureintro; exact b.h11.read_unread _
      iexact H11
    isplitl [H12]; · iexists _; iexact H12
    isplitl [H13]; · iexists _; iexact H13
    isplitl [H14]; · iexists _; iexact H14
    isplitl [H15]; · iexists _; iexact H15
    iexists _; iexact H16

end Cert.Kernel.Gen

end
-- ==== Proof.KB.R1Body.lean ====
import proofs.«423175_j2508260901476_3_alg».proof.Proof.KB.R1RunA
import proofs.«423175_j2508260901476_3_alg».proof.Proof.KB.R1RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The clearing case's stores tile each row. -/
theorem cover1_A (c : Dev nD) (i : grid1.Coords) (b : Bufs1) (hc0 : cond1_0 i) (x : Ins1 F) :
    (∀ y, ∃ pc ∈ (kernelRun1_A c i b hc0 x).1, y ∈ pc.1.set)
    ∧ (∀ y, ∃ pc ∈ (kernelRun1_A c i b hc0 x).2.1, y ∈ pc.1.set)
    ∧ (∀ y, ∃ pc ∈ (kernelRun1_A c i b hc0 x).2.2.1, y ∈ pc.1.set)
    ∧ (∀ y, ∃ pc ∈ (kernelRun1_A c i b hc0 x).2.2.2.1, y ∈ pc.1.set)
    ∧ (∀ y, ∃ pc ∈ (kernelRun1_A c i b hc0 x).2.2.2.2.1, y ∈ pc.1.set) :=
  ⟨View.cover_of_tiledL (kernelRun1_A c i b hc0 x).1 S1x1x1.size (by sl_kernel_rfl),
   View.cover_of_tiledL (kernelRun1_A c i b hc0 x).2.1 S1x1x1.size (by sl_kernel_rfl),
   View.cover_of_tiledL (kernelRun1_A c i b hc0 x).2.2.1 S1x1x1.size (by sl_kernel_rfl),
   View.cover_of_tiledL (kernelRun1_A c i b hc0 x).2.2.2.1 S1x1x1.size (by sl_kernel_rfl),
   View.cover_of_tiledL (kernelRun1_A c i b hc0 x).2.2.2.2.1 S1x1x1.size (by sl_kernel_rfl)⟩

/-- The rows after the clearing case. -/
def out1_A (c : Dev nD) (i : grid1.Coords) (b : Bufs1) (hc0 : cond1_0 i) (x : Ins1 F) : Acc1 F :=
  (VO1_12.read (Elt F) (VO1_12.writes (Elt F) VO1_12.junk (kernelRun1_A c i b hc0 x).1),
   VO1_13.read (Elt F) (VO1_13.writes (Elt F) VO1_13.junk (kernelRun1_A c i b hc0 x).2.1),
   VO1_14.read (Elt F) (VO1_14.writes (Elt F) VO1_14.junk (kernelRun1_A c i b hc0 x).2.2.1),
   VO1_15.read (Elt F) (VO1_15.writes (Elt F) VO1_15.junk (kernelRun1_A c i b hc0 x).2.2.2.1),
   VO1_16.read (Elt F) (VO1_16.writes (Elt F) VO1_16.junk (kernelRun1_A c i b hc0 x).2.2.2.2.1))

/-- The adding case's one store covers each row. -/
theorem cover1_B (c : Dev nD) (i : grid1.Coords) (b : Bufs1) (hc0 : ¬cond1_0 i) (x : Ins1 F) (xo : Acc1 F) :
    (∀ y, ∃ pc ∈ (kernelRun1_B c i b hc0 x xo).1, y ∈ pc.1.set)
    ∧ (∀ y, ∃ pc ∈ (kernelRun1_B c i b hc0 x xo).2.1, y ∈ pc.1.set)
    ∧ (∀ y, ∃ pc ∈ (kernelRun1_B c i b hc0 x xo).2.2.1, y ∈ pc.1.set)
    ∧ (∀ y, ∃ pc ∈ (kernelRun1_B c i b hc0 x xo).2.2.2.1, y ∈ pc.1.set)
    ∧ (∀ y, ∃ pc ∈ (kernelRun1_B c i b hc0 x xo).2.2.2.2.1, y ∈ pc.1.set) :=
  ⟨View.cover_of_tiledL (kernelRun1_B c i b hc0 x xo).1 S1x1x1.size (by sl_kernel_rfl),
   View.cover_of_tiledL (kernelRun1_B c i b hc0 x xo).2.1 S1x1x1.size (by sl_kernel_rfl),
   View.cover_of_tiledL (kernelRun1_B c i b hc0 x xo).2.2.1 S1x1x1.size (by sl_kernel_rfl),
   View.cover_of_tiledL (kernelRun1_B c i b hc0 x xo).2.2.2.1 S1x1x1.size (by sl_kernel_rfl),
   View.cover_of_tiledL (kernelRun1_B c i b hc0 x xo).2.2.2.2.1 S1x1x1.size (by sl_kernel_rfl)⟩

/-- The rows after the adding case, over the rows `xo` before it. -/
def out1_B (c : Dev nD) (i : grid1.Coords) (b : Bufs1) (hc0 : ¬cond1_0 i) (x : Ins1 F) (xo : Acc1 F) : Acc1 F :=
  (VO1_12.read (Elt F) (VO1_12.writes (Elt F) VO1_12.junk (kernelRun1_B c i b hc0 x xo).1),
   VO1_13.read (Elt F) (VO1_13.writes (Elt F) VO1_13.junk (kernelRun1_B c i b hc0 x xo).2.1),
   VO1_14.read (Elt F) (VO1_14.writes (Elt F) VO1_14.junk (kernelRun1_B c i b hc0 x xo).2.2.1),
   VO1_15.read (Elt F) (VO1_15.writes (Elt F) VO1_15.junk (kernelRun1_B c i b hc0 x xo).2.2.2.1),
   VO1_16.read (Elt F) (VO1_16.writes (Elt F) VO1_16.junk (kernelRun1_B c i b hc0 x xo).2.2.2.2.1))

section Region1
variable (V : (c : Dev nD) → (b : Ref sig .tc) → Buf (Elt F) ((c : Thread nD τ).loc b))

/-- The two cases at grid point `t`. -/
def outA1 (c : Dev nD) (t : Fin cfg1.N) (h0 : t.val % 256 = 0) : Acc1 F :=
  out1_A c (grid1.coords t) (bufs1 t) ((hcond1_0 t).mpr h0) (ins1 V c t)
def outB1 (c : Dev nD) (t : Fin cfg1.N) (h0 : ¬t.val % 256 = 0) (xo : Acc1 F) : Acc1 F :=
  out1_B c (grid1.coords t) (bufs1 t) (fun h => h0 ((hcond1_0 t).mp h)) (ins1 V c t) xo

/-- The rows after the body at position `n`: restarted at every 256th point, added to otherwise. -/
def outsAt1 (c : Dev nD) : (n : ℕ) → n < cfg1.N → Acc1 F
  | 0, hn => outA1 V c ⟨0, hn⟩ (Nat.zero_mod _)
  | n + 1, hn =>
    if h0 : (n + 1) % 256 = 0 then outA1 V c ⟨n + 1, hn⟩ h0
    else outB1 V c ⟨n + 1, hn⟩ h0 (outsAt1 c n (Nat.lt_of_succ_lt hn))

theorem outsAt1_A (c : Dev nD) (t : Fin cfg1.N) (h0 : t.val % 256 = 0) : outsAt1 V c t.val t.isLt = outA1 V c t h0 := by
  obtain ⟨n, hn⟩ := t
  cases n with
  | zero => exact rfl
  | succ n => exact (dif_pos h0).trans rfl

theorem outsAt1_B (c : Dev nD) (t : Fin cfg1.N) (h0 : ¬t.val % 256 = 0) :
    outsAt1 V c t.val t.isLt = outB1 V c t h0 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans rfl

/-- The region's proof data on core `c`: each input at its block, the rows at `outsAt1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => (outsAt1 V c t.val t.isLt).1
    | ⟨13, _⟩ => (outsAt1 V c t.val t.isLt).2.1
    | ⟨14, _⟩ => (outsAt1 V c t.val t.isLt).2.2.1
    | ⟨15, _⟩ => (outsAt1 V c t.val t.isLt).2.2.2.1
    | ⟨16, _⟩ => (outsAt1 V c t.val t.isLt).2.2.2.2
    | ⟨_ + 17, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := rfl
theorem after1_12 (c : Dev nD) (t : Fin cfg1.N) : (dat1 V c).after 12 t = (outsAt1 V c t.val t.isLt).1 := rfl
theorem after1_13 (c : Dev nD) (t : Fin cfg1.N) : (dat1 V c).after 13 t = (outsAt1 V c t.val t.isLt).2.1 := rfl
theorem after1_14 (c : Dev nD) (t : Fin cfg1.N) : (dat1 V c).after 14 t = (outsAt1 V c t.val t.isLt).2.2.1 := rfl
theorem after1_15 (c : Dev nD) (t : Fin cfg1.N) : (dat1 V c).after 15 t = (outsAt1 V c t.val t.isLt).2.2.2.1 := rfl
theorem after1_16 (c : Dev nD) (t : Fin cfg1.N) : (dat1 V c).after 16 t = (outsAt1 V c t.val t.isLt).2.2.2.2 := rfl

theorem after1_0 (c : Dev nD) (t : Fin cfg1.N) : (dat1 V c).after 0 t = iblk1 V c 0 t := rfl
theorem after1_1 (c : Dev nD) (t : Fin cfg1.N) : (dat1 V c).after 1 t = iblk1 V c 1 t := rfl
theorem after1_2 (c : Dev nD) (t : Fin cfg1.N) : (dat1 V c).after 2 t = iblk1 V c 2 t := rfl
theorem after1_3 (c : Dev nD) (t : Fin cfg1.N) : (dat1 V c).after 3 t = iblk1 V c 3 t := rfl
theorem after1_4 (c : Dev nD) (t : Fin cfg1.N) : (dat1 V c).after 4 t = iblk1 V c 4 t := rfl
theorem after1_5 (c : Dev nD) (t : Fin cfg1.N) : (dat1 V c).after 5 t = iblk1 V c 5 t := rfl
theorem after1_6 (c : Dev nD) (t : Fin cfg1.N) : (dat1 V c).after 6 t = iblk1 V c 6 t := rfl
theorem after1_7 (c : Dev nD) (t : Fin cfg1.N) : (dat1 V c).after 7 t = iblk1 V c 7 t := rfl
theorem after1_8 (c : Dev nD) (t : Fin cfg1.N) : (dat1 V c).after 8 t = iblk1 V c 8 t := rfl
theorem after1_9 (c : Dev nD) (t : Fin cfg1.N) : (dat1 V c).after 9 t = iblk1 V c 9 t := rfl
theorem after1_10 (c : Dev nD) (t : Fin cfg1.N) : (dat1 V c).after 10 t = iblk1 V c 10 t := rfl
theorem after1_11 (c : Dev nD) (t : Fin cfg1.N) : (dat1 V c).after 11 t = iblk1 V c 11 t := rfl
theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl
theorem before1_6 (c : Dev nD) (t : Fin cfg1.N) (d) : (dat1 V c).before 6 t d = iblk1 V c 6 t :=
  ((dat1 V c).before_in_eq_fetched 6 rfl (fun _ => rfl) (fun _ _ _ => rfl) (fun _ => rfl) t d).trans rfl
theorem before1_7 (c : Dev nD) (t : Fin cfg1.N) (d) : (dat1 V c).before 7 t d = iblk1 V c 7 t :=
  ((dat1 V c).before_in_eq_fetched 7 rfl (fun _ => rfl) (fun _ _ _ => rfl) (fun _ => rfl) t d).trans rfl
theorem before1_8 (c : Dev nD) (t : Fin cfg1.N) (d) : (dat1 V c).before 8 t d = iblk1 V c 8 t :=
  ((dat1 V c).before_in_eq_fetched 8 rfl (fun _ => rfl) (fun _ _ _ => rfl) (fun _ => rfl) t d).trans rfl
theorem before1_9 (c : Dev nD) (t : Fin cfg1.N) (d) : (dat1 V c).before 9 t d = iblk1 V c 9 t :=
  ((dat1 V c).before_in_eq_fetched 9 rfl (fun _ => rfl) (fun _ _ _ => rfl) (fun _ => rfl) t d).trans rfl
theorem before1_10 (c : Dev nD) (t : Fin cfg1.N) (d) : (dat1 V c).before 10 t d = iblk1 V c 10 t :=
  ((dat1 V c).before_in_eq_fetched 10 rfl (fun _ => rfl) (fun _ _ _ => rfl) (fun _ => rfl) t d).trans rfl
theorem before1_11 (c : Dev nD) (t : Fin cfg1.N) (d) : (dat1 V c).before 11 t d = iblk1 V c 11 t :=
  ((dat1 V c).before_in_eq_fetched 11 rfl (fun _ => rfl) (fun _ _ _ => rfl) (fun _ => rfl) t d).trans rfl

/-- At an adding point the rows are what the point before left. -/
theorem before1_acc_B (c : Dev nD) (t : Fin cfg1.N) (h0 : ¬t.val % 256 = 0) :
    (∀ d, (dat1 V c).before 12 t d = (outsAt1 V c (t.val - 1) (Nat.lt_of_le_of_lt (Nat.sub_le _ _) t.isLt)).1)
    ∧ (∀ d, (dat1 V c).before 13 t d = (outsAt1 V c (t.val - 1) (Nat.lt_of_le_of_lt (Nat.sub_le _ _) t.isLt)).2.1)
    ∧ (∀ d, (dat1 V c).before 14 t d = (outsAt1 V c (t.val - 1) (Nat.lt_of_le_of_lt (Nat.sub_le _ _) t.isLt)).2.2.1)
    ∧ (∀ d, (dat1 V c).before 15 t d = (outsAt1 V c (t.val - 1) (Nat.lt_of_le_of_lt (Nat.sub_le _ _) t.isLt)).2.2.2.1)
    ∧ (∀ d, (dat1 V c).before 16 t d = (outsAt1 V c (t.val - 1) (Nat.lt_of_le_of_lt (Nat.sub_le _ _) t.isLt)).2.2.2.2) := by
  have hN : t.val < 512 := lt_of_lt_of_eq t.isLt (show cfg1.N = 512 from N_1)
  refine ⟨fun d => ?_, fun d => ?_, fun d => ?_, fun d => ?_, fun d => ?_⟩
  · exact Dat.before_out_kept (dat1 V c) 12 rfl t (by omega) (Bool.eq_false_iff.mpr fun h => by have := (flush1_12 _).mp h; dsimp only at this; omega)
      (fun _ => rfl) (fun _ _ => rfl) d
  · exact Dat.before_out_kept (dat1 V c) 13 rfl t (by omega) (Bool.eq_false_iff.mpr fun h => by have := (flush1_13 _).mp h; dsimp only at this; omega)
      (fun _ => rfl) (fun _ _ => rfl) d
  · exact Dat.before_out_kept (dat1 V c) 14 rfl t (by omega) (Bool.eq_false_iff.mpr fun h => by have := (flush1_14 _).mp h; dsimp only at this; omega)
      (fun _ => rfl) (fun _ _ => rfl) d
  · exact Dat.before_out_kept (dat1 V c) 15 rfl t (by omega) (Bool.eq_false_iff.mpr fun h => by have := (flush1_15 _).mp h; dsimp only at this; omega)
      (fun _ => rfl) (fun _ _ => rfl) d
  · exact Dat.before_out_kept (dat1 V c) 16 rfl t (by omega) (Bool.eq_false_iff.mpr fun h => by have := (flush1_16 _).mp h; dsimp only at this; omega)
      (fun _ => rfl) (fun _ _ => rfl) d

/-- What the body is given at point `t`, -/
def bodyPre1 (c : Dev nD) (t : Fin cfg1.N) : sProp 𝕄 :=
  iprop((dat1 V c).Φ t.castSucc ∗ (dat1 V c).owesAt () t.castSucc
    ∗ (∃ d, owns (c : Thread nD τ) (bufs1 t).a0 fullShare ((dat1 V c).before 0 t d))
    ∗ (∃ d, owns (c : Thread nD τ) (bufs1 t).a1 fullShare ((dat1 V c).before 1 t d))
    ∗ (∃ d, owns (c : Thread nD τ) (bufs1 t).a2 fullShare ((dat1 V c).before 2 t d))
    ∗ (∃ d, owns (c : Thread nD τ) (bufs1 t).a3 fullShare ((dat1 V c).before 3 t d))
    ∗ (∃ d, owns (c : Thread nD τ) (bufs1 t).a4 fullShare ((dat1 V c).before 4 t d))
    ∗ (∃ d, owns (c : Thread nD τ) (bufs1 t).a5 fullShare ((dat1 V c).before 5 t d))
    ∗ (∃ d, owns (c : Thread nD τ) (bufs1 t).a6 fullShare ((dat1 V c).before 6 t d))
    ∗ (∃ d, owns (c : Thread nD τ) (bufs1 t).a7 fullShare ((dat1 V c).before 7 t d))
    ∗ (∃ d, owns (c : Thread nD τ) (bufs1 t).a8 fullShare ((dat1 V c).before 8 t d))
    ∗ (∃ d, owns (c : Thread nD τ) (bufs1 t).a9 fullShare ((dat1 V c).before 9 t d))
    ∗ (∃ d, owns (c : Thread nD τ) (bufs1 t).a10 fullShare ((dat1 V c).before 10 t d))
    ∗ (∃ d, owns (c : Thread nD τ) (bufs1 t).a11 fullShare ((dat1 V c).before 11 t d))
    ∗ (∃ d, owns (c : Thread nD τ) (bufs1 t).a12 fullShare ((dat1 V c).before 12 t d))
    ∗ (∃ d, owns (c : Thread nD τ) (bufs1 t).a13 fullShare ((dat1 V c).before 13 t d))
    ∗ (∃ d, owns (c : Thread nD τ) (bufs1 t).a14 fullShare ((dat1 V c).before 14 t d))
    ∗ (∃ d, owns (c : Thread nD τ) (bufs1 t).a15 fullShare ((dat1 V c).before 15 t d))
    ∗ (∃ d, owns (c : Thread nD τ) (bufs1 t).a16 fullShare ((dat1 V c).before 16 t d)))
/-- and what it returns. -/
def bodyPost1 (c : Dev nD) (t : Fin cfg1.N) : sProp 𝕄 :=
  iprop((dat1 V c).Φ t.succ ∗ (dat1 V c).owesAt () t.succ
    ∗ owns (c : Thread nD τ) (bufs1 t).a0 fullShare ((dat1 V c).after 0 t)
    ∗ owns (c : Thread nD τ) (bufs1 t).a1 fullShare ((dat1 V c).after 1 t)
    ∗ owns (c : Thread nD τ) (bufs1 t).a2 fullShare ((dat1 V c).after 2 t)
    ∗ owns (c : Thread nD τ) (bufs1 t).a3 fullShare ((dat1 V c).after 3 t)
    ∗ owns (c : Thread nD τ) (bufs1 t).a4 fullShare ((dat1 V c).after 4 t)
    ∗ owns (c : Thread nD τ) (bufs1 t).a5 fullShare ((dat1 V c).after 5 t)
    ∗ owns (c : Thread nD τ) (bufs1 t).a6 fullShare ((dat1 V c).after 6 t)
    ∗ owns (c : Thread nD τ) (bufs1 t).a7 fullShare ((dat1 V c).after 7 t)
    ∗ owns (c : Thread nD τ) (bufs1 t).a8 fullShare ((dat1 V c).after 8 t)
    ∗ owns (c : Thread nD τ) (bufs1 t).a9 fullShare ((dat1 V c).after 9 t)
    ∗ owns (c : Thread nD τ) (bufs1 t).a10 fullShare ((dat1 V c).after 10 t)
    ∗ owns (c : Thread nD τ) (bufs1 t).a11 fullShare ((dat1 V c).after 11 t)
    ∗ owns (c : Thread nD τ) (bufs1 t).a12 fullShare ((dat1 V c).after 12 t)
    ∗ owns (c : Thread nD τ) (bufs1 t).a13 fullShare ((dat1 V c).after 13 t)
    ∗ owns (c : Thread nD τ) (bufs1 t).a14 fullShare ((dat1 V c).after 14 t)
    ∗ owns (c : Thread nD τ) (bufs1 t).a15 fullShare ((dat1 V c).after 15 t)
    ∗ owns (c : Thread nD τ) (bufs1 t).a16 fullShare ((dat1 V c).after 16 t))

set_option maxHeartbeats 4000000 in
/-- At every point one of the two cases' runs applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11,
    after1_12, after1_13, after1_14, after1_15, after1_16]
  by_cases h0 : t.val % 256 = 0
  · rw [outsAt1_A V c t h0]
    dsimp only [outA1, out1_A]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((kernelRun1_A c (grid1.coords t) (bufs1 t) ((hcond1_0 t).mpr h0) (ins1 V c t)).2.2.2.2.2 Set.univ _)
    iframe
    isplitl [H12]; · iexists _; iexact H12
    isplitl [H13]; · iexists _; iexact H13
    isplitl [H14]; · iexists _; iexact H14
    isplitl [H15]; · iexists _; iexact H15
    isplitl [H16]; · iexists _; iexact H16
    iintro ⟨H0, H1, H2, H3, H4, H5, H6, H7, H8, H9, H10, H11, ⟨%e12, H12⟩, ⟨%e13, H13⟩, ⟨%e14, H14⟩, ⟨%e15, H15⟩, ⟨%e16, H16⟩⟩
    iframe
    isplitl [H12]
    · unfold owns; iexists _; isplitr
      swap; · iexact H12
      ipureintro; exact View.read_writes_of_cover _ _ _ _ _ (cover1_A c _ _ _ _).1
    isplitl [H13]
    · unfold owns; iexists _; isplitr
      swap; · iexact H13
      ipureintro; exact View.read_writes_of_cover _ _ _ _ _ (cover1_A c _ _ _ _).2.1
    isplitl [H14]
    · unfold owns; iexists _; isplitr
      swap; · iexact H14
      ipureintro; exact View.read_writes_of_cover _ _ _ _ _ (cover1_A c _ _ _ _).2.2.1
    isplitl [H15]
    · unfold owns; iexists _; isplitr
      swap; · iexact H15
      ipureintro; exact View.read_writes_of_cover _ _ _ _ _ (cover1_A c _ _ _ _).2.2.2.1
    · unfold owns; iexists _; isplitr
      swap; · iexact H16
      ipureintro; exact View.read_writes_of_cover _ _ _ _ _ (cover1_A c _ _ _ _).2.2.2.2
  · rw [outsAt1_B V c t h0]
    dsimp only [outB1, out1_B]
    simp only [before1_acc_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((kernelRun1_B c (grid1.coords t) (bufs1 t) (fun h => h0 ((hcond1_0 t).mp h)) (ins1 V c t) (outsAt1 V c (t.val - 1) (Nat.lt_of_le_of_lt (Nat.sub_le _ _) t.isLt))).2.2.2.2.2 Set.univ _)
    iframe
    iintro ⟨H0, H1, H2, H3, H4, H5, H6, H7, H8, H9, H10, H11, ⟨%e12, H12⟩, ⟨%e13, H13⟩, ⟨%e14, H14⟩, ⟨%e15, H15⟩, ⟨%e16, H16⟩⟩
    iframe
    isplitl [H12]
    · unfold owns; iexists _; isplitr
      swap; · iexact H12
      ipureintro; exact View.read_writes_of_cover _ _ _ _ _ (cover1_B c _ _ _ _ _).1
    isplitl [H13]
    · unfold owns; iexists _; isplitr
      swap; · iexact H13
      ipureintro; exact View.read_writes_of_cover _ _ _ _ _ (cover1_B c _ _ _ _ _).2.1
    isplitl [H14]
    · unfold owns; iexists _; isplitr
      swap; · iexact H14
      ipureintro; exact View.read_writes_of_cover _ _ _ _ _ (cover1_B c _ _ _ _ _).2.2.1
    isplitl [H15]
    · unfold owns; iexists _; isplitr
      swap; · iexact H15
      ipureintro; exact View.read_writes_of_cover _ _ _ _ _ (cover1_B c _ _ _ _ _).2.2.2.1
    · unfold owns; iexists _; isplitr
      swap; · iexact H16
      ipureintro; exact View.read_writes_of_cover _ _ _ _ _ (cover1_B c _ _ _ _ _).2.2.2.2

theorem body_obligation1 (c : Dev nD) : BodyObligation (dat1 (F := F) V c) (defs₀ (F := F)) Variants.none () Set.univ := fun t => by
  rw [bigSep_W1, bigSep_W1]
  exact sound_body1 V c t

end Region1

end Cert.Kernel.Gen

end
-- ==== Proof.KB.Run.lean ====
import proofs.«423175_j2508260901476_3_alg».proof.Proof.KB.R0Body
import proofs.«423175_j2508260901476_3_alg».proof.Proof.KB.R1Body
import proofs.«423175_j2508260901476_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers' contents between the five segments of @main: at launch, after each host stretch and after each pass. -/
abbrev W0 : Dev nD → Valuation τ sig (Elt F) := fun c b => m (c, b)
abbrev W1 : Dev nD → Valuation τ sig (Elt F) := fun c => StableHlo.after hostOps0 (W0 m c)
abbrev U1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
abbrev W3 : Dev nD → Valuation τ sig (Elt F) := fun c => StableHlo.after hostOps1 (W2 m c)
abbrev U3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
abbrev W5 : Dev nD → Valuation τ sig (Elt F) := fun c => StableHlo.after hostOps2 (W4 m c)

/-- Each pass's proof data at its entry contents. -/
def pdatsH : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱H : Variants := Variants.none
abbrev LH : GSem nD τ sig → Finset Unit := fun _ => ∅
abbrev lvH : GSem nD τ sig → Unit → ℕ := fun _ _ => 0
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
abbrev TnH (c : Dev nD) : sProp 𝕄 := iprop(StableHlo.held (c : Thread nD τ) (Pipeline.ucRefs τ sig) (W5 m c) ∗ ∃ r, prngReg c r)

theorem hlastH (c : Dev nD) :
    (iprop(StableHlo.held (c : Thread nD τ) (Pipeline.ucRefs τ sig) (W5 m c) ∗ RH c) : sProp 𝕄)
      ⊢ iprop(TnH m c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- The statistics pass as a segment: every unscoped buffer goes from `W1` to `W2`. -/
def reg0 : Pipeline.RegionSeg (pcfgs (F := F)) adm (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (U1 m c) (U2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The main pass as a segment: from `W3` to `W4`. -/
def reg1 : Pipeline.RegionSeg (pcfgs (F := F)) adm (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ LH lvH 1 fun _ _ => rfl
  pre c := iprop(StableHlo.held (c : Thread nD τ) (Pipeline.ucRefs τ sig) (W3 m c) ∗ RH c)
  post c := iprop(StableHlo.held (c : Thread nD τ) (Pipeline.ucRefs τ sig) (W4 m c) ∗ RH c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdatsH m) launch1.win launch1.arr_whole c
      ((pdatsH m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (U3 m c) (U4 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segsH : List (Pipeline.Seg (pcfgs (F := F)) adm (pdatsH m) () defs₀ 𝒱H LH lvH) :=
  [ .host (hsegH hostOps0 hostOps0_sub hostOps0_fresh (W0 m)),
    .region (reg0 m),
    .host (hsegH hostOps1 hostOps1_sub hostOps1_fresh (W2 m)),
    .region (reg1 m),
    .host (hsegH hostOps2 hostOps2_sub hostOps2_fresh (W4 m)) ]

set_option backward.isDefEq.respectTransparency.types false in
/-- Every weakly fair execution of @main terminates, nothing faulting, with every unscoped buffer of every core at `W5`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit_dev (pcfgs (F := F)) adm (pdatsH m) () cellOf_inj emb₁ defs₀ 𝒱H LH lvH m ρ main (fun _ => segsH m)
    (fun c Q => by
      rewrite [main_chain c, Pipeline.Seg.run_eq_chain,
        show (segsH m).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TnH m)
    (hch := fun c => ⟨.rfl, .rfl, .rfl, .rfl, .rfl, hlastH m c⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.Kernel.Gen

end
-- ==== Proof.KB.RunArgs.lean ====
import proofs.«423175_j2508260901476_3_alg».proof.Proof.KB.Run

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A buffer that no host operation writes, and that each pass leaves alone or only reads, ends as launched. -/
theorem W5_kept (c : Dev nD) (b : Ref sig .tc) (h2 : b ∉ hostOps2_W) (h1 : b ∉ hostOps1_W) (h0 : b ∉ hostOps0_W)
    (e43 : W4 m c (Proc.devRef .tc b) = W3 m c (Proc.devRef .tc b)) (e21 : W2 m c (Proc.devRef .tc b) = W1 m c (Proc.devRef .tc b)) :
    W5 m c (Proc.devRef .tc b) = m ((c : Thread nD τ).loc b) :=
  (StableHlo.after_of_writes_sub hostOps2 _ hostOps2_writes h2).trans (e43.trans ((StableHlo.after_of_writes_sub hostOps1 _ hostOps1_writes h1).trans
    (e21.trans (StableHlo.after_of_writes_sub hostOps0 _ hostOps0_writes h0))))

/-- The run read at the result buffer and at the arguments. -/
theorem runResult : θ_run defs (onTc (τ := τ) (main (F := F))) ⟨m, fun _ => 0, ρ⟩ (fun r => ∀ c : Dev nD,
      r.2.mem ((c.tc : Thread nD τ).loc main_v72) = W5 m c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨h c _ (mem_ucH main_v72 (by decide)),
      (h c _ (mem_ucH main_arg0 (by decide))).trans (W5_kept m c main_arg0 (by decide) (by decide) (by decide) ((W4_arr m c 0).trans (((dat1 (U3 m) c).arrAt_in 0 rfl _).trans (A_eq1 (U3 m) c 0))) ((W2_arr m c 0).trans (((dat0 (U1 m) c).arrAt_in 0 rfl _).trans (A_eq0 (U1 m) c 0)))),
      (h c _ (mem_ucH main_arg1 (by decide))).trans (W5_kept m c main_arg1 (by decide) (by decide) (by decide) ((W4_arr m c 1).trans (((dat1 (U3 m) c).arrAt_in 1 rfl _).trans (A_eq1 (U3 m) c 1))) (W2_of_ne m c main_arg1 (by decide))),
      (h c _ (mem_ucH main_arg2 (by decide))).trans (W5_kept m c main_arg2 (by decide) (by decide) (by decide) (W4_of_ne m c main_arg2 (by decide)) (W2_of_ne m c main_arg2 (by decide))),
      (h c _ (mem_ucH main_arg3 (by decide))).trans (W5_kept m c main_arg3 (by decide) (by decide) (by decide) (W4_of_ne m c main_arg3 (by decide)) (W2_of_ne m c main_arg3 (by decide))),
      (h c _ (mem_ucH main_arg4 (by decide))).trans (W5_kept m c main_arg4 (by decide) (by decide) (by decide) ((W4_arr m c 2).trans (((dat1 (U3 m) c).arrAt_in 2 rfl _).trans (A_eq1 (U3 m) c 2))) (W2_of_ne m c main_arg4 (by decide))),
      (h c _ (mem_ucH main_arg5 (by decide))).trans (W5_kept m c main_arg5 (by decide) (by decide) (by decide) (W4_of_ne m c main_arg5 (by decide)) ((W2_arr m c 1).trans (((dat0 (U1 m) c).arrAt_in 1 rfl _).trans (A_eq0 (U1 m) c 1)))),
      (h c _ (mem_ucH main_arg6 (by decide))).trans (W5_kept m c main_arg6 (by decide) (by decide) (by decide) (W4_of_ne m c main_arg6 (by decide)) (W2_of_ne m c main_arg6 (by decide))),
      (h c _ (mem_ucH main_arg7 (by decide))).trans (W5_kept m c main_arg7 (by decide) (by decide) (by decide) (W4_of_ne m c main_arg7 (by decide)) (W2_of_ne m c main_arg7 (by decide))),
      (h c _ (mem_ucH main_arg8 (by decide))).trans (W5_kept m c main_arg8 (by decide) (by decide) (by decide) (W4_of_ne m c main_arg8 (by decide)) (W2_of_ne m c main_arg8 (by decide))),
      (h c _ (mem_ucH main_arg9 (by decide))).trans (W5_kept m c main_arg9 (by decide) (by decide) (by decide) ((W4_arr m c 7).trans (((dat1 (U3 m) c).arrAt_in 7 rfl _).trans (A_eq1 (U3 m) c 7))) (W2_of_ne m c main_arg9 (by decide))),
      (h c _ (mem_ucH main_arg10 (by decide))).trans (W5_kept m c main_arg10 (by decide) (by decide) (by decide) (W4_of_ne m c main_arg10 (by decide)) (W2_of_ne m c main_arg10 (by decide))),
      (h c _ (mem_ucH main_arg11 (by decide))).trans (W5_kept m c main_arg11 (by decide) (by decide) (by decide) ((W4_arr m c 9).trans (((dat1 (U3 m) c).arrAt_in 9 rfl _).trans (A_eq1 (U3 m) c 9))) (W2_of_ne m c main_arg11 (by decide))),
      (h c _ (mem_ucH main_arg12 (by decide))).trans (W5_kept m c main_arg12 (by decide) (by decide) (by decide) (W4_of_ne m c main_arg12 (by decide)) (W2_of_ne m c main_arg12 (by decide))),
      (h c _ (mem_ucH main_arg13 (by decide))).trans (W5_kept m c main_arg13 (by decide) (by decide) (by decide) (W4_of_ne m c main_arg13 (by decide)) (W2_of_ne m c main_arg13 (by decide)))⟩) (run m ρ)

/-- The frame: every execution terminates, nothing faults, the arguments end as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => (h c).2) (runResult m ρ)

end Cert.Kernel.Gen

end
-- ==== Proof.KI.R0Runs.lean ====
import proofs.«423175_j2508260901476_3_alg».proof.Proof.Gen.KernelIdeal.Launch
import proofs.«423175_j2508260901476_3_alg».proof.Proof.Gen.KernelIdeal.Skeleton
import proofs.«423175_j2508260901476_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's memref arguments, in window order, each a whole buffer. -/
structure Bufs0 where
  a0 : Memref sig .tc .vmem S16384x64 .f32
  h0 : a0.IsWhole
  a1 : Memref sig .tc .vmem S64x64 .f32
  h1 : a1.IsWhole
  a2 : Memref sig .tc .vmem S1x64 .f32
  h2 : a2.IsWhole
  a3 : Memref sig .tc .vmem S1x1x64 .f32
  h3 : a3.IsWhole
  a4 : Memref sig .tc .vmem S1x1x64 .f32
  h4 : a4.IsWhole

/-- The blocks the body reads. -/
structure Ins0 (F : FTy → Type) where
  x0 : Vec F S16384x64 .f32
  x1 : Vec F S64x64 .f32
  x2 : Vec F S1x64 .f32

/-- The accumulator rows: the column sums of the block's layer and of its squares. -/
abbrev Acc0 (F : FTy → Type) := Vec F S1x1x64 .f32 × Vec F S1x1x64 .f32

/-- The body's one branch: the inner grid coordinate is 0, that is every 32th point in grid order. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)

abbrev VO0_3 : View sig .tc .vmem S1x1x64 .f32 := (Memref.whole cc0_stg3_0 : Memref sig .tc .vmem S1x1x64 .f32).view
abbrev VO0_4 : View sig .tc .vmem S1x1x64 .f32 := (Memref.whole cc0_stg4_0 : Memref sig .tc .vmem S1x1x64 .f32).view

/-- The body's memref arguments at point `t`. -/
abbrev bufs0 (t : Fin cfg0.N) : Bufs0 where
  a0 := win0_0.stage (cfg0.slots t 0)
  h0 := hstage0_0 ((cfg0.slots t 0).cast nbuf0_0)
  a1 := win0_1.stage (cfg0.slots t 1)
  h1 := hstage0_1 ((cfg0.slots t 1).cast nbuf0_1)
  a2 := win0_2.stage (cfg0.slots t 2)
  h2 := hstage0_2 ((cfg0.slots t 2).cast nbuf0_2)
  a3 := win0_3.stage (cfg0.slots t 3)
  h3 := hstage0_3 ((cfg0.slots t 3).cast nbuf0_3)
  a4 := win0_4.stage (cfg0.slots t 4)
  h4 := hstage0_4 ((cfg0.slots t 4).cast nbuf0_4)

section Region0
variable (V : (c : Dev nD) → (b : Ref sig .tc) → Buf (Elt F) ((c : Thread nD τ).loc b))

/-- Window `w`'s block of its array at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The blocks read at point `t`. -/
abbrev ins0 (c : Dev nD) (t : Fin cfg0.N) : Ins0 F where
  x0 := iblk0 V c 0 t
  x1 := iblk0 V c 1 t
  x2 := iblk0 V c 2 t

end Region0

end Cert.KernelIdeal.Gen

end
-- ==== Proof.KI.R0RunA.lean ====
import proofs.«423175_j2508260901476_3_alg».proof.Proof.KI.R0Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point whose inner coordinate is 0: the rows are cleared, then the block's sums are added. -/
noncomputable def kernelRun0_A (c : Dev nD) (i : grid0.Coords) (b : Bufs0) (hc0 : cond0_0 i) (x : Ins0 F) :
    Σ' (L3 : List (View.Piece (Elt F) S1x1x64 .f32)), { L4 : List (View.Piece (Elt F) S1x1x64 .f32) //
      ∀ (E : Set ℕ) (K : PUnit → sProp 𝕄),
        iprop(owns (c : Thread nD τ) b.a0 fullShare x.x0 ∗ owns (c : Thread nD τ) b.a1 fullShare x.x1 ∗ owns (c : Thread nD τ) b.a2 fullShare x.x2
            ∗ (∃ d, owns (c : Thread nD τ) b.a3 fullShare d) ∗ (∃ d, owns (c : Thread nD τ) b.a4 fullShare d)
            ∗ (iprop(owns (c : Thread nD τ) b.a0 fullShare x.x0 ∗ owns (c : Thread nD τ) b.a1 fullShare x.x1 ∗ owns (c : Thread nD τ) b.a2 fullShare x.x2
                ∗ (∃ f, b.a3.view.loc (c : Thread nD τ) ↦[b.a3.view.set]{fullShare} b.a3.view.writes (Elt F) f L3)
                ∗ (∃ f, b.a4.view.loc (c : Thread nD τ) ↦[b.a4.view.set]{fullShare} b.a4.view.writes (Elt F) f L4)) -∗ K ⟨⟩))
          ⊢ wp frame (wpE (defs₀ (F := F)) Variants.none c none) E (cc0__stats_kernel i b.a0 b.h0 b.a1 b.h1 b.a2 b.h2 b.a3 b.h3 b.a4 b.h4) K } := by
  refine ⟨?_, ?_, fun E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := b.h0.eq_unread hf0; obtain rfl := b.h1.eq_unread hf1; obtain rfl := b.h2.eq_unread hf2
    sl_exec (disch := first | exact hc0)
    sl_step
    iapply Hk
    isplitl [H0]
    · iexists _; isplitr; · ipureintro; exact b.h0.read_unread _
      iexact H0
    isplitl [H1]
    · iexists _; isplitr; · ipureintro; exact b.h1.read_unread _
      iexact H1
    isplitl [H2]
    · iexists _; isplitr; · ipureintro; exact b.h2.read_unread _
      iexact H2
    isplitl [H3]; · iexists _; iexact H3
    iexists _; iexact H4

end Cert.KernelIdeal.Gen

end
-- ==== Proof.KI.R0RunB.lean ====
import proofs.«423175_j2508260901476_3_alg».proof.Proof.KI.R0RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point whose inner coordinate is not 0: the block's sums are added to the rows `xo`. -/
noncomputable def kernelRun0_B (c : Dev nD) (i : grid0.Coords) (b : Bufs0) (hc0 : ¬cond0_0 i) (x : Ins0 F) (xo : Acc0 F) :
    Σ' (L3 : List (View.Piece (Elt F) S1x1x64 .f32)), { L4 : List (View.Piece (Elt F) S1x1x64 .f32) //
      ∀ (E : Set ℕ) (K : PUnit → sProp 𝕄),
        iprop(owns (c : Thread nD τ) b.a0 fullShare x.x0 ∗ owns (c : Thread nD τ) b.a1 fullShare x.x1 ∗ owns (c : Thread nD τ) b.a2 fullShare x.x2
            ∗ owns (c : Thread nD τ) b.a3 fullShare xo.1 ∗ owns (c : Thread nD τ) b.a4 fullShare xo.2
            ∗ (iprop(owns (c : Thread nD τ) b.a0 fullShare x.x0 ∗ owns (c : Thread nD τ) b.a1 fullShare x.x1 ∗ owns (c : Thread nD τ) b.a2 fullShare x.x2
                ∗ (∃ f, b.a3.view.loc (c : Thread nD τ) ↦[b.a3.view.set]{fullShare} b.a3.view.writes (Elt F) f L3)
                ∗ (∃ f, b.a4.view.loc (c : Thread nD τ) ↦[b.a4.view.set]{fullShare} b.a4.view.writes (Elt F) f L4)) -∗ K ⟨⟩))
          ⊢ wp frame (wpE (defs₀ (F := F)) Variants.none c none) E (cc0__stats_kernel i b.a0 b.h0 b.a1 b.h1 b.a2 b.h2 b.a3 b.h3 b.a4 b.h4) K } := by
  refine ⟨?_, ?_, fun E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := b.h0.eq_unread hf0; obtain rfl := b.h1.eq_unread hf1; obtain rfl := b.h2.eq_unread hf2
    obtain rfl := b.h3.eq_unread hf3; obtain rfl := b.h4.eq_unread hf4
    sl_exec (disch := first | exact hc0)
    sl_step
    iapply Hk
    isplitl [H0]
    · iexists _; isplitr; · ipureintro; exact b.h0.read_unread _
      iexact H0
    isplitl [H1]
    · iexists _; isplitr; · ipureintro; exact b.h1.read_unread _
      iexact H1
    isplitl [H2]
    · iexists _; isplitr; · ipureintro; exact b.h2.read_unread _
      iexact H2
    isplitl [H3]; · iexists _; iexact H3
    iexists _; iexact H4

end Cert.KernelIdeal.Gen

end
-- ==== Proof.KI.R0Body.lean ====
import proofs.«423175_j2508260901476_3_alg».proof.Proof.KI.R0RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The clearing case's stores tile each row. -/
theorem cover0_A (c : Dev nD) (i : grid0.Coords) (b : Bufs0) (hc0 : cond0_0 i) (x : Ins0 F) :
    (∀ y, ∃ pc ∈ (kernelRun0_A c i b hc0 x).1, y ∈ pc.1.set)
    ∧ (∀ y, ∃ pc ∈ (kernelRun0_A c i b hc0 x).2.1, y ∈ pc.1.set) :=
  ⟨View.cover_of_tiledL (kernelRun0_A c i b hc0 x).1 S1x1x64.size (by sl_kernel_rfl),
   View.cover_of_tiledL (kernelRun0_A c i b hc0 x).2.1 S1x1x64.size (by sl_kernel_rfl)⟩

/-- The rows after the clearing case. -/
def out0_A (c : Dev nD) (i : grid0.Coords) (b : Bufs0) (hc0 : cond0_0 i) (x : Ins0 F) : Acc0 F :=
  (VO0_3.read (Elt F) (VO0_3.writes (Elt F) VO0_3.junk (kernelRun0_A c i b hc0 x).1),
   VO0_4.read (Elt F) (VO0_4.writes (Elt F) VO0_4.junk (kernelRun0_A c i b hc0 x).2.1))

/-- The adding case's one store covers each row. -/
theorem cover0_B (c : Dev nD) (i : grid0.Coords) (b : Bufs0) (hc0 : ¬cond0_0 i) (x : Ins0 F) (xo : Acc0 F) :
    (∀ y, ∃ pc ∈ (kernelRun0_B c i b hc0 x xo).1, y ∈ pc.1.set)
    ∧ (∀ y, ∃ pc ∈ (kernelRun0_B c i b hc0 x xo).2.1, y ∈ pc.1.set) :=
  ⟨View.cover_of_tiledL (kernelRun0_B c i b hc0 x xo).1 S1x1x64.size (by sl_kernel_rfl),
   View.cover_of_tiledL (kernelRun0_B c i b hc0 x xo).2.1 S1x1x64.size (by sl_kernel_rfl)⟩

/-- The rows after the adding case, over the rows `xo` before it. -/
def out0_B (c : Dev nD) (i : grid0.Coords) (b : Bufs0) (hc0 : ¬cond0_0 i) (x : Ins0 F) (xo : Acc0 F) : Acc0 F :=
  (VO0_3.read (Elt F) (VO0_3.writes (Elt F) VO0_3.junk (kernelRun0_B c i b hc0 x xo).1),
   VO0_4.read (Elt F) (VO0_4.writes (Elt F) VO0_4.junk (kernelRun0_B c i b hc0 x xo).2.1))

section Region0
variable (V : (c : Dev nD) → (b : Ref sig .tc) → Buf (Elt F) ((c : Thread nD τ).loc b))

/-- The two cases at grid point `t`. -/
def outA0 (c : Dev nD) (t : Fin cfg0.N) (h0 : t.val % 32 = 0) : Acc0 F :=
  out0_A c (grid0.coords t) (bufs0 t) ((hcond0_0 t).mpr h0) (ins0 V c t)
def outB0 (c : Dev nD) (t : Fin cfg0.N) (h0 : ¬t.val % 32 = 0) (xo : Acc0 F) : Acc0 F :=
  out0_B c (grid0.coords t) (bufs0 t) (fun h => h0 ((hcond0_0 t).mp h)) (ins0 V c t) xo

/-- The rows after the body at position `n`: restarted at every 32th point, added to otherwise. -/
def outsAt0 (c : Dev nD) : (n : ℕ) → n < cfg0.N → Acc0 F
  | 0, hn => outA0 V c ⟨0, hn⟩ (Nat.zero_mod _)
  | n + 1, hn =>
    if h0 : (n + 1) % 32 = 0 then outA0 V c ⟨n + 1, hn⟩ h0
    else outB0 V c ⟨n + 1, hn⟩ h0 (outsAt0 c n (Nat.lt_of_succ_lt hn))

theorem outsAt0_A (c : Dev nD) (t : Fin cfg0.N) (h0 : t.val % 32 = 0) : outsAt0 V c t.val t.isLt = outA0 V c t h0 := by
  obtain ⟨n, hn⟩ := t
  cases n with
  | zero => exact rfl
  | succ n => exact (dif_pos h0).trans rfl

theorem outsAt0_B (c : Dev nD) (t : Fin cfg0.N) (h0 : ¬t.val % 32 = 0) :
    outsAt0 V c t.val t.isLt = outB0 V c t h0 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans rfl

/-- The region's proof data on core `c`: each input at its block, the rows at `outsAt0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := rfl
theorem after0_3 (c : Dev nD) (t : Fin cfg0.N) : (dat0 V c).after 3 t = (outsAt0 V c t.val t.isLt).1 := rfl
theorem after0_4 (c : Dev nD) (t : Fin cfg0.N) : (dat0 V c).after 4 t = (outsAt0 V c t.val t.isLt).2 := rfl

theorem after0_0 (c : Dev nD) (t : Fin cfg0.N) : (dat0 V c).after 0 t = iblk0 V c 0 t := rfl
theorem after0_1 (c : Dev nD) (t : Fin cfg0.N) : (dat0 V c).after 1 t = iblk0 V c 1 t := rfl
theorem after0_2 (c : Dev nD) (t : Fin cfg0.N) : (dat0 V c).after 2 t = iblk0 V c 2 t := rfl
theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

/-- At an adding point the rows are what the point before left. -/
theorem before0_acc_B (c : Dev nD) (t : Fin cfg0.N) (h0 : ¬t.val % 32 = 0) :
    (∀ d, (dat0 V c).before 3 t d = (outsAt0 V c (t.val - 1) (Nat.lt_of_le_of_lt (Nat.sub_le _ _) t.isLt)).1)
    ∧ (∀ d, (dat0 V c).before 4 t d = (outsAt0 V c (t.val - 1) (Nat.lt_of_le_of_lt (Nat.sub_le _ _) t.isLt)).2) := by
  have hN : t.val < 64 := lt_of_lt_of_eq t.isLt (show cfg0.N = 64 from N_0)
  refine ⟨fun d => ?_, fun d => ?_⟩
  · exact Dat.before_out_kept (dat0 V c) 3 rfl t (by omega) (Bool.eq_false_iff.mpr fun h => by have := (flush0_3 _).mp h; dsimp only at this; omega)
      (fun _ => rfl) (fun _ _ => rfl) d
  · exact Dat.before_out_kept (dat0 V c) 4 rfl t (by omega) (Bool.eq_false_iff.mpr fun h => by have := (flush0_4 _).mp h; dsimp only at this; omega)
      (fun _ => rfl) (fun _ _ => rfl) d

/-- What the body is given at point `t`, -/
def bodyPre0 (c : Dev nD) (t : Fin cfg0.N) : sProp 𝕄 :=
  iprop((dat0 V c).Φ t.castSucc ∗ (dat0 V c).owesAt () t.castSucc
    ∗ (∃ d, owns (c : Thread nD τ) (bufs0 t).a0 fullShare ((dat0 V c).before 0 t d))
    ∗ (∃ d, owns (c : Thread nD τ) (bufs0 t).a1 fullShare ((dat0 V c).before 1 t d))
    ∗ (∃ d, owns (c : Thread nD τ) (bufs0 t).a2 fullShare ((dat0 V c).before 2 t d))
    ∗ (∃ d, owns (c : Thread nD τ) (bufs0 t).a3 fullShare ((dat0 V c).before 3 t d))
    ∗ (∃ d, owns (c : Thread nD τ) (bufs0 t).a4 fullShare ((dat0 V c).before 4 t d)))
/-- and what it returns. -/
def bodyPost0 (c : Dev nD) (t : Fin cfg0.N) : sProp 𝕄 :=
  iprop((dat0 V c).Φ t.succ ∗ (dat0 V c).owesAt () t.succ
    ∗ owns (c : Thread nD τ) (bufs0 t).a0 fullShare ((dat0 V c).after 0 t)
    ∗ owns (c : Thread nD τ) (bufs0 t).a1 fullShare ((dat0 V c).after 1 t)
    ∗ owns (c : Thread nD τ) (bufs0 t).a2 fullShare ((dat0 V c).after 2 t)
    ∗ owns (c : Thread nD τ) (bufs0 t).a3 fullShare ((dat0 V c).after 3 t)
    ∗ owns (c : Thread nD τ) (bufs0 t).a4 fullShare ((dat0 V c).after 4 t))

set_option maxHeartbeats 1600000 in
/-- At every point one of the two cases' runs applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2,
    after0_3, after0_4]
  by_cases h0 : t.val % 32 = 0
  · rw [outsAt0_A V c t h0]
    dsimp only [outA0, out0_A]
    iintro ⟨HΦ, Ho, ⟨%d0, H0⟩, ⟨%d1, H1⟩, ⟨%d2, H2⟩, ⟨%d3, H3⟩, ⟨%d4, H4⟩⟩
    iapply ((kernelRun0_A c (grid0.coords t) (bufs0 t) ((hcond0_0 t).mpr h0) (ins0 V c t)).2.2 Set.univ _)
    iframe
    isplitl [H3]; · iexists _; iexact H3
    isplitl [H4]; · iexists _; iexact H4
    iintro ⟨H0, H1, H2, ⟨%e3, H3⟩, ⟨%e4, H4⟩⟩
    iframe
    isplitl [H3]
    · unfold owns; iexists _; isplitr
      swap; · iexact H3
      ipureintro; exact View.read_writes_of_cover _ _ _ _ _ (cover0_A c _ _ _ _).1
    · unfold owns; iexists _; isplitr
      swap; · iexact H4
      ipureintro; exact View.read_writes_of_cover _ _ _ _ _ (cover0_A c _ _ _ _).2
  · rw [outsAt0_B V c t h0]
    dsimp only [outB0, out0_B]
    simp only [before0_acc_B V c t h0]
    iintro ⟨HΦ, Ho, ⟨%d0, H0⟩, ⟨%d1, H1⟩, ⟨%d2, H2⟩, ⟨%d3, H3⟩, ⟨%d4, H4⟩⟩
    iapply ((kernelRun0_B c (grid0.coords t) (bufs0 t) (fun h => h0 ((hcond0_0 t).mp h)) (ins0 V c t) (outsAt0 V c (t.val - 1) (Nat.lt_of_le_of_lt (Nat.sub_le _ _) t.isLt))).2.2 Set.univ _)
    iframe
    iintro ⟨H0, H1, H2, ⟨%e3, H3⟩, ⟨%e4, H4⟩⟩
    iframe
    isplitl [H3]
    · unfold owns; iexists _; isplitr
      swap; · iexact H3
      ipureintro; exact View.read_writes_of_cover _ _ _ _ _ (cover0_B c _ _ _ _ _).1
    · unfold owns; iexists _; isplitr
      swap; · iexact H4
      ipureintro; exact View.read_writes_of_cover _ _ _ _ _ (cover0_B c _ _ _ _ _).2

theorem body_obligation0 (c : Dev nD) : BodyObligation (dat0 (F := F) V c) (defs₀ (F := F)) Variants.none () Set.univ := fun t => by
  rw [bigSep_W0, bigSep_W0]
  exact sound_body0 V c t

end Region0

end Cert.KernelIdeal.Gen

end
-- ==== Proof.KI.R1Runs.lean ====
import proofs.«423175_j2508260901476_3_alg».proof.Proof.Gen.KernelIdeal.Launch
import proofs.«423175_j2508260901476_3_alg».proof.Proof.Gen.KernelIdeal.Skeleton
import proofs.«423175_j2508260901476_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's memref arguments, in window order, each a whole buffer. -/
structure Bufs1 where
  a0 : Memref sig .tc .vmem S2048x64 .f32
  h0 : a0.IsWhole
  a1 : Memref sig .tc .vmem S2048x3 .f32
  h1 : a1.IsWhole
  a2 : Memref sig .tc .vmem S2048x3 .f32
  h2 : a2.IsWhole
  a3 : Memref sig .tc .vmem S2048x1 .i32
  h3 : a3.IsWhole
  a4 : Memref sig .tc .vmem S2048x1 .i32
  h4 : a4.IsWhole
  a5 : Memref sig .tc .vmem S64x64 .f32
  h5 : a5.IsWhole
  a6 : Memref sig .tc .vmem S1x64 .f32
  h6 : a6.IsWhole
  a7 : Memref sig .tc .vmem S64x3 .f32
  h7 : a7.IsWhole
  a8 : Memref sig .tc .vmem S1x3 .f32
  h8 : a8.IsWhole
  a9 : Memref sig .tc .vmem S64x20 .f32
  h9 : a9.IsWhole
  a10 : Memref sig .tc .vmem S1x20 .f32
  h10 : a10.IsWhole
  a11 : Memref sig .tc .vmem S1x20 .f32
  h11 : a11.IsWhole
  a12 : Memref sig .tc .vmem S1x1x1 .f32
  h12 : a12.IsWhole
  a13 : Memref sig .tc .vmem S1x1x1 .f32
  h13 : a13.IsWhole
  a14 : Memref sig .tc .vmem S1x1x1 .f32
  h14 : a14.IsWhole
  a15 : Memref sig .tc .vmem S1x1x1 .f32
  h15 : a15.IsWhole
  a16 : Memref sig .tc .vmem S1x1x1 .f32
  h16 : a16.IsWhole

/-- The blocks the body reads. -/
structure Ins1 (F : FTy → Type) where
  x0 : Vec F S2048x64 .f32
  x1 : Vec F S2048x3 .f32
  x2 : Vec F S2048x3 .f32
  x3 : Vec F S2048x1 .i32
  x4 : Vec F S2048x1 .i32
  x5 : Vec F S64x64 .f32
  x6 : Vec F S1x64 .f32
  x7 : Vec F S64x3 .f32
  x8 : Vec F S1x3 .f32
  x9 : Vec F S64x20 .f32
  x10 : Vec F S1x20 .f32
  x11 : Vec F S1x20 .f32

/-- The accumulator rows: the sums of the weights, of weight * nll, of the mask, of the masked L1 distance, of the masked cosine term. -/
abbrev Acc1 (F : FTy → Type) := Vec F S1x1x1 .f32 × Vec F S1x1x1 .f32 × Vec F S1x1x1 .f32 × Vec F S1x1x1 .f32 × Vec F S1x1x1 .f32

/-- The body's one branch: the inner grid coordinate is 0, that is every 256th point in grid order. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 256 = 0 :=
  (by decide +kernel : ∀ t : Fin grid1.N, cond1_0 (grid1.coords t) ↔ t.val % 256 = 0)

abbrev VO1_12 : View sig .tc .vmem S1x1x1 .f32 := (Memref.whole cc1_stg12_0 : Memref sig .tc .vmem S1x1x1 .f32).view
abbrev VO1_13 : View sig .tc .vmem S1x1x1 .f32 := (Memref.whole cc1_stg13_0 : Memref sig .tc .vmem S1x1x1 .f32).view
abbrev VO1_14 : View sig .tc .vmem S1x1x1 .f32 := (Memref.whole cc1_stg14_0 : Memref sig .tc .vmem S1x1x1 .f32).view
abbrev VO1_15 : View sig .tc .vmem S1x1x1 .f32 := (Memref.whole cc1_stg15_0 : Memref sig .tc .vmem S1x1x1 .f32).view
abbrev VO1_16 : View sig .tc .vmem S1x1x1 .f32 := (Memref.whole cc1_stg16_0 : Memref sig .tc .vmem S1x1x1 .f32).view

/-- The body's memref arguments at point `t`. -/
abbrev bufs1 (t : Fin cfg1.N) : Bufs1 where
  a0 := win1_0.stage (cfg1.slots t 0)
  h0 := hstage1_0 ((cfg1.slots t 0).cast nbuf1_0)
  a1 := win1_1.stage (cfg1.slots t 1)
  h1 := hstage1_1 ((cfg1.slots t 1).cast nbuf1_1)
  a2 := win1_2.stage (cfg1.slots t 2)
  h2 := hstage1_2 ((cfg1.slots t 2).cast nbuf1_2)
  a3 := win1_3.stage (cfg1.slots t 3)
  h3 := hstage1_3 ((cfg1.slots t 3).cast nbuf1_3)
  a4 := win1_4.stage (cfg1.slots t 4)
  h4 := hstage1_4 ((cfg1.slots t 4).cast nbuf1_4)
  a5 := win1_5.stage (cfg1.slots t 5)
  h5 := hstage1_5 ((cfg1.slots t 5).cast nbuf1_5)
  a6 := win1_6.stage (cfg1.slots t 6)
  h6 := hstage1_6 ((cfg1.slots t 6).cast nbuf1_6)
  a7 := win1_7.stage (cfg1.slots t 7)
  h7 := hstage1_7 ((cfg1.slots t 7).cast nbuf1_7)
  a8 := win1_8.stage (cfg1.slots t 8)
  h8 := hstage1_8 ((cfg1.slots t 8).cast nbuf1_8)
  a9 := win1_9.stage (cfg1.slots t 9)
  h9 := hstage1_9 ((cfg1.slots t 9).cast nbuf1_9)
  a10 := win1_10.stage (cfg1.slots t 10)
  h10 := hstage1_10 ((cfg1.slots t 10).cast nbuf1_10)
  a11 := win1_11.stage (cfg1.slots t 11)
  h11 := hstage1_11 ((cfg1.slots t 11).cast nbuf1_11)
  a12 := win1_12.stage (cfg1.slots t 12)
  h12 := hstage1_12 ((cfg1.slots t 12).cast nbuf1_12)
  a13 := win1_13.stage (cfg1.slots t 13)
  h13 := hstage1_13 ((cfg1.slots t 13).cast nbuf1_13)
  a14 := win1_14.stage (cfg1.slots t 14)
  h14 := hstage1_14 ((cfg1.slots t 14).cast nbuf1_14)
  a15 := win1_15.stage (cfg1.slots t 15)
  h15 := hstage1_15 ((cfg1.slots t 15).cast nbuf1_15)
  a16 := win1_16.stage (cfg1.slots t 16)
  h16 := hstage1_16 ((cfg1.slots t 16).cast nbuf1_16)

section Region1
variable (V : (c : Dev nD) → (b : Ref sig .tc) → Buf (Elt F) ((c : Thread nD τ).loc b))

/-- Window `w`'s block of its array at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The blocks read at point `t`. -/
abbrev ins1 (c : Dev nD) (t : Fin cfg1.N) : Ins1 F where
  x0 := iblk1 V c 0 t
  x1 := iblk1 V c 1 t
  x2 := iblk1 V c 2 t
  x3 := iblk1 V c 3 t
  x4 := iblk1 V c 4 t
  x5 := iblk1 V c 5 t
  x6 := iblk1 V c 6 t
  x7 := iblk1 V c 7 t
  x8 := iblk1 V c 8 t
  x9 := iblk1 V c 9 t
  x10 := iblk1 V c 10 t
  x11 := iblk1 V c 11 t

end Region1

end Cert.KernelIdeal.Gen

end
-- ==== Proof.KI.R1RunA.lean ====
import proofs.«423175_j2508260901476_3_alg».proof.Proof.KI.R1Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point whose inner coordinate is 0: the rows are cleared, then the block's sums are added. -/
noncomputable def kernelRun1_A (c : Dev nD) (i : grid1.Coords) (b : Bufs1) (hc0 : cond1_0 i) (x : Ins1 F) :
    Σ' (L12 L13 L14 L15 : List (View.Piece (Elt F) S1x1x1 .f32)), { L16 : List (View.Piece (Elt F) S1x1x1 .f32) //
      ∀ (E : Set ℕ) (K : PUnit → sProp 𝕄),
        iprop(owns (c : Thread nD τ) b.a0 fullShare x.x0 ∗ owns (c : Thread nD τ) b.a1 fullShare x.x1 ∗ owns (c : Thread nD τ) b.a2 fullShare x.x2
            ∗ owns (c : Thread nD τ) b.a3 fullShare x.x3 ∗ owns (c : Thread nD τ) b.a4 fullShare x.x4 ∗ owns (c : Thread nD τ) b.a5 fullShare x.x5
            ∗ owns (c : Thread nD τ) b.a6 fullShare x.x6 ∗ owns (c : Thread nD τ) b.a7 fullShare x.x7 ∗ owns (c : Thread nD τ) b.a8 fullShare x.x8
            ∗ owns (c : Thread nD τ) b.a9 fullShare x.x9 ∗ owns (c : Thread nD τ) b.a10 fullShare x.x10 ∗ owns (c : Thread nD τ) b.a11 fullShare x.x11
            ∗ (∃ d, owns (c : Thread nD τ) b.a12 fullShare d) ∗ (∃ d, owns (c : Thread nD τ) b.a13 fullShare d) ∗ (∃ d, owns (c : Thread nD τ) b.a14 fullShare d)
            ∗ (∃ d, owns (c : Thread nD τ) b.a15 fullShare d) ∗ (∃ d, owns (c : Thread nD τ) b.a16 fullShare d)
            ∗ (iprop(owns (c : Thread nD τ) b.a0 fullShare x.x0 ∗ owns (c : Thread nD τ) b.a1 fullShare x.x1 ∗ owns (c : Thread nD τ) b.a2 fullShare x.x2
            ∗ owns (c : Thread nD τ) b.a3 fullShare x.x3 ∗ owns (c : Thread nD τ) b.a4 fullShare x.x4 ∗ owns (c : Thread nD τ) b.a5 fullShare x.x5
            ∗ owns (c : Thread nD τ) b.a6 fullShare x.x6 ∗ owns (c : Thread nD τ) b.a7 fullShare x.x7 ∗ owns (c : Thread nD τ) b.a8 fullShare x.x8
            ∗ owns (c : Thread nD τ) b.a9 fullShare x.x9 ∗ owns (c : Thread nD τ) b.a10 fullShare x.x10 ∗ owns (c : Thread nD τ) b.a11 fullShare x.x11
                ∗ (∃ f, b.a12.view.loc (c : Thread nD τ) ↦[b.a12.view.set]{fullShare} b.a12.view.writes (Elt F) f L12)
                ∗ (∃ f, b.a13.view.loc (c : Thread nD τ) ↦[b.a13.view.set]{fullShare} b.a13.view.writes (Elt F) f L13)
                ∗ (∃ f, b.a14.view.loc (c : Thread nD τ) ↦[b.a14.view.set]{fullShare} b.a14.view.writes (Elt F) f L14)
                ∗ (∃ f, b.a15.view.loc (c : Thread nD τ) ↦[b.a15.view.set]{fullShare} b.a15.view.writes (Elt F) f L15)
                ∗ (∃ f, b.a16.view.loc (c : Thread nD τ) ↦[b.a16.view.set]{fullShare} b.a16.view.writes (Elt F) f L16)) -∗ K ⟨⟩))
          ⊢ wp frame (wpE (defs₀ (F := F)) Variants.none c none) E (cc1__main_kernel i b.a0 b.h0 b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16) K } := by
  refine ⟨?_, ?_, ?_, ?_, ?_, fun E K => ?run⟩
  case run =>
    simp only [cc1__main_kernel_eq_skeleton]; unfold cc1__main_kernel_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, Hk⟩
    obtain rfl := b.h0.eq_unread hf0; obtain rfl := b.h1.eq_unread hf1; obtain rfl := b.h2.eq_unread hf2
    obtain rfl := b.h3.eq_unread hf3; obtain rfl := b.h4.eq_unread hf4; obtain rfl := b.h5.eq_unread hf5
    obtain rfl := b.h6.eq_unread hf6; obtain rfl := b.h7.eq_unread hf7; obtain rfl := b.h8.eq_unread hf8
    obtain rfl := b.h9.eq_unread hf9; obtain rfl := b.h10.eq_unread hf10; obtain rfl := b.h11.eq_unread hf11
    sl_exec (disch := first | exact hc0)
    sl_step
    iapply Hk
    isplitl [H0]
    · iexists _; isplitr; · ipureintro; exact b.h0.read_unread _
      iexact H0
    isplitl [H1]
    · iexists _; isplitr; · ipureintro; exact b.h1.read_unread _
      iexact H1
    isplitl [H2]
    · iexists _; isplitr; · ipureintro; exact b.h2.read_unread _
      iexact H2
    isplitl [H3]
    · iexists _; isplitr; · ipureintro; exact b.h3.read_unread _
      iexact H3
    isplitl [H4]
    · iexists _; isplitr; · ipureintro; exact b.h4.read_unread _
      iexact H4
    isplitl [H5]
    · iexists _; isplitr; · ipureintro; exact b.h5.read_unread _
      iexact H5
    isplitl [H6]
    · iexists _; isplitr; · ipureintro; exact b.h6.read_unread _
      iexact H6
    isplitl [H7]
    · iexists _; isplitr; · ipureintro; exact b.h7.read_unread _
      iexact H7
    isplitl [H8]
    · iexists _; isplitr; · ipureintro; exact b.h8.read_unread _
      iexact H8
    isplitl [H9]
    · iexists _; isplitr; · ipureintro; exact b.h9.read_unread _
      iexact H9
    isplitl [H10]
    · iexists _; isplitr; · ipureintro; exact b.h10.read_unread _
      iexact H10
    isplitl [H11]
    · iexists _; isplitr; · ipureintro; exact b.h11.read_unread _
      iexact H11
    isplitl [H12]; · iexists _; iexact H12
    isplitl [H13]; · iexists _; iexact H13
    isplitl [H14]; · iexists _; iexact H14
    isplitl [H15]; · iexists _; iexact H15
    iexists _; iexact H16

end Cert.KernelIdeal.Gen

end
-- ==== Proof.KI.R1RunB.lean ====
import proofs.«423175_j2508260901476_3_alg».proof.Proof.KI.R1Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point whose inner coordinate is not 0: the block's sums are added to the rows `xo`. -/
noncomputable def kernelRun1_B (c : Dev nD) (i : grid1.Coords) (b : Bufs1) (hc0 : ¬cond1_0 i) (x : Ins1 F) (xo : Acc1 F) :
    Σ' (L12 L13 L14 L15 : List (View.Piece (Elt F) S1x1x1 .f32)), { L16 : List (View.Piece (Elt F) S1x1x1 .f32) //
      ∀ (E : Set ℕ) (K : PUnit → sProp 𝕄),
        iprop(owns (c : Thread nD τ) b.a0 fullShare x.x0 ∗ owns (c : Thread nD τ) b.a1 fullShare x.x1 ∗ owns (c : Thread nD τ) b.a2 fullShare x.x2
            ∗ owns (c : Thread nD τ) b.a3 fullShare x.x3 ∗ owns (c : Thread nD τ) b.a4 fullShare x.x4 ∗ owns (c : Thread nD τ) b.a5 fullShare x.x5
            ∗ owns (c : Thread nD τ) b.a6 fullShare x.x6 ∗ owns (c : Thread nD τ) b.a7 fullShare x.x7 ∗ owns (c : Thread nD τ) b.a8 fullShare x.x8
            ∗ owns (c : Thread nD τ) b.a9 fullShare x.x9 ∗ owns (c : Thread nD τ) b.a10 fullShare x.x10 ∗ owns (c : Thread nD τ) b.a11 fullShare x.x11
            ∗ owns (c : Thread nD τ) b.a12 fullShare xo.1 ∗ owns (c : Thread nD τ) b.a13 fullShare xo.2.1 ∗ owns (c : Thread nD τ) b.a14 fullShare xo.2.2.1
            ∗ owns (c : Thread nD τ) b.a15 fullShare xo.2.2.2.1 ∗ owns (c : Thread nD τ) b.a16 fullShare xo.2.2.2.2
            ∗ (iprop(owns (c : Thread nD τ) b.a0 fullShare x.x0 ∗ owns (c : Thread nD τ) b.a1 fullShare x.x1 ∗ owns (c : Thread nD τ) b.a2 fullShare x.x2
            ∗ owns (c : Thread nD τ) b.a3 fullShare x.x3 ∗ owns (c : Thread nD τ) b.a4 fullShare x.x4 ∗ owns (c : Thread nD τ) b.a5 fullShare x.x5
            ∗ owns (c : Thread nD τ) b.a6 fullShare x.x6 ∗ owns (c : Thread nD τ) b.a7 fullShare x.x7 ∗ owns (c : Thread nD τ) b.a8 fullShare x.x8
            ∗ owns (c : Thread nD τ) b.a9 fullShare x.x9 ∗ owns (c : Thread nD τ) b.a10 fullShare x.x10 ∗ owns (c : Thread nD τ) b.a11 fullShare x.x11
                ∗ (∃ f, b.a12.view.loc (c : Thread nD τ) ↦[b.a12.view.set]{fullShare} b.a12.view.writes (Elt F) f L12)
                ∗ (∃ f, b.a13.view.loc (c : Thread nD τ) ↦[b.a13.view.set]{fullShare} b.a13.view.writes (Elt F) f L13)
                ∗ (∃ f, b.a14.view.loc (c : Thread nD τ) ↦[b.a14.view.set]{fullShare} b.a14.view.writes (Elt F) f L14)
                ∗ (∃ f, b.a15.view.loc (c : Thread nD τ) ↦[b.a15.view.set]{fullShare} b.a15.view.writes (Elt F) f L15)
                ∗ (∃ f, b.a16.view.loc (c : Thread nD τ) ↦[b.a16.view.set]{fullShare} b.a16.view.writes (Elt F) f L16)) -∗ K ⟨⟩))
          ⊢ wp frame (wpE (defs₀ (F := F)) Variants.none c none) E (cc1__main_kernel i b.a0 b.h0 b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16) K } := by
  refine ⟨?_, ?_, ?_, ?_, ?_, fun E K => ?run⟩
  case run =>
    simp only [cc1__main_kernel_eq_skeleton]; unfold cc1__main_kernel_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
    obtain rfl := b.h0.eq_unread hf0; obtain rfl := b.h1.eq_unread hf1; obtain rfl := b.h2.eq_unread hf2
    obtain rfl := b.h3.eq_unread hf3; obtain rfl := b.h4.eq_unread hf4; obtain rfl := b.h5.eq_unread hf5
    obtain rfl := b.h6.eq_unread hf6; obtain rfl := b.h7.eq_unread hf7; obtain rfl := b.h8.eq_unread hf8
    obtain rfl := b.h9.eq_unread hf9; obtain rfl := b.h10.eq_unread hf10; obtain rfl := b.h11.eq_unread hf11
    obtain rfl := b.h12.eq_unread hf12; obtain rfl := b.h13.eq_unread hf13; obtain rfl := b.h14.eq_unread hf14
    obtain rfl := b.h15.eq_unread hf15; obtain rfl := b.h16.eq_unread hf16
    sl_exec (disch := first | exact hc0)
    sl_step
    iapply Hk
    isplitl [H0]
    · iexists _; isplitr; · ipureintro; exact b.h0.read_unread _
      iexact H0
    isplitl [H1]
    · iexists _; isplitr; · ipureintro; exact b.h1.read_unread _
      iexact H1
    isplitl [H2]
    · iexists _; isplitr; · ipureintro; exact b.h2.read_unread _
      iexact H2
    isplitl [H3]
    · iexists _; isplitr; · ipureintro; exact b.h3.read_unread _
      iexact H3
    isplitl [H4]
    · iexists _; isplitr; · ipureintro; exact b.h4.read_unread _
      iexact H4
    isplitl [H5]
    · iexists _; isplitr; · ipureintro; exact b.h5.read_unread _
      iexact H5
    isplitl [H6]
    · iexists _; isplitr; · ipureintro; exact b.h6.read_unread _
      iexact H6
    isplitl [H7]
    · iexists _; isplitr; · ipureintro; exact b.h7.read_unread _
      iexact H7
    isplitl [H8]
    · iexists _; isplitr; · ipureintro; exact b.h8.read_unread _
      iexact H8
    isplitl [H9]
    · iexists _; isplitr; · ipureintro; exact b.h9.read_unread _
      iexact H9
    isplitl [H10]
    · iexists _; isplitr; · ipureintro; exact b.h10.read_unread _
      iexact H10
    isplitl [H11]
    · iexists _; isplitr; · ipureintro; exact b.h11.read_unread _
      iexact H11
    isplitl [H12]; · iexists _; iexact H12
    isplitl [H13]; · iexists _; iexact H13
    isplitl [H14]; · iexists _; iexact H14
    isplitl [H15]; · iexists _; iexact H15
    iexists _; iexact H16

end Cert.KernelIdeal.Gen

end
-- ==== Proof.KI.R1Body.lean ====
import proofs.«423175_j2508260901476_3_alg».proof.Proof.KI.R1RunA
import proofs.«423175_j2508260901476_3_alg».proof.Proof.KI.R1RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The clearing case's stores tile each row. -/
theorem cover1_A (c : Dev nD) (i : grid1.Coords) (b : Bufs1) (hc0 : cond1_0 i) (x : Ins1 F) :
    (∀ y, ∃ pc ∈ (kernelRun1_A c i b hc0 x).1, y ∈ pc.1.set)
    ∧ (∀ y, ∃ pc ∈ (kernelRun1_A c i b hc0 x).2.1, y ∈ pc.1.set)
    ∧ (∀ y, ∃ pc ∈ (kernelRun1_A c i b hc0 x).2.2.1, y ∈ pc.1.set)
    ∧ (∀ y, ∃ pc ∈ (kernelRun1_A c i b hc0 x).2.2.2.1, y ∈ pc.1.set)
    ∧ (∀ y, ∃ pc ∈ (kernelRun1_A c i b hc0 x).2.2.2.2.1, y ∈ pc.1.set) :=
  ⟨View.cover_of_tiledL (kernelRun1_A c i b hc0 x).1 S1x1x1.size (by sl_kernel_rfl),
   View.cover_of_tiledL (kernelRun1_A c i b hc0 x).2.1 S1x1x1.size (by sl_kernel_rfl),
   View.cover_of_tiledL (kernelRun1_A c i b hc0 x).2.2.1 S1x1x1.size (by sl_kernel_rfl),
   View.cover_of_tiledL (kernelRun1_A c i b hc0 x).2.2.2.1 S1x1x1.size (by sl_kernel_rfl),
   View.cover_of_tiledL (kernelRun1_A c i b hc0 x).2.2.2.2.1 S1x1x1.size (by sl_kernel_rfl)⟩

/-- The rows after the clearing case. -/
def out1_A (c : Dev nD) (i : grid1.Coords) (b : Bufs1) (hc0 : cond1_0 i) (x : Ins1 F) : Acc1 F :=
  (VO1_12.read (Elt F) (VO1_12.writes (Elt F) VO1_12.junk (kernelRun1_A c i b hc0 x).1),
   VO1_13.read (Elt F) (VO1_13.writes (Elt F) VO1_13.junk (kernelRun1_A c i b hc0 x).2.1),
   VO1_14.read (Elt F) (VO1_14.writes (Elt F) VO1_14.junk (kernelRun1_A c i b hc0 x).2.2.1),
   VO1_15.read (Elt F) (VO1_15.writes (Elt F) VO1_15.junk (kernelRun1_A c i b hc0 x).2.2.2.1),
   VO1_16.read (Elt F) (VO1_16.writes (Elt F) VO1_16.junk (kernelRun1_A c i b hc0 x).2.2.2.2.1))

/-- The adding case's one store covers each row. -/
theorem cover1_B (c : Dev nD) (i : grid1.Coords) (b : Bufs1) (hc0 : ¬cond1_0 i) (x : Ins1 F) (xo : Acc1 F) :
    (∀ y, ∃ pc ∈ (kernelRun1_B c i b hc0 x xo).1, y ∈ pc.1.set)
    ∧ (∀ y, ∃ pc ∈ (kernelRun1_B c i b hc0 x xo).2.1, y ∈ pc.1.set)
    ∧ (∀ y, ∃ pc ∈ (kernelRun1_B c i b hc0 x xo).2.2.1, y ∈ pc.1.set)
    ∧ (∀ y, ∃ pc ∈ (kernelRun1_B c i b hc0 x xo).2.2.2.1, y ∈ pc.1.set)
    ∧ (∀ y, ∃ pc ∈ (kernelRun1_B c i b hc0 x xo).2.2.2.2.1, y ∈ pc.1.set) :=
  ⟨View.cover_of_tiledL (kernelRun1_B c i b hc0 x xo).1 S1x1x1.size (by sl_kernel_rfl),
   View.cover_of_tiledL (kernelRun1_B c i b hc0 x xo).2.1 S1x1x1.size (by sl_kernel_rfl),
   View.cover_of_tiledL (kernelRun1_B c i b hc0 x xo).2.2.1 S1x1x1.size (by sl_kernel_rfl),
   View.cover_of_tiledL (kernelRun1_B c i b hc0 x xo).2.2.2.1 S1x1x1.size (by sl_kernel_rfl),
   View.cover_of_tiledL (kernelRun1_B c i b hc0 x xo).2.2.2.2.1 S1x1x1.size (by sl_kernel_rfl)⟩

/-- The rows after the adding case, over the rows `xo` before it. -/
def out1_B (c : Dev nD) (i : grid1.Coords) (b : Bufs1) (hc0 : ¬cond1_0 i) (x : Ins1 F) (xo : Acc1 F) : Acc1 F :=
  (VO1_12.read (Elt F) (VO1_12.writes (Elt F) VO1_12.junk (kernelRun1_B c i b hc0 x xo).1),
   VO1_13.read (Elt F) (VO1_13.writes (Elt F) VO1_13.junk (kernelRun1_B c i b hc0 x xo).2.1),
   VO1_14.read (Elt F) (VO1_14.writes (Elt F) VO1_14.junk (kernelRun1_B c i b hc0 x xo).2.2.1),
   VO1_15.read (Elt F) (VO1_15.writes (Elt F) VO1_15.junk (kernelRun1_B c i b hc0 x xo).2.2.2.1),
   VO1_16.read (Elt F) (VO1_16.writes (Elt F) VO1_16.junk (kernelRun1_B c i b hc0 x xo).2.2.2.2.1))

section Region1
variable (V : (c : Dev nD) → (b : Ref sig .tc) → Buf (Elt F) ((c : Thread nD τ).loc b))

/-- The two cases at grid point `t`. -/
def outA1 (c : Dev nD) (t : Fin cfg1.N) (h0 : t.val % 256 = 0) : Acc1 F :=
  out1_A c (grid1.coords t) (bufs1 t) ((hcond1_0 t).mpr h0) (ins1 V c t)
def outB1 (c : Dev nD) (t : Fin cfg1.N) (h0 : ¬t.val % 256 = 0) (xo : Acc1 F) : Acc1 F :=
  out1_B c (grid1.coords t) (bufs1 t) (fun h => h0 ((hcond1_0 t).mp h)) (ins1 V c t) xo

/-- The rows after the body at position `n`: restarted at every 256th point, added to otherwise. -/
def outsAt1 (c : Dev nD) : (n : ℕ) → n < cfg1.N → Acc1 F
  | 0, hn => outA1 V c ⟨0, hn⟩ (Nat.zero_mod _)
  | n + 1, hn =>
    if h0 : (n + 1) % 256 = 0 then outA1 V c ⟨n + 1, hn⟩ h0
    else outB1 V c ⟨n + 1, hn⟩ h0 (outsAt1 c n (Nat.lt_of_succ_lt hn))

theorem outsAt1_A (c : Dev nD) (t : Fin cfg1.N) (h0 : t.val % 256 = 0) : outsAt1 V c t.val t.isLt = outA1 V c t h0 := by
  obtain ⟨n, hn⟩ := t
  cases n with
  | zero => exact rfl
  | succ n => exact (dif_pos h0).trans rfl

theorem outsAt1_B (c : Dev nD) (t : Fin cfg1.N) (h0 : ¬t.val % 256 = 0) :
    outsAt1 V c t.val t.isLt = outB1 V c t h0 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans rfl

/-- The region's proof data on core `c`: each input at its block, the rows at `outsAt1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => (outsAt1 V c t.val t.isLt).1
    | ⟨13, _⟩ => (outsAt1 V c t.val t.isLt).2.1
    | ⟨14, _⟩ => (outsAt1 V c t.val t.isLt).2.2.1
    | ⟨15, _⟩ => (outsAt1 V c t.val t.isLt).2.2.2.1
    | ⟨16, _⟩ => (outsAt1 V c t.val t.isLt).2.2.2.2
    | ⟨_ + 17, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := rfl
theorem after1_12 (c : Dev nD) (t : Fin cfg1.N) : (dat1 V c).after 12 t = (outsAt1 V c t.val t.isLt).1 := rfl
theorem after1_13 (c : Dev nD) (t : Fin cfg1.N) : (dat1 V c).after 13 t = (outsAt1 V c t.val t.isLt).2.1 := rfl
theorem after1_14 (c : Dev nD) (t : Fin cfg1.N) : (dat1 V c).after 14 t = (outsAt1 V c t.val t.isLt).2.2.1 := rfl
theorem after1_15 (c : Dev nD) (t : Fin cfg1.N) : (dat1 V c).after 15 t = (outsAt1 V c t.val t.isLt).2.2.2.1 := rfl
theorem after1_16 (c : Dev nD) (t : Fin cfg1.N) : (dat1 V c).after 16 t = (outsAt1 V c t.val t.isLt).2.2.2.2 := rfl

theorem after1_0 (c : Dev nD) (t : Fin cfg1.N) : (dat1 V c).after 0 t = iblk1 V c 0 t := rfl
theorem after1_1 (c : Dev nD) (t : Fin cfg1.N) : (dat1 V c).after 1 t = iblk1 V c 1 t := rfl
theorem after1_2 (c : Dev nD) (t : Fin cfg1.N) : (dat1 V c).after 2 t = iblk1 V c 2 t := rfl
theorem after1_3 (c : Dev nD) (t : Fin cfg1.N) : (dat1 V c).after 3 t = iblk1 V c 3 t := rfl
theorem after1_4 (c : Dev nD) (t : Fin cfg1.N) : (dat1 V c).after 4 t = iblk1 V c 4 t := rfl
theorem after1_5 (c : Dev nD) (t : Fin cfg1.N) : (dat1 V c).after 5 t = iblk1 V c 5 t := rfl
theorem after1_6 (c : Dev nD) (t : Fin cfg1.N) : (dat1 V c).after 6 t = iblk1 V c 6 t := rfl
theorem after1_7 (c : Dev nD) (t : Fin cfg1.N) : (dat1 V c).after 7 t = iblk1 V c 7 t := rfl
theorem after1_8 (c : Dev nD) (t : Fin cfg1.N) : (dat1 V c).after 8 t = iblk1 V c 8 t := rfl
theorem after1_9 (c : Dev nD) (t : Fin cfg1.N) : (dat1 V c).after 9 t = iblk1 V c 9 t := rfl
theorem after1_10 (c : Dev nD) (t : Fin cfg1.N) : (dat1 V c).after 10 t = iblk1 V c 10 t := rfl
theorem after1_11 (c : Dev nD) (t : Fin cfg1.N) : (dat1 V c).after 11 t = iblk1 V c 11 t := rfl
theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl
theorem before1_6 (c : Dev nD) (t : Fin cfg1.N) (d) : (dat1 V c).before 6 t d = iblk1 V c 6 t :=
  ((dat1 V c).before_in_eq_fetched 6 rfl (fun _ => rfl) (fun _ _ _ => rfl) (fun _ => rfl) t d).trans rfl
theorem before1_7 (c : Dev nD) (t : Fin cfg1.N) (d) : (dat1 V c).before 7 t d = iblk1 V c 7 t :=
  ((dat1 V c).before_in_eq_fetched 7 rfl (fun _ => rfl) (fun _ _ _ => rfl) (fun _ => rfl) t d).trans rfl
theorem before1_8 (c : Dev nD) (t : Fin cfg1.N) (d) : (dat1 V c).before 8 t d = iblk1 V c 8 t :=
  ((dat1 V c).before_in_eq_fetched 8 rfl (fun _ => rfl) (fun _ _ _ => rfl) (fun _ => rfl) t d).trans rfl
theorem before1_9 (c : Dev nD) (t : Fin cfg1.N) (d) : (dat1 V c).before 9 t d = iblk1 V c 9 t :=
  ((dat1 V c).before_in_eq_fetched 9 rfl (fun _ => rfl) (fun _ _ _ => rfl) (fun _ => rfl) t d).trans rfl
theorem before1_10 (c : Dev nD) (t : Fin cfg1.N) (d) : (dat1 V c).before 10 t d = iblk1 V c 10 t :=
  ((dat1 V c).before_in_eq_fetched 10 rfl (fun _ => rfl) (fun _ _ _ => rfl) (fun _ => rfl) t d).trans rfl
theorem before1_11 (c : Dev nD) (t : Fin cfg1.N) (d) : (dat1 V c).before 11 t d = iblk1 V c 11 t :=
  ((dat1 V c).before_in_eq_fetched 11 rfl (fun _ => rfl) (fun _ _ _ => rfl) (fun _ => rfl) t d).trans rfl

/-- At an adding point the rows are what the point before left. -/
theorem before1_acc_B (c : Dev nD) (t : Fin cfg1.N) (h0 : ¬t.val % 256 = 0) :
    (∀ d, (dat1 V c).before 12 t d = (outsAt1 V c (t.val - 1) (Nat.lt_of_le_of_lt (Nat.sub_le _ _) t.isLt)).1)
    ∧ (∀ d, (dat1 V c).before 13 t d = (outsAt1 V c (t.val - 1) (Nat.lt_of_le_of_lt (Nat.sub_le _ _) t.isLt)).2.1)
    ∧ (∀ d, (dat1 V c).before 14 t d = (outsAt1 V c (t.val - 1) (Nat.lt_of_le_of_lt (Nat.sub_le _ _) t.isLt)).2.2.1)
    ∧ (∀ d, (dat1 V c).before 15 t d = (outsAt1 V c (t.val - 1) (Nat.lt_of_le_of_lt (Nat.sub_le _ _) t.isLt)).2.2.2.1)
    ∧ (∀ d, (dat1 V c).before 16 t d = (outsAt1 V c (t.val - 1) (Nat.lt_of_le_of_lt (Nat.sub_le _ _) t.isLt)).2.2.2.2) := by
  have hN : t.val < 512 := lt_of_lt_of_eq t.isLt (show cfg1.N = 512 from N_1)
  refine ⟨fun d => ?_, fun d => ?_, fun d => ?_, fun d => ?_, fun d => ?_⟩
  · exact Dat.before_out_kept (dat1 V c) 12 rfl t (by omega) (Bool.eq_false_iff.mpr fun h => by have := (flush1_12 _).mp h; dsimp only at this; omega)
      (fun _ => rfl) (fun _ _ => rfl) d
  · exact Dat.before_out_kept (dat1 V c) 13 rfl t (by omega) (Bool.eq_false_iff.mpr fun h => by have := (flush1_13 _).mp h; dsimp only at this; omega)
      (fun _ => rfl) (fun _ _ => rfl) d
  · exact Dat.before_out_kept (dat1 V c) 14 rfl t (by omega) (Bool.eq_false_iff.mpr fun h => by have := (flush1_14 _).mp h; dsimp only at this; omega)
      (fun _ => rfl) (fun _ _ => rfl) d
  · exact Dat.before_out_kept (dat1 V c) 15 rfl t (by omega) (Bool.eq_false_iff.mpr fun h => by have := (flush1_15 _).mp h; dsimp only at this; omega)
      (fun _ => rfl) (fun _ _ => rfl) d
  · exact Dat.before_out_kept (dat1 V c) 16 rfl t (by omega) (Bool.eq_false_iff.mpr fun h => by have := (flush1_16 _).mp h; dsimp only at this; omega)
      (fun _ => rfl) (fun _ _ => rfl) d

/-- What the body is given at point `t`, -/
def bodyPre1 (c : Dev nD) (t : Fin cfg1.N) : sProp 𝕄 :=
  iprop((dat1 V c).Φ t.castSucc ∗ (dat1 V c).owesAt () t.castSucc
    ∗ (∃ d, owns (c : Thread nD τ) (bufs1 t).a0 fullShare ((dat1 V c).before 0 t d))
    ∗ (∃ d, owns (c : Thread nD τ) (bufs1 t).a1 fullShare ((dat1 V c).before 1 t d))
    ∗ (∃ d, owns (c : Thread nD τ) (bufs1 t).a2 fullShare ((dat1 V c).before 2 t d))
    ∗ (∃ d, owns (c : Thread nD τ) (bufs1 t).a3 fullShare ((dat1 V c).before 3 t d))
    ∗ (∃ d, owns (c : Thread nD τ) (bufs1 t).a4 fullShare ((dat1 V c).before 4 t d))
    ∗ (∃ d, owns (c : Thread nD τ) (bufs1 t).a5 fullShare ((dat1 V c).before 5 t d))
    ∗ (∃ d, owns (c : Thread nD τ) (bufs1 t).a6 fullShare ((dat1 V c).before 6 t d))
    ∗ (∃ d, owns (c : Thread nD τ) (bufs1 t).a7 fullShare ((dat1 V c).before 7 t d))
    ∗ (∃ d, owns (c : Thread nD τ) (bufs1 t).a8 fullShare ((dat1 V c).before 8 t d))
    ∗ (∃ d, owns (c : Thread nD τ) (bufs1 t).a9 fullShare ((dat1 V c).before 9 t d))
    ∗ (∃ d, owns (c : Thread nD τ) (bufs1 t).a10 fullShare ((dat1 V c).before 10 t d))
    ∗ (∃ d, owns (c : Thread nD τ) (bufs1 t).a11 fullShare ((dat1 V c).before 11 t d))
    ∗ (∃ d, owns (c : Thread nD τ) (bufs1 t).a12 fullShare ((dat1 V c).before 12 t d))
    ∗ (∃ d, owns (c : Thread nD τ) (bufs1 t).a13 fullShare ((dat1 V c).before 13 t d))
    ∗ (∃ d, owns (c : Thread nD τ) (bufs1 t).a14 fullShare ((dat1 V c).before 14 t d))
    ∗ (∃ d, owns (c : Thread nD τ) (bufs1 t).a15 fullShare ((dat1 V c).before 15 t d))
    ∗ (∃ d, owns (c : Thread nD τ) (bufs1 t).a16 fullShare ((dat1 V c).before 16 t d)))
/-- and what it returns. -/
def bodyPost1 (c : Dev nD) (t : Fin cfg1.N) : sProp 𝕄 :=
  iprop((dat1 V c).Φ t.succ ∗ (dat1 V c).owesAt () t.succ
    ∗ owns (c : Thread nD τ) (bufs1 t).a0 fullShare ((dat1 V c).after 0 t)
    ∗ owns (c : Thread nD τ) (bufs1 t).a1 fullShare ((dat1 V c).after 1 t)
    ∗ owns (c : Thread nD τ) (bufs1 t).a2 fullShare ((dat1 V c).after 2 t)
    ∗ owns (c : Thread nD τ) (bufs1 t).a3 fullShare ((dat1 V c).after 3 t)
    ∗ owns (c : Thread nD τ) (bufs1 t).a4 fullShare ((dat1 V c).after 4 t)
    ∗ owns (c : Thread nD τ) (bufs1 t).a5 fullShare ((dat1 V c).after 5 t)
    ∗ owns (c : Thread nD τ) (bufs1 t).a6 fullShare ((dat1 V c).after 6 t)
    ∗ owns (c : Thread nD τ) (bufs1 t).a7 fullShare ((dat1 V c).after 7 t)
    ∗ owns (c : Thread nD τ) (bufs1 t).a8 fullShare ((dat1 V c).after 8 t)
    ∗ owns (c : Thread nD τ) (bufs1 t).a9 fullShare ((dat1 V c).after 9 t)
    ∗ owns (c : Thread nD τ) (bufs1 t).a10 fullShare ((dat1 V c).after 10 t)
    ∗ owns (c : Thread nD τ) (bufs1 t).a11 fullShare ((dat1 V c).after 11 t)
    ∗ owns (c : Thread nD τ) (bufs1 t).a12 fullShare ((dat1 V c).after 12 t)
    ∗ owns (c : Thread nD τ) (bufs1 t).a13 fullShare ((dat1 V c).after 13 t)
    ∗ owns (c : Thread nD τ) (bufs1 t).a14 fullShare ((dat1 V c).after 14 t)
    ∗ owns (c : Thread nD τ) (bufs1 t).a15 fullShare ((dat1 V c).after 15 t)
    ∗ owns (c : Thread nD τ) (bufs1 t).a16 fullShare ((dat1 V c).after 16 t))

set_option maxHeartbeats 4000000 in
/-- At every point one of the two cases' runs applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11,
    after1_12, after1_13, after1_14, after1_15, after1_16]
  by_cases h0 : t.val % 256 = 0
  · rw [outsAt1_A V c t h0]
    dsimp only [outA1, out1_A]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((kernelRun1_A c (grid1.coords t) (bufs1 t) ((hcond1_0 t).mpr h0) (ins1 V c t)).2.2.2.2.2 Set.univ _)
    iframe
    isplitl [H12]; · iexists _; iexact H12
    isplitl [H13]; · iexists _; iexact H13
    isplitl [H14]; · iexists _; iexact H14
    isplitl [H15]; · iexists _; iexact H15
    isplitl [H16]; · iexists _; iexact H16
    iintro ⟨H0, H1, H2, H3, H4, H5, H6, H7, H8, H9, H10, H11, ⟨%e12, H12⟩, ⟨%e13, H13⟩, ⟨%e14, H14⟩, ⟨%e15, H15⟩, ⟨%e16, H16⟩⟩
    iframe
    isplitl [H12]
    · unfold owns; iexists _; isplitr
      swap; · iexact H12
      ipureintro; exact View.read_writes_of_cover _ _ _ _ _ (cover1_A c _ _ _ _).1
    isplitl [H13]
    · unfold owns; iexists _; isplitr
      swap; · iexact H13
      ipureintro; exact View.read_writes_of_cover _ _ _ _ _ (cover1_A c _ _ _ _).2.1
    isplitl [H14]
    · unfold owns; iexists _; isplitr
      swap; · iexact H14
      ipureintro; exact View.read_writes_of_cover _ _ _ _ _ (cover1_A c _ _ _ _).2.2.1
    isplitl [H15]
    · unfold owns; iexists _; isplitr
      swap; · iexact H15
      ipureintro; exact View.read_writes_of_cover _ _ _ _ _ (cover1_A c _ _ _ _).2.2.2.1
    · unfold owns; iexists _; isplitr
      swap; · iexact H16
      ipureintro; exact View.read_writes_of_cover _ _ _ _ _ (cover1_A c _ _ _ _).2.2.2.2
  · rw [outsAt1_B V c t h0]
    dsimp only [outB1, out1_B]
    simp only [before1_acc_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((kernelRun1_B c (grid1.coords t) (bufs1 t) (fun h => h0 ((hcond1_0 t).mp h)) (ins1 V c t) (outsAt1 V c (t.val - 1) (Nat.lt_of_le_of_lt (Nat.sub_le _ _) t.isLt))).2.2.2.2.2 Set.univ _)
    iframe
    iintro ⟨H0, H1, H2, H3, H4, H5, H6, H7, H8, H9, H10, H11, ⟨%e12, H12⟩, ⟨%e13, H13⟩, ⟨%e14, H14⟩, ⟨%e15, H15⟩, ⟨%e16, H16⟩⟩
    iframe
    isplitl [H12]
    · unfold owns; iexists _; isplitr
      swap; · iexact H12
      ipureintro; exact View.read_writes_of_cover _ _ _ _ _ (cover1_B c _ _ _ _ _).1
    isplitl [H13]
    · unfold owns; iexists _; isplitr
      swap; · iexact H13
      ipureintro; exact View.read_writes_of_cover _ _ _ _ _ (cover1_B c _ _ _ _ _).2.1
    isplitl [H14]
    · unfold owns; iexists _; isplitr
      swap; · iexact H14
      ipureintro; exact View.read_writes_of_cover _ _ _ _ _ (cover1_B c _ _ _ _ _).2.2.1
    isplitl [H15]
    · unfold owns; iexists _; isplitr
      swap; · iexact H15
      ipureintro; exact View.read_writes_of_cover _ _ _ _ _ (cover1_B c _ _ _ _ _).2.2.2.1
    · unfold owns; iexists _; isplitr
      swap; · iexact H16
      ipureintro; exact View.read_writes_of_cover _ _ _ _ _ (cover1_B c _ _ _ _ _).2.2.2.2

theorem body_obligation1 (c : Dev nD) : BodyObligation (dat1 (F := F) V c) (defs₀ (F := F)) Variants.none () Set.univ := fun t => by
  rw [bigSep_W1, bigSep_W1]
  exact sound_body1 V c t

end Region1

end Cert.KernelIdeal.Gen

end
-- ==== Proof.KI.Run.lean ====
import proofs.«423175_j2508260901476_3_alg».proof.Proof.KI.R0Body
import proofs.«423175_j2508260901476_3_alg».proof.Proof.KI.R1Body
import proofs.«423175_j2508260901476_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers' contents between the five segments of @main: at launch, after each host stretch and after each pass. -/
abbrev W0 : Dev nD → Valuation τ sig (Elt F) := fun c b => m (c, b)
abbrev W1 : Dev nD → Valuation τ sig (Elt F) := fun c => StableHlo.after hostOps0 (W0 m c)
abbrev U1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
abbrev W3 : Dev nD → Valuation τ sig (Elt F) := fun c => StableHlo.after hostOps1 (W2 m c)
abbrev U3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
abbrev W5 : Dev nD → Valuation τ sig (Elt F) := fun c => StableHlo.after hostOps2 (W4 m c)

/-- Each pass's proof data at its entry contents. -/
def pdatsH : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱H : Variants := Variants.none
abbrev LH : GSem nD τ sig → Finset Unit := fun _ => ∅
abbrev lvH : GSem nD τ sig → Unit → ℕ := fun _ _ => 0
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
abbrev TnH (c : Dev nD) : sProp 𝕄 := iprop(StableHlo.held (c : Thread nD τ) (Pipeline.ucRefs τ sig) (W5 m c) ∗ ∃ r, prngReg c r)

theorem hlastH (c : Dev nD) :
    (iprop(StableHlo.held (c : Thread nD τ) (Pipeline.ucRefs τ sig) (W5 m c) ∗ RH c) : sProp 𝕄)
      ⊢ iprop(TnH m c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- The statistics pass as a segment: every unscoped buffer goes from `W1` to `W2`. -/
def reg0 : Pipeline.RegionSeg (pcfgs (F := F)) adm (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (U1 m c) (U2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The main pass as a segment: from `W3` to `W4`. -/
def reg1 : Pipeline.RegionSeg (pcfgs (F := F)) adm (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ LH lvH 1 fun _ _ => rfl
  pre c := iprop(StableHlo.held (c : Thread nD τ) (Pipeline.ucRefs τ sig) (W3 m c) ∗ RH c)
  post c := iprop(StableHlo.held (c : Thread nD τ) (Pipeline.ucRefs τ sig) (W4 m c) ∗ RH c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdatsH m) launch1.win launch1.arr_whole c
      ((pdatsH m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (U3 m c) (U4 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segsH : List (Pipeline.Seg (pcfgs (F := F)) adm (pdatsH m) () defs₀ 𝒱H LH lvH) :=
  [ .host (hsegH hostOps0 hostOps0_sub hostOps0_fresh (W0 m)),
    .region (reg0 m),
    .host (hsegH hostOps1 hostOps1_sub hostOps1_fresh (W2 m)),
    .region (reg1 m),
    .host (hsegH hostOps2 hostOps2_sub hostOps2_fresh (W4 m)) ]

set_option backward.isDefEq.respectTransparency.types false in
/-- Every weakly fair execution of @main terminates, nothing faulting, with every unscoped buffer of every core at `W5`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit_dev (pcfgs (F := F)) adm (pdatsH m) () cellOf_inj emb₁ defs₀ 𝒱H LH lvH m ρ main (fun _ => segsH m)
    (fun c Q => by
      rewrite [main_chain c, Pipeline.Seg.run_eq_chain,
        show (segsH m).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TnH m)
    (hch := fun c => ⟨.rfl, .rfl, .rfl, .rfl, .rfl, hlastH m c⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.KernelIdeal.Gen

end
-- ==== Proof.KI.RunArgs.lean ====
import proofs.«423175_j2508260901476_3_alg».proof.Proof.KI.Run

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A buffer that no host operation writes, and that each pass leaves alone or only reads, ends as launched. -/
theorem W5_kept (c : Dev nD) (b : Ref sig .tc) (h2 : b ∉ hostOps2_W) (h1 : b ∉ hostOps1_W) (h0 : b ∉ hostOps0_W)
    (e43 : W4 m c (Proc.devRef .tc b) = W3 m c (Proc.devRef .tc b)) (e21 : W2 m c (Proc.devRef .tc b) = W1 m c (Proc.devRef .tc b)) :
    W5 m c (Proc.devRef .tc b) = m ((c : Thread nD τ).loc b) :=
  (StableHlo.after_of_writes_sub hostOps2 _ hostOps2_writes h2).trans (e43.trans ((StableHlo.after_of_writes_sub hostOps1 _ hostOps1_writes h1).trans
    (e21.trans (StableHlo.after_of_writes_sub hostOps0 _ hostOps0_writes h0))))

/-- The run read at the result buffer and at the arguments. -/
theorem runResult : θ_run defs (onTc (τ := τ) (main (F := F))) ⟨m, fun _ => 0, ρ⟩ (fun r => ∀ c : Dev nD,
      r.2.mem ((c.tc : Thread nD τ).loc main_v72) = W5 m c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨h c _ (mem_ucH main_v72 (by decide)),
      (h c _ (mem_ucH main_arg0 (by decide))).trans (W5_kept m c main_arg0 (by decide) (by decide) (by decide) ((W4_arr m c 0).trans (((dat1 (U3 m) c).arrAt_in 0 rfl _).trans (A_eq1 (U3 m) c 0))) ((W2_arr m c 0).trans (((dat0 (U1 m) c).arrAt_in 0 rfl _).trans (A_eq0 (U1 m) c 0)))),
      (h c _ (mem_ucH main_arg1 (by decide))).trans (W5_kept m c main_arg1 (by decide) (by decide) (by decide) ((W4_arr m c 1).trans (((dat1 (U3 m) c).arrAt_in 1 rfl _).trans (A_eq1 (U3 m) c 1))) (W2_of_ne m c main_arg1 (by decide))),
      (h c _ (mem_ucH main_arg2 (by decide))).trans (W5_kept m c main_arg2 (by decide) (by decide) (by decide) (W4_of_ne m c main_arg2 (by decide)) (W2_of_ne m c main_arg2 (by decide))),
      (h c _ (mem_ucH main_arg3 (by decide))).trans (W5_kept m c main_arg3 (by decide) (by decide) (by decide) (W4_of_ne m c main_arg3 (by decide)) (W2_of_ne m c main_arg3 (by decide))),
      (h c _ (mem_ucH main_arg4 (by decide))).trans (W5_kept m c main_arg4 (by decide) (by decide) (by decide) ((W4_arr m c 2).trans (((dat1 (U3 m) c).arrAt_in 2 rfl _).trans (A_eq1 (U3 m) c 2))) (W2_of_ne m c main_arg4 (by decide))),
      (h c _ (mem_ucH main_arg5 (by decide))).trans (W5_kept m c main_arg5 (by decide) (by decide) (by decide) (W4_of_ne m c main_arg5 (by decide)) ((W2_arr m c 1).trans (((dat0 (U1 m) c).arrAt_in 1 rfl _).trans (A_eq0 (U1 m) c 1)))),
      (h c _ (mem_ucH main_arg6 (by decide))).trans (W5_kept m c main_arg6 (by decide) (by decide) (by decide) (W4_of_ne m c main_arg6 (by decide)) (W2_of_ne m c main_arg6 (by decide))),
      (h c _ (mem_ucH main_arg7 (by decide))).trans (W5_kept m c main_arg7 (by decide) (by decide) (by decide) (W4_of_ne m c main_arg7 (by decide)) (W2_of_ne m c main_arg7 (by decide))),
      (h c _ (mem_ucH main_arg8 (by decide))).trans (W5_kept m c main_arg8 (by decide) (by decide) (by decide) (W4_of_ne m c main_arg8 (by decide)) (W2_of_ne m c main_arg8 (by decide))),
      (h c _ (mem_ucH main_arg9 (by decide))).trans (W5_kept m c main_arg9 (by decide) (by decide) (by decide) ((W4_arr m c 7).trans (((dat1 (U3 m) c).arrAt_in 7 rfl _).trans (A_eq1 (U3 m) c 7))) (W2_of_ne m c main_arg9 (by decide))),
      (h c _ (mem_ucH main_arg10 (by decide))).trans (W5_kept m c main_arg10 (by decide) (by decide) (by decide) (W4_of_ne m c main_arg10 (by decide)) (W2_of_ne m c main_arg10 (by decide))),
      (h c _ (mem_ucH main_arg11 (by decide))).trans (W5_kept m c main_arg11 (by decide) (by decide) (by decide) ((W4_arr m c 9).trans (((dat1 (U3 m) c).arrAt_in 9 rfl _).trans (A_eq1 (U3 m) c 9))) (W2_of_ne m c main_arg11 (by decide))),
      (h c _ (mem_ucH main_arg12 (by decide))).trans (W5_kept m c main_arg12 (by decide) (by decide) (by decide) (W4_of_ne m c main_arg12 (by decide)) (W2_of_ne m c main_arg12 (by decide))),
      (h c _ (mem_ucH main_arg13 (by decide))).trans (W5_kept m c main_arg13 (by decide) (by decide) (by decide) (W4_of_ne m c main_arg13 (by decide)) (W2_of_ne m c main_arg13 (by decide)))⟩) (run m ρ)

/-- The frame: every execution terminates, nothing faults, the arguments end as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => (h c).2) (runResult m ρ)

end Cert.KernelIdeal.Gen

end
-- ==== Proof.Spec.lean ====
import Idealize.ShloMosaic.PureOps.Ideal
import Idealize.ShloMosaic.Lib.ValueIdx

noncomputable section

namespace Cert.Spec

open Idealize.ShloMosaic

structure Args where
  feat : Fin 1048576 → Fin 64 → EReal
  coord : Fin 1048576 → Fin 3 → EReal
  seg : Fin 1048576 → BitVec 32
  inst : Fin 1048576 → BitVec 32
  cent : Fin 1048576 → Fin 3 → EReal
  W1 : Fin 64 → Fin 64 → EReal
  b1 : Fin 64 → EReal
  gamma : Fin 64 → EReal
  beta : Fin 64 → EReal
  W2 : Fin 64 → Fin 3 → EReal
  b2 : Fin 3 → EReal
  Wseg : Fin 64 → Fin 20 → EReal
  bseg : Fin 20 → EReal
  cw : Fin 20 → EReal

def nnE : EReal := Ideal.ofBits .f32 0x49800000#32
def epsE : EReal := Ideal.ofBits .f32 0x3A83126F#32
def tinyE : EReal := Ideal.ofBits .f32 0x322BCC77#32

def lin {n d : ℕ} (X : Fin n → Fin 64 → EReal) (W : Fin 64 → Fin d → EReal) (b : Fin d → EReal) (r : Fin n) (j : Fin d) : EReal :=
  (∑ k : Fin 64, X r k * W k j) + b j

variable (a : Args)

def h0 : Fin 1048576 → Fin 64 → EReal := lin a.feat a.W1 a.b1

def mean (j : Fin 64) : EReal := Ideal.div (∑ r : Fin 1048576, h0 a r j) nnE

def varK (j : Fin 64) : EReal := Ideal.div (∑ r : Fin 1048576, h0 a r j * h0 a r j) nnE - mean a j * mean a j
def scaleK (j : Fin 64) : EReal := a.gamma j * Ideal.rsqrt (varK a j + epsE)
def W1pK (k j : Fin 64) : EReal := a.W1 k j * scaleK a j
def b1pK (j : Fin 64) : EReal := (a.b1 j - mean a j) * scaleK a j + a.beta j
def hK (r : Fin 1048576) (j : Fin 64) : EReal := max (lin a.feat (W1pK a) (b1pK a) r j) 0

def varR (j : Fin 64) : EReal := Ideal.div (∑ r : Fin 1048576, (h0 a r j - mean a j) * (h0 a r j - mean a j)) nnE
def hR (r : Fin 1048576) (j : Fin 64) : EReal :=
  max ((h0 a r j - mean a j) * Ideal.rsqrt (varR a j + epsE) * a.gamma j + a.beta j) 0

section Heads
variable (h : Fin 1048576 → Fin 64 → EReal)

def biasPred : Fin 1048576 → Fin 3 → EReal := lin h a.W2 a.b2
def logits : Fin 1048576 → Fin 20 → EReal := lin a.feat a.Wseg a.bseg
def biasGt (r : Fin 1048576) (d : Fin 3) : EReal := a.cent r d - a.coord r d

def validF (r : Fin 1048576) : EReal := if a.seg r ≠ 4294967295#32 then 1 else 0
def maskF (r : Fin 1048576) : EReal := if a.inst r ≠ 4294967295#32 then 1 else 0
def tgt (r : Fin 1048576) : BitVec 32 := if a.seg r ≠ 4294967295#32 then a.seg r else 0#32

def mx (r : Fin 1048576) : EReal := Finset.univ.sup (logits a r)
def sexp (r : Fin 1048576) : EReal := ∑ q : Fin 20, Ideal.exp (logits a r q - mx a r)

def biasDist (r : Fin 1048576) : EReal := ∑ d : Fin 3, max (biasPred a h r d - biasGt a r d) (-(biasPred a h r d - biasGt a r d))
def cosSum (r : Fin 1048576) : EReal :=
  ∑ d : Fin 3, Ideal.div (biasPred a h r d) (Ideal.sqrt (∑ e : Fin 3, biasPred a h r e * biasPred a h r e) + tinyE)
    * Ideal.div (biasGt a r d) (Ideal.sqrt (∑ e : Fin 3, biasGt a r e * biasGt a r e) + tinyE)

end Heads

def onehot (r : Fin 1048576) (q : Fin 20) : EReal := if BitVec.ofNat 32 q.val = tgt a r then 1 else 0
def lseK (r : Fin 1048576) : EReal := mx a r + Ideal.log (sexp a r)
def nllK (r : Fin 1048576) : EReal := 0 - ∑ q : Fin 20, (logits a r q - lseK a r) * onehot a r q
def wgtK (r : Fin 1048576) : EReal := (∑ q : Fin 20, onehot a r q * a.cw q) * validF a r
def cosK (r : Fin 1048576) : EReal := 0 - cosSum a (hK a) r

def tgtIdx (r : Fin 1048576) : Fin 20 := ⟨(tgt a r).toNat % 20, Nat.mod_lt _ (by norm_num)⟩
def logpR (r : Fin 1048576) (q : Fin 20) : EReal := (logits a r q - mx a r) - Ideal.log (sexp a r)
def nllR (r : Fin 1048576) : EReal := -(logpR a r (tgtIdx a r))
def wgtR (r : Fin 1048576) : EReal := a.cw (tgtIdx a r) * validF a r
def cosR (r : Fin 1048576) : EReal := -(cosSum a (hR a) r)

def combine (sw swnll smask sbias scos : EReal) (i : Fin 4) : EReal :=
  let seg := Ideal.div swnll sw
  let den := smask + tinyE
  let l1 := Ideal.div sbias den
  let cs := Ideal.div scos den
  match i with
  | ⟨0, _⟩ => seg + l1 + cs
  | ⟨1, _⟩ => seg
  | ⟨2, _⟩ => l1
  | ⟨3, _⟩ => cs

def outK : Fin 4 → EReal :=
  combine (∑ r, wgtK a r) (∑ r, wgtK a r * nllK a r) (∑ r, maskF a r)
    (∑ r, biasDist a (hK a) r * maskF a r) (∑ r, cosK a r * maskF a r)

def outR : Fin 4 → EReal :=
  combine (∑ r, wgtR a r) (∑ r, wgtR a r * nllR a r) (∑ r, maskF a r)
    (∑ r, biasDist a (hR a) r * maskF a r) (∑ r, cosR a r * maskF a r)

def Args.ofArrays (a0 : FVec Ideal ⟨2, ![1048576, 64]⟩ .f32) (a1 : FVec Ideal ⟨2, ![1048576, 3]⟩ .f32)
    (a2 : Vec Ideal ⟨1, ![1048576]⟩ .i32) (a3 : Vec Ideal ⟨1, ![1048576]⟩ .i32) (a4 : FVec Ideal ⟨2, ![1048576, 3]⟩ .f32)
    (a5 : FVec Ideal ⟨2, ![64, 64]⟩ .f32) (a6 : FVec Ideal ⟨1, ![64]⟩ .f32) (a7 : FVec Ideal ⟨1, ![64]⟩ .f32)
    (a8 : FVec Ideal ⟨1, ![64]⟩ .f32) (a9 : FVec Ideal ⟨2, ![64, 3]⟩ .f32) (a10 : FVec Ideal ⟨1, ![3]⟩ .f32)
    (a11 : FVec Ideal ⟨2, ![64, 20]⟩ .f32) (a12 : FVec Ideal ⟨1, ![20]⟩ .f32) (a13 : FVec Ideal ⟨1, ![20]⟩ .f32) : Args where
  feat r k := a0 (ValueIdx.ix2 r k)
  coord r d := a1 (ValueIdx.ix2 r d)
  seg r := a2 (ValueIdx.ix1 r)
  inst r := a3 (ValueIdx.ix1 r)
  cent r d := a4 (ValueIdx.ix2 r d)
  W1 k j := a5 (ValueIdx.ix2 k j)
  b1 j := a6 (ValueIdx.ix1 j)
  gamma j := a7 (ValueIdx.ix1 j)
  beta j := a8 (ValueIdx.ix1 j)
  W2 k d := a9 (ValueIdx.ix2 k d)
  b2 d := a10 (ValueIdx.ix1 d)
  Wseg k q := a11 (ValueIdx.ix2 k q)
  bseg q := a12 (ValueIdx.ix1 q)
  cw q := a13 (ValueIdx.ix1 q)

def asArray (f : Fin 4 → EReal) : FVec Ideal ⟨1, ![4]⟩ .f32 := fun i => f (i 0)

structure Args.Finite : Prop where
  feat : ∀ r k, ∃ x : ℝ, a.feat r k = (x : EReal)
  coord : ∀ r d, ∃ x : ℝ, a.coord r d = (x : EReal)
  cent : ∀ r d, ∃ x : ℝ, a.cent r d = (x : EReal)
  W1 : ∀ k j, ∃ x : ℝ, a.W1 k j = (x : EReal)
  b1 : ∀ j, ∃ x : ℝ, a.b1 j = (x : EReal)
  gamma : ∀ j, ∃ x : ℝ, a.gamma j = (x : EReal)
  beta : ∀ j, ∃ x : ℝ, a.beta j = (x : EReal)
  W2 : ∀ k d, ∃ x : ℝ, a.W2 k d = (x : EReal)
  b2 : ∀ d, ∃ x : ℝ, a.b2 d = (x : EReal)
  Wseg : ∀ k q, ∃ x : ℝ, a.Wseg k q = (x : EReal)
  bseg : ∀ q, ∃ x : ℝ, a.bseg q = (x : EReal)
  cw : ∀ q, ∃ x : ℝ, a.cw q = (x : EReal)

def Args.LabelsInRange : Prop := ∀ r, a.seg r = 4294967295#32 ∨ (a.seg r).toNat < 20

end Cert.Spec

end
-- ==== Proof.KI.ArgsOf.lean ====
import proofs.«423175_j2508260901476_3_alg».proof.Proof.Gen.KernelIdeal
import proofs.«423175_j2508260901476_3_alg».proof.Proof.Spec

noncomputable section

namespace Cert.KernelIdeal.Val

open Idealize.ShloMosaic Idealize.ShloMosaic.TcCoe Idealize.SL.Sem Cert.KernelIdeal

def argsOf (m : (ℓ : Loc nD τ sig) → Buf (Elt Ideal) ℓ) (c : Dev nD) : Cert.Spec.Args :=
  Cert.Spec.Args.ofArrays (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11)) (m ((c.tc : Thread nD τ).loc main_arg12)) (m ((c.tc : Thread nD τ).loc main_arg13))

def rowOf (k : Fin 2) (r : Fin 524288) : Fin 1048576 := ⟨k.val * 524288 + r.val, by omega⟩

/-- The points split into rows 0 … 524287 and 524288 … 1048575. -/
theorem sum_halves (f : Fin 1048576 → EReal) :
    ∑ r : Fin 1048576, f r = (∑ r : Fin 524288, f (rowOf 0 r)) + ∑ r : Fin 524288, f (rowOf 1 r) := by
  have e : (524288 + 524288 : ℕ) = 1048576 := by norm_num
  rw [← Equiv.sum_comp (finCongr e) f, Fin.sum_univ_add]
  refine congrArg₂ (· + ·) ?_ ?_
  · refine Finset.sum_congr rfl fun r _ => congrArg f (Fin.ext ?_)
    simp only [finCongr_apply, Fin.coe_cast, Fin.coe_castAdd, rowOf, Fin.val_zero, Nat.zero_mul, Nat.zero_add]
  · refine Finset.sum_congr rfl fun r _ => congrArg f (Fin.ext ?_)
    simp only [finCongr_apply, Fin.coe_cast, Fin.coe_natAdd, rowOf, Fin.val_one, Nat.one_mul]

end Cert.KernelIdeal.Val

end
-- ==== Proof.KI.Val0Pieces.lean ====
import proofs.«423175_j2508260901476_3_alg».proof.Proof.KI.R0Body
import Idealize.ShloMosaic.Lib.Pipeline.Value
import Idealize.ShloMosaic.Lib.Tactic

set_option maxRecDepth 16384

noncomputable section

namespace Cert.KernelIdeal.Val

open Idealize.ShloMosaic Idealize.ShloMosaic.TcCoe Idealize.SL.Sem
open Cert.KernelIdeal Cert.KernelIdeal.Gen

variable {F : FTy → Type} [FloatOps F]

theorem r0_hz2 : (![0, 0] : Fin 2 → Nat) = fun _ => 0 := funext fun a => by fin_cases a <;> rfl
theorem r0_hz3 : (![0, 0, 0] : Fin 3 → Nat) = fun _ => 0 := funext fun a => by fin_cases a <;> rfl

/-- Adding case: each row ends as the row before plus the block's sum for it. -/
theorem r0_piece_B (c : Dev nD) (i : grid0.Coords) (b : Bufs0) (hc0 : ¬cond0_0 i) (x : Ins0 F) (xo : Acc0 F) :
    out0_B c i b hc0 x xo =
      (k0_pay4 x.x0 x.x1 x.x2 xo.1,
       k0_pay5 x.x0 x.x1 x.x2 xo.2) := by
  unfold out0_B
  refine Prod.ext ?_ ?_ <;> dsimp only
  on_goal 1 => refine (View.read_writes_eq_canon _ _ _ (cover0_B c i b hc0 x xo).1).trans ?_
  on_goal 2 => refine (View.read_writes_eq_canon _ _ _ (cover0_B c i b hc0 x xo).2).trans ?_
  all_goals
    unfold kernelRun0_B
    dsimp only
    sl_unfold_words
    simp only [View.canon_unit_zero (S := S1x1x64) r0_hz3, View.readAt_eq_ld, b.h0.read_unread, b.h1.read_unread, b.h2.read_unread, b.h3.read_unread, b.h4.read_unread,
    View.ld_unit_zero (S := S16384x64) r0_hz2, View.ld_unit_zero (S := S64x64) r0_hz2, View.ld_unit_zero (S := S1x64) r0_hz2,
    View.ld_unit_zero (S := S1x1x64) r0_hz3]

/-- Clearing case: each row ends as zero plus the block's sum for it. -/
theorem r0_piece_A (c : Dev nD) (i : grid0.Coords) (b : Bufs0) (hc0 : cond0_0 i) (x : Ins0 F) :
    out0_A c i b hc0 x =
      (k0_pay4 x.x0 x.x1 x.x2 (k0_pay1 (F := F)),
       k0_pay5 x.x0 x.x1 x.x2 (k0_pay2 (F := F))) := by
  unfold out0_A
  refine Prod.ext ?_ ?_ <;> dsimp only
  on_goal 1 => refine (View.read_writes_eq_canon _ _ _ (cover0_A c i b hc0 x).1).trans ?_
  on_goal 2 => refine (View.read_writes_eq_canon _ _ _ (cover0_A c i b hc0 x).2).trans ?_
  all_goals
    unfold kernelRun0_A
    dsimp only
    sl_unfold_words
    simp only [View.canon_cons_unit_zero (S := S1x1x64) r0_hz3, View.readCov_unit_zero (S := S1x1x64) _ r0_hz3, View.readAt_eq_ld, b.h0.read_unread, b.h1.read_unread, b.h2.read_unread, b.h3.read_unread, b.h4.read_unread,
    View.ld_unit_zero (S := S16384x64) r0_hz2, View.ld_unit_zero (S := S64x64) r0_hz2, View.ld_unit_zero (S := S1x64) r0_hz2,
    View.ld_unit_zero (S := S1x1x64) r0_hz3]

end Cert.KernelIdeal.Val

end
-- ==== Proof.KI.Val1Lay.lean ====
import Idealize.ShloMosaic.Lib.ValueLayout
import Idealize.ShloMosaic.PureOps.Ideal.Laws
import Idealize.ShloMosaic.Lib.Affine

namespace Cert.KernelIdeal.Val

open Idealize.ShloMosaic Idealize.ShloMosaic.ValueIdx

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32) (r : Fin a) :
    multiReduction (F := Ideal) .add [1] ⟨1, ![a]⟩ src 0x00000000#32 h hφ hacc (ix1 r) = ∑ q : Fin b, src (ix2 r q) := by
  refine (Ideal.multiReduction_add_single src 0x00000000#32 h hφ hacc (ix1 r)).trans ?_
  show ∑ q : Fin b, src (h.lift (ix1 r) q) = _
  refine Finset.sum_congr rfl fun q _ => congrArg src (funext fun ax => Fin.ext ?_)
  match ax with
  | ⟨0, _⟩ => rfl
  | ⟨1, _⟩ => rfl

theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = 0x00000000#32) (j : Fin b) :
    multiReduction (F := Ideal) .add [0] ⟨1, ![b]⟩ src 0x00000000#32 h hφ hacc (ix1 j) = ∑ r : Fin a, src (ix2 r j) := by
  refine (Ideal.multiReduction_add_single src 0x00000000#32 h hφ hacc (ix1 j)).trans ?_
  show ∑ r : Fin a, src (h.lift (ix1 j) r) = _
  refine Finset.sum_congr rfl fun r _ => congrArg src (funext fun ax => Fin.ext ?_)
  match ax with
  | ⟨0, _⟩ => rfl
  | ⟨1, _⟩ => rfl

theorem ofBits_neg_inf_f32 : Ideal.ofBits .f32 0xFF800000#32 = ⊥ := by simp [Ideal.ofBits, Ideal.ieee]

theorem rowMax_apply {a b : ℕ} (src : FVec Ideal ⟨2, ![a, b]⟩ .f32)
    (h : Shape.Reduces ⟨2, ![a, b]⟩ [1] ⟨1, ![a]⟩) (hφ : FKind.Formats .f32)
    (hacc : (0xFF800000#32 : BitVec 32) = 0xFF800000#32) (r : Fin a) :
    multiReduction (F := Ideal) .maximumf [1] ⟨1, ![a]⟩ src 0xFF800000#32 h hφ hacc (ix1 r)
      = Finset.univ.sup (fun q : Fin b => src (ix2 r q)) := by
  refine (Ideal.multiReduction_maximumf_single src _ h hφ hacc (ix1 r)).trans ?_
  have e : (fun q : Fin b => src (h.lift (ix1 r) q)) = fun q => src (ix2 r q) :=
    funext fun q => congrArg src (funext fun ax => Fin.ext (by
      match ax with
      | ⟨0, _⟩ => rfl
      | ⟨1, _⟩ => rfl))
  refine Eq.trans (b := (Finset.univ : Finset (Fin b)).fold max ⊥ (fun q : Fin b => src (ix2 r q))) ?_ rfl
  exact congrArg₂ (fun (z : EReal) (f : Fin b → EReal) => (Finset.univ : Finset (Fin b)).fold max z f) ofBits_neg_inf_f32 e

theorem matmul_rows_cols_apply {m K n : ℕ} (D : DotDims ⟨2, ![m, K]⟩ ⟨2, ![K, n]⟩ ⟨2, ![m, n]⟩)
    (hr : D.contr.rank = 1) (hs : D.contr.size ⟨0, by omega⟩ = K)
    (l0 : ∀ j k, (D.lhsIdx j k 0).val = (j 0).val) (l1 : ∀ j k, (D.lhsIdx j k 1).val = (k ⟨0, by omega⟩).val)
    (r0 : ∀ j k, (D.rhsIdx j k 0).val = (k ⟨0, by omega⟩).val) (r1 : ∀ j k, (D.rhsIdx j k 1).val = (j 1).val)
    (lhs : FVec Ideal ⟨2, ![m, K]⟩ .f32) (rhs : FVec Ideal ⟨2, ![K, n]⟩ .f32) (r : Fin m) (j : Fin n) :
    matmul D none lhs rhs (constant (F := Ideal) ⟨2, ![m, n]⟩ .f32 0x00000000#32) (ix2 r j)
      = ∑ k : Fin K, lhs (ix2 r k) * rhs (ix2 k j) := by
  refine (Ideal.matmul_constant_zero_apply D none lhs rhs (ix2 r j)).trans ?_
  refine ((contrEquiv1 D K hr hs).symm.sum_comp _).symm.trans ?_
  refine Finset.sum_congr rfl fun k _ => ?_
  have hk := contrEquiv1_symm_val D K hr hs k
  have el : D.lhsIdx (ix2 r j) ((contrEquiv1 D K hr hs).symm k) = ix2 r k := funext fun ax => Fin.ext (by
    match ax with
    | ⟨0, _⟩ => exact l0 _ _
    | ⟨1, _⟩ => exact (l1 _ _).trans hk)
  have er : D.rhsIdx (ix2 r j) ((contrEquiv1 D K hr hs).symm k) = ix2 k j := funext fun ax => Fin.ext (by
    match ax with
    | ⟨0, _⟩ => exact (r0 _ _).trans hk
    | ⟨1, _⟩ => exact r1 _ _)
  rw [el, er]

theorem sitofp_bit (b : BitVec 1) : (FloatOps.sitofp .f32 (b.setWidth 32) : Ideal .f32) = if b = 1#1 then (1 : EReal) else 0 := by
  rcases BitVec.eq_zero_or_eq_one b with h | h <;> subst h
  · show ((((0#1 : BitVec 1).setWidth 32).toInt : ℝ) : EReal) = _
    simp
  · show ((((1#1 : BitVec 1).setWidth 32).toInt : ℝ) : EReal) = _
    simp

theorem valid_word (s : BitVec 32) :
    (FloatOps.sitofp .f32 ((IntOp.cmpi .ne s 4294967295#32).setWidth 32) : Ideal .f32) = if s ≠ 4294967295#32 then (1 : EReal) else 0 := by
  rw [sitofp_bit]
  exact if_congr IntOp.cmpi_ne rfl rfl

theorem target_word (s : BitVec 32) :
    Scalar.select (IntOp.cmpi .ne s 4294967295#32) s 0#32 = if s ≠ 4294967295#32 then s else 0#32 := by
  unfold Scalar.select
  exact if_congr IntOp.cmpi_ne rfl rfl

theorem onehot_word (i s : BitVec 32) :
    (FloatOps.sitofp .f32 ((IntOp.cmpi .eq i (Scalar.select (IntOp.cmpi .ne s 4294967295#32) s 0#32)).setWidth 32) : Ideal .f32)
      = if i = (if s ≠ 4294967295#32 then s else 0#32) then (1 : EReal) else 0 := by
  rw [sitofp_bit, target_word]
  exact if_congr IntOp.cmpi_eq rfl rfl

end Cert.KernelIdeal.Val
-- ==== Proof.KI.Val0Pay.lean ====
import proofs.«423175_j2508260901476_3_alg».proof.Proof.Gen.KernelIdeal.Skeleton
import proofs.«423175_j2508260901476_3_alg».proof.Proof.KI.Val1Lay

noncomputable section

namespace Cert.KernelIdeal.Val

open Idealize.ShloMosaic Idealize.ShloMosaic.ValueIdx
open Cert.KernelIdeal Cert.KernelIdeal.Gen

theorem k0_pay1_apply (j : Fin 64) : k0_pay1 (F := Ideal) (ix3 (0 : Fin 1) (0 : Fin 1) j) = 0 := by
  unfold k0_pay1
  exact (shapeCast_ab_1ab_apply _ _ (0 : Fin 1) (0 : Fin 1) j).trans Ideal.ofBits_zero_f32
theorem k0_pay2_apply (j : Fin 64) : k0_pay2 (F := Ideal) (ix3 (0 : Fin 1) (0 : Fin 1) j) = 0 :=
  k0_pay1_apply j

/-- The block's layer at (r, j): the product with the weights read as a sum over the features, plus the bias row. -/
theorem k0_pay3_apply (x : Vec Ideal S16384x64 .f32) (w : Vec Ideal S64x64 .f32) (b : Vec Ideal S1x64 .f32) (r : Fin 16384) (j : Fin 64) :
    k0_pay3 (F := Ideal) x w b (ix2 r j) = (∑ k : Fin 64, x (ix2 r k) * w (ix2 k j)) + b (ix2 (0 : Fin 1) j) := by
  unfold k0_pay3
  exact (addf_apply _ _ _).trans (congrArg₂ (· + ·)
    (matmul_rows_cols_apply dot_S16384x64_S64x64_S16384x64_1_0_0_1_n_n rfl rfl (fun _ _ => rfl) (fun _ _ => rfl) (fun _ _ => rfl) (fun _ _ => rfl) x w r j)
    ((broadcastTo_1b_ab_apply _ _ r j).trans (by rw [shapeCast_self])))

/-- Both accumulator updates have one shape: the held row plus the sums of g down the block's rows. -/
theorem k0_acc_apply (g : FVec Ideal S16384x64 .f32) (prev : Vec Ideal S1x1x64 .f32) (h hφ hacc hc1 hc2 hc3) (j : Fin 64) :
    shapeCast S1x1x64 (addf (shapeCast S1x64 prev hc1) (shapeCast S1x64 (multiReduction (F := Ideal) .add [0] S64 g 0x00000000#32 h hφ hacc) hc2)) hc3
        (ix3 (0 : Fin 1) (0 : Fin 1) j)
      = prev (ix3 (0 : Fin 1) (0 : Fin 1) j) + ∑ r : Fin 16384, g (ix2 r j) :=
  (shapeCast_ab_1ab_apply _ _ (0 : Fin 1) (0 : Fin 1) j).trans ((addf_apply _ _ _).trans (congrArg₂ (· + ·)
    (shapeCast_1ab_ab_apply prev _ (0 : Fin 1) j) ((shapeCast_a_1a_apply _ _ (0 : Fin 1) j).trans (colSum_apply g _ _ _ j))))

theorem k0_pay4_apply (x : Vec Ideal S16384x64 .f32) (w : Vec Ideal S64x64 .f32) (b : Vec Ideal S1x64 .f32) (prev : Vec Ideal S1x1x64 .f32) (j : Fin 64) :
    k0_pay4 (F := Ideal) x w b prev (ix3 (0 : Fin 1) (0 : Fin 1) j)
      = prev (ix3 (0 : Fin 1) (0 : Fin 1) j) + ∑ r : Fin 16384, ((∑ k : Fin 64, x (ix2 r k) * w (ix2 k j)) + b (ix2 (0 : Fin 1) j)) := by
  unfold k0_pay4
  exact (k0_acc_apply _ prev _ _ _ _ _ _ j).trans (congrArg₂ (· + ·) rfl (Finset.sum_congr rfl fun r _ => k0_pay3_apply x w b r j))

theorem k0_pay5_apply (x : Vec Ideal S16384x64 .f32) (w : Vec Ideal S64x64 .f32) (b : Vec Ideal S1x64 .f32) (prev : Vec Ideal S1x1x64 .f32) (j : Fin 64) :
    k0_pay5 (F := Ideal) x w b prev (ix3 (0 : Fin 1) (0 : Fin 1) j)
      = prev (ix3 (0 : Fin 1) (0 : Fin 1) j) + ∑ r : Fin 16384, ((∑ k : Fin 64, x (ix2 r k) * w (ix2 k j)) + b (ix2 (0 : Fin 1) j))
          * ((∑ k : Fin 64, x (ix2 r k) * w (ix2 k j)) + b (ix2 (0 : Fin 1) j)) := by
  unfold k0_pay5
  exact (k0_acc_apply _ prev _ _ _ _ _ _ j).trans (congrArg₂ (· + ·) rfl (Finset.sum_congr rfl fun r _ =>
    (mulf_apply _ _ _).trans (by rw [k0_pay3_apply x w b r j])))

end Cert.KernelIdeal.Val

end
-- ==== Proof.KI.Val0.lean ====
import proofs.«423175_j2508260901476_3_alg».proof.Proof.KI.Val0Pieces
import proofs.«423175_j2508260901476_3_alg».proof.Proof.KI.Val0Pay
import proofs.«423175_j2508260901476_3_alg».proof.Proof.KI.ArgsOf
import Idealize.ShloMosaic.Lib.Pipeline.Value

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

abbrev r0_feat (c : Dev nD) : Vec Ideal S1048576x64 .f32 := V c main_arg0
abbrev r0_w1 (c : Dev nD) : Vec Ideal S64x64 .f32 := V c main_arg5
abbrev r0_b1 (c : Dev nD) : Vec Ideal S1x64 .f32 := V c main_v0
abbrev r0_X (c : Dev nD) : Fin 1048576 → Fin 64 → EReal := fun n k => r0_feat V c (ix2 n k)
abbrev r0_W (c : Dev nD) : Fin 64 → Fin 64 → EReal := fun k j => r0_w1 V c (ix2 k j)
abbrev r0_B (c : Dev nD) : Fin 64 → EReal := fun j => r0_b1 V c (ix2 (0 : Fin 1) j)

abbrev r0_xblk (c : Dev nD) (t : Fin cfg0.N) : Vec Ideal S16384x64 .f32 := iblk0 (F := Ideal) V c 0 t
abbrev r0_wblk (c : Dev nD) (t : Fin cfg0.N) : Vec Ideal S64x64 .f32 := iblk0 (F := Ideal) V c 1 t
abbrev r0_bblk (c : Dev nD) (t : Fin cfg0.N) : Vec Ideal S1x64 .f32 := iblk0 (F := Ideal) V c 2 t

theorem r0_idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 32 ∧ win0_3.index t (1 : Fin 3) = 0 ∧ win0_3.index t (2 : Fin 3) = 0
    ∧ win0_4.index t (0 : Fin 3) = t.val / 32 ∧ win0_4.index t (1 : Fin 3) = 0 ∧ win0_4.index t (2 : Fin 3) = 0 :=
  (by decide +kernel : ∀ t : Fin grid0.N, _)

theorem r0_xblk_apply (c : Dev nD) (t : Fin cfg0.N) (r : Fin 16384) (k : Fin 64) (h : t.val * 16384 + r.val < 1048576) :
    r0_xblk V c t (ix2 r k) = r0_feat V c (ix2 ⟨t.val * 16384 + r.val, h⟩ k) := by
  obtain ⟨e0, e1, -⟩ := r0_idx_facts t
  show V c main_arg0 (((cfg0.win 0).blk t).view.emb (ix2 r k)) = V c main_arg0 (ix2 ⟨t.val * 16384 + r.val, h⟩ k)
  refine congrArg (V c main_arg0) ?_
  funext a
  apply Fin.ext
  match a with
  | ⟨0, _⟩ => show win0_0.index t (0 : Fin 2) * 16384 + 1 * r.val = t.val * 16384 + r.val; rw [e0]; omega
  | ⟨1, _⟩ => show win0_0.index t (1 : Fin 2) * 64 + 1 * k.val = k.val; rw [e1]; omega

theorem r0_wblk_apply (c : Dev nD) (t : Fin cfg0.N) (k : Fin 64) (j : Fin 64) :
    r0_wblk V c t (ix2 k j) = r0_w1 V c (ix2 k j) := by
  obtain ⟨-, -, e2, e3, -⟩ := r0_idx_facts t
  show V c main_arg5 (((cfg0.win 1).blk t).view.emb (ix2 k j)) = V c main_arg5 (ix2 k j)
  refine congrArg (V c main_arg5) ?_
  funext a
  apply Fin.ext
  match a with
  | ⟨0, _⟩ => show win0_1.index t (0 : Fin 2) * 64 + 1 * k.val = k.val; rw [e2]; omega
  | ⟨1, _⟩ => show win0_1.index t (1 : Fin 2) * 64 + 1 * j.val = j.val; rw [e3]; omega

theorem r0_bblk_apply (c : Dev nD) (t : Fin cfg0.N) (j : Fin 64) :
    r0_bblk V c t (ix2 (0 : Fin 1) j) = r0_b1 V c (ix2 (0 : Fin 1) j) := by
  obtain ⟨-, -, -, -, e4, e5, -⟩ := r0_idx_facts t
  show V c main_v0 (((cfg0.win 2).blk t).view.emb (ix2 (0 : Fin 1) j)) = V c main_v0 (ix2 (0 : Fin 1) j)
  refine congrArg (V c main_v0) ?_
  funext a
  apply Fin.ext
  match a with
  | ⟨0, _⟩ => show win0_2.index t (0 : Fin 2) * 1 + 1 * 0 = 0; rw [e4]
  | ⟨1, _⟩ => show win0_2.index t (1 : Fin 2) * 64 + 1 * j.val = j.val; rw [e5]; omega

/-- The first layer's value of point `n` in column `j`. -/
def r0_hAt (c : Dev nD) (j : Fin 64) (n : ℕ) : EReal :=
  if h : n < 1048576 then Cert.Spec.lin (r0_X V c) (r0_W V c) (r0_B V c) ⟨n, h⟩ j else 0

/-- A block's column sum of the layer, and of its square. -/
def r0_bs1 (c : Dev nD) (j : Fin 64) (p : ℕ) : EReal := ∑ r : Fin 16384, r0_hAt V c j (p * 16384 + r.val)
def r0_bs2 (c : Dev nD) (j : Fin 64) (p : ℕ) : EReal :=
  ∑ r : Fin 16384, r0_hAt V c j (p * 16384 + r.val) * r0_hAt V c j (p * 16384 + r.val)

theorem r0_block_h (c : Dev nD) (t : Fin cfg0.N) (r : Fin 16384) (j : Fin 64) :
    (∑ k : Fin 64, r0_xblk V c t (ix2 r k) * r0_wblk V c t (ix2 k j)) + r0_bblk V c t (ix2 (0 : Fin 1) j)
      = r0_hAt V c j (t.val * 16384 + r.val) := by
  have hN : t.val < 64 := lt_of_lt_of_eq t.isLt (show cfg0.N = 64 from N_0)
  have hr : t.val * 16384 + r.val < 1048576 := by have := r.isLt; omega
  unfold r0_hAt
  rw [dif_pos hr]
  show _ = (∑ k : Fin 64, r0_feat V c (ix2 ⟨t.val * 16384 + r.val, hr⟩ k) * r0_w1 V c (ix2 k j)) + r0_b1 V c (ix2 (0 : Fin 1) j)
  refine congrArg₂ (· + ·) (Finset.sum_congr rfl fun k _ => ?_) (r0_bblk_apply V c t j)
  rw [r0_xblk_apply V c t r k hr, r0_wblk_apply V c t k j]

/-- A restart point leaves its own block's sums; -/
theorem r0_step_A (c : Dev nD) (t : Fin cfg0.N) (h0 : t.val % 32 = 0) (j : Fin 64) :
    (outsAt0 (F := Ideal) V c t.val t.isLt).1 (ix3 (0 : Fin 1) (0 : Fin 1) j) = r0_bs1 V c j t.val
      ∧ (outsAt0 (F := Ideal) V c t.val t.isLt).2 (ix3 (0 : Fin 1) (0 : Fin 1) j) = r0_bs2 V c j t.val := by
  rw [outsAt0_A V c t h0, outA0, r0_piece_A]
  dsimp only
  constructor
  · refine (k0_pay4_apply (r0_xblk V c t) (r0_wblk V c t) (r0_bblk V c t) (k0_pay1 (F := Ideal)) j).trans ?_
    rw [k0_pay1_apply j, zero_add]
    exact Finset.sum_congr rfl fun r _ => r0_block_h V c t r j
  · refine (k0_pay5_apply (r0_xblk V c t) (r0_wblk V c t) (r0_bblk V c t) (k0_pay2 (F := Ideal)) j).trans ?_
    rw [k0_pay2_apply j, zero_add]
    exact Finset.sum_congr rfl fun r _ => by rw [r0_block_h V c t r j]

/-- any other point adds its block's sums to the rows before. -/
theorem r0_step_B (c : Dev nD) (t : Fin cfg0.N) (h0 : ¬t.val % 32 = 0) (j : Fin 64) :
    (outsAt0 (F := Ideal) V c t.val t.isLt).1 (ix3 (0 : Fin 1) (0 : Fin 1) j)
        = (outsAt0 (F := Ideal) V c (t.val - 1) (Nat.lt_of_le_of_lt (Nat.sub_le _ _) t.isLt)).1 (ix3 (0 : Fin 1) (0 : Fin 1) j) + r0_bs1 V c j t.val
      ∧ (outsAt0 (F := Ideal) V c t.val t.isLt).2 (ix3 (0 : Fin 1) (0 : Fin 1) j)
        = (outsAt0 (F := Ideal) V c (t.val - 1) (Nat.lt_of_le_of_lt (Nat.sub_le _ _) t.isLt)).2 (ix3 (0 : Fin 1) (0 : Fin 1) j) + r0_bs2 V c j t.val := by
  rw [outsAt0_B V c t h0, outB0, r0_piece_B]
  dsimp only
  constructor
  · refine (k0_pay4_apply (r0_xblk V c t) (r0_wblk V c t) (r0_bblk V c t) _ j).trans ?_
    exact congrArg (_ + ·) (Finset.sum_congr rfl fun r _ => r0_block_h V c t r j)
  · refine (k0_pay5_apply (r0_xblk V c t) (r0_wblk V c t) (r0_bblk V c t) _ j).trans ?_
    exact congrArg (_ + ·) (Finset.sum_congr rfl fun r _ => by rw [r0_block_h V c t r j])

/-- After point `t` the rows are the sums over the blocks of `t`'s half up to `t`. -/
theorem r0_outs_eq (c : Dev nD) (j : Fin 64) : ∀ (n : ℕ) (t : Fin cfg0.N), t.val = n →
    (outsAt0 (F := Ideal) V c t.val t.isLt).1 (ix3 (0 : Fin 1) (0 : Fin 1) j) = ∑ s ∈ Finset.range (t.val % 32 + 1), r0_bs1 V c j (t.val / 32 * 32 + s)
      ∧ (outsAt0 (F := Ideal) V c t.val t.isLt).2 (ix3 (0 : Fin 1) (0 : Fin 1) j) = ∑ s ∈ Finset.range (t.val % 32 + 1), r0_bs2 V c j (t.val / 32 * 32 + s)
  | 0, t, ht => by
    have hA := r0_step_A V c t (by omega) j
    have e1 : t.val % 32 = 0 := by omega
    have e2 : t.val / 32 * 32 + 0 = t.val := by omega
    refine ⟨hA.1.trans ?_, hA.2.trans ?_⟩ <;> rw [e1, Nat.zero_add, Finset.sum_range_one, e2]
  | n + 1, t, ht => by
    by_cases h0 : t.val % 32 = 0
    · have hA := r0_step_A V c t h0 j
      have e2 : t.val / 32 * 32 + 0 = t.val := by omega
      refine ⟨hA.1.trans ?_, hA.2.trans ?_⟩ <;> rw [h0, Nat.zero_add, Finset.sum_range_one, e2]
    · have hB := r0_step_B V c t h0 j
      have ih := r0_outs_eq c j n ⟨t.val - 1, Nat.lt_of_le_of_lt (Nat.sub_le _ _) t.isLt⟩ (by show t.val - 1 = n; omega)
      have e1 : t.val % 32 = (t.val - 1) % 32 + 1 := by omega
      have e2 : t.val / 32 = (t.val - 1) / 32 := by omega
      have e3 : (t.val - 1) / 32 * 32 + ((t.val - 1) % 32 + 1) = t.val := by omega
      refine ⟨hB.1.trans ?_, hB.2.trans ?_⟩
      · rw [show (outsAt0 (F := Ideal) V c (t.val - 1) (Nat.lt_of_le_of_lt (Nat.sub_le _ _) t.isLt)).1 (ix3 (0 : Fin 1) (0 : Fin 1) j) = _ from ih.1]
        show (∑ s ∈ Finset.range ((t.val - 1) % 32 + 1), r0_bs1 V c j ((t.val - 1) / 32 * 32 + s)) + r0_bs1 V c j t.val = _
        rw [e1, e2, Finset.sum_range_succ _ ((t.val - 1) % 32 + 1), e3]
      · rw [show (outsAt0 (F := Ideal) V c (t.val - 1) (Nat.lt_of_le_of_lt (Nat.sub_le _ _) t.isLt)).2 (ix3 (0 : Fin 1) (0 : Fin 1) j) = _ from ih.2]
        show (∑ s ∈ Finset.range ((t.val - 1) % 32 + 1), r0_bs2 V c j ((t.val - 1) / 32 * 32 + s)) + r0_bs2 V c j t.val = _
        rw [e1, e2, Finset.sum_range_succ _ ((t.val - 1) % 32 + 1), e3]

theorem r0_sum_range_blocks (f : ℕ → EReal) (a b : ℕ) :
    ∑ s ∈ Finset.range a, ∑ i ∈ Finset.range b, f (s * b + i) = ∑ n ∈ Finset.range (a * b), f n := by
  induction a with
  | zero => simp
  | succ a ih => rw [Finset.sum_range_succ, ih, Nat.succ_mul, Finset.sum_range_add]

def r0_sum1 (c : Dev nD) (k : Fin 2) (j : Fin 64) : EReal :=
  ∑ r : Fin 524288, Cert.Spec.lin (r0_X V c) (r0_W V c) (r0_B V c) (rowOf k r) j
def r0_sum2 (c : Dev nD) (k : Fin 2) (j : Fin 64) : EReal :=
  ∑ r : Fin 524288, Cert.Spec.lin (r0_X V c) (r0_W V c) (r0_B V c) (rowOf k r) j * Cert.Spec.lin (r0_X V c) (r0_W V c) (r0_B V c) (rowOf k r) j

theorem r0_lin_rowOf (c : Dev nD) (k : Fin 2) (j : Fin 64) (r : Fin 524288) :
    Cert.Spec.lin (r0_X V c) (r0_W V c) (r0_B V c) (rowOf k r) j = r0_hAt V c j (k.val * 524288 + r.val) := by
  have hk := k.isLt
  have hr := r.isLt
  unfold r0_hAt
  rw [dif_pos (by omega : k.val * 524288 + r.val < 1048576)]
  rfl

/-- A half's sum of a term over its 524288 points is the sum over its 32 blocks of the blocks' sums. -/
theorem r0_sum_blocks (g : ℕ → EReal) (k : Fin 2) :
    ∑ r : Fin 524288, g (k.val * 524288 + r.val) = ∑ s ∈ Finset.range 32, ∑ r : Fin 16384, g ((k.val * 32 + s) * 16384 + r.val) := by
  rw [Fin.sum_univ_eq_sum_range (fun n => g (k.val * 524288 + n)) 524288,
    show (524288 : ℕ) = 32 * 16384 from rfl, ← r0_sum_range_blocks]
  refine Finset.sum_congr rfl fun s _ => ?_
  rw [Fin.sum_univ_eq_sum_range (fun n => g ((k.val * 32 + s) * 16384 + n)) 16384]
  refine Finset.sum_congr rfl fun i _ => congrArg g ?_
  omega

theorem r0_sum1_eq (c : Dev nD) (k : Fin 2) (j : Fin 64) :
    r0_sum1 V c k j = ∑ s ∈ Finset.range 32, r0_bs1 V c j (k.val * 32 + s) := by
  unfold r0_sum1 r0_bs1
  rw [Finset.sum_congr rfl fun r _ => r0_lin_rowOf V c k j r]
  exact r0_sum_blocks (r0_hAt V c j) k
theorem r0_sum2_eq (c : Dev nD) (k : Fin 2) (j : Fin 64) :
    r0_sum2 V c k j = ∑ s ∈ Finset.range 32, r0_bs2 V c j (k.val * 32 + s) := by
  unfold r0_sum2 r0_bs2
  rw [Finset.sum_congr rfl fun r _ => by rw [r0_lin_rowOf V c k j r]]
  exact r0_sum_blocks (fun n => r0_hAt V c j n * r0_hAt V c j n) k

/-- What the pass ends with: per half and column, the sum of the layer, and of its square, over the half's points. -/
def r0_acc1 (c : Dev nD) : Vec Ideal S2x1x64 .f32 := fun i => r0_sum1 V c (i 0) (i 2)
def r0_acc2 (c : Dev nD) : Vec Ideal S2x1x64 .f32 := fun i => r0_sum2 V c (i 0) (i 2)

/-- The block of an accumulator window at point `t` is row `t / 32` of its [2, 1, 64] array; the two accumulator windows have one and the same index map, stated at the first. -/
theorem r0_emb (t : Fin cfg0.N) (j : Fin 64) (h : t.val / 32 < 2) :
    ((cfg0.win 3).blk t).view.emb (ix3 (0 : Fin 1) (0 : Fin 1) j) = (ix3 (⟨t.val / 32, h⟩ : Fin 2) (0 : Fin 1) j : S2x1x64.Idx) := by
  obtain ⟨-, -, -, -, -, -, e6, e7, e8, -⟩ := r0_idx_facts t
  funext a
  apply Fin.ext
  match a with
  | ⟨0, _⟩ => show win0_3.index t (0 : Fin 3) * 1 + 1 * 0 = t.val / 32; rw [e6]; omega
  | ⟨1, _⟩ => show win0_3.index t (1 : Fin 3) * 1 + 1 * 0 = 0; rw [e7]
  | ⟨2, _⟩ => show win0_3.index t (2 : Fin 3) * 64 + 1 * j.val = j.val; rw [e8]; omega

/-- A row that agrees with row `t / 32` of an array `G`, cut to its block, is the read of that block of `G`. -/
theorem r0_flush (X : Vec Ideal S1x1x64 .f32) (G : Vec Ideal S2x1x64 .f32) (t : Fin cfg0.N)
    (hX : ∀ (j : Fin 64) (h : t.val / 32 < 2), X (ix3 (0 : Fin 1) (0 : Fin 1) j) = G (ix3 (⟨t.val / 32, h⟩ : Fin 2) (0 : Fin 1) j)) :
    (cfg0.win 3).cut (grid0.coords t) X = ((cfg0.win 3).blk t).view.read (Elt Ideal) G := by
  have hN : t.val < 64 := lt_of_lt_of_eq t.isLt (show cfg0.N = 64 from N_0)
  funext y
  obtain ⟨u, v, j, rfl⟩ : ∃ (u : Fin 1) (v : Fin 1) (j : Fin 64), y = ix3 u v j := ⟨y 0, y 1, y 2, eq_ix3 y⟩
  obtain rfl : u = 0 := Subsingleton.elim _ _
  obtain rfl : v = 0 := Subsingleton.elim _ _
  show X (win0_3.xinj (grid0.coords t) (ix3 (0 : Fin 1) (0 : Fin 1) j)) = G (((cfg0.win 3).blk t).view.emb (ix3 (0 : Fin 1) (0 : Fin 1) j))
  have hx : win0_3.xinj (grid0.coords t) (ix3 (0 : Fin 1) (0 : Fin 1) j) = (ix3 (0 : Fin 1) (0 : Fin 1) j) := funext fun a => Fin.ext rfl
  rw [hx, r0_emb t j (by omega)]
  exact hX j _

theorem r0_mem_blk (t : Fin cfg0.N) (i : S2x1x64.Idx) :
    i ∈ ((cfg0.win 3).blk t).view.set ↔ ∀ a : Fin 3, win0_3.index t a * S1x1x64.size a ≤ (i a).val ∧ (i a).val < win0_3.index t a * S1x1x64.size a + S1x1x64.size a := by
  show i ∈ ((View.whole main_v4_0).slice (win0_3.rect t)).set ↔ _
  rw [View.set_slice_whole, Rect.mem_set_unit]
  exact Iff.rfl

/-- The blocks at the last points of the two halves are the array's two rows, so they cover it. -/
theorem r0_cover (i : S2x1x64.Idx) : ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 64 := (i 2).isLt
  obtain ⟨t, ht⟩ : ∃ t : Fin cfg0.N, t.val = (i 0).val * 32 + 31 :=
    ⟨⟨(i 0).val * 32 + 31, by rw [show cfg0.N = 64 from N_0]; omega⟩, rfl⟩
  obtain ⟨-, -, -, -, -, -, e6, e7, e8, -⟩ := r0_idx_facts t
  refine ⟨t, (flush0_3 t).mpr (by omega), ?_⟩
  rw [r0_mem_blk]
  intro a
  match a with
  | ⟨0, _⟩ => show win0_3.index t (0 : Fin 3) * 1 ≤ (i 0).val ∧ (i 0).val < win0_3.index t (0 : Fin 3) * 1 + 1; rw [e6]; omega
  | ⟨1, _⟩ => show win0_3.index t (1 : Fin 3) * 1 ≤ (i 1).val ∧ (i 1).val < win0_3.index t (1 : Fin 3) * 1 + 1; rw [e7]; omega
  | ⟨2, _⟩ => show win0_3.index t (2 : Fin 3) * 64 ≤ (i 2).val ∧ (i 2).val < win0_3.index t (2 : Fin 3) * 64 + 64; rw [e8]; omega

/-- The two accumulator arrays after the pass: the block written at a half's last point is that block of the array of sums, and these blocks cover it. -/
theorem r0_final3 (c : Dev nD) : (dat0 (F := Ideal) V c).arrAt 3 cfg0.N = r0_acc1 V c :=
  (dat0 (F := Ideal) V c).arrAt_eq_of_cover 3 (r0_acc1 V c) (fun t hf => by
    have h31 : t.val % 32 = 31 := (flush0_3 t).mp hf
    show (cfg0.win 3).cut (grid0.coords t) ((dat0 (F := Ideal) V c).after 3 t) = ((cfg0.win 3).blk t).view.read (Elt Ideal) (r0_acc1 V c)
    rw [after0_3]
    refine r0_flush _ _ t fun j h => ?_
    rw [(r0_outs_eq V c j t.val t rfl).1, h31]
    show _ = r0_sum1 V c ⟨t.val / 32, _⟩ j
    rw [r0_sum1_eq]) r0_cover
theorem r0_final4 (c : Dev nD) : (dat0 (F := Ideal) V c).arrAt 4 cfg0.N = r0_acc2 V c :=
  (dat0 (F := Ideal) V c).arrAt_eq_of_cover 4 (r0_acc2 V c) (fun t hf => by
    have h31 : t.val % 32 = 31 := (flush0_4 t).mp hf
    show (cfg0.win 3).cut (grid0.coords t) ((dat0 (F := Ideal) V c).after 4 t) = ((cfg0.win 3).blk t).view.read (Elt Ideal) (r0_acc2 V c)
    rw [after0_4]
    refine r0_flush _ _ t fun j h => ?_
    rw [(r0_outs_eq V c j t.val t rfl).2, h31]
    show _ = r0_sum2 V c ⟨t.val / 32, _⟩ j
    rw [r0_sum2_eq]) r0_cover

theorem arr0_3 (c : Dev nD) (k : Fin 2) (j : Fin 64) :
    (dat0 (F := Ideal) V c).arrAt 3 cfg0.N (ix3 k (0 : Fin 1) j)
      = ∑ r : Fin 524288, Cert.Spec.lin (r0_X V c) (r0_W V c) (r0_B V c) (rowOf k r) j :=
  (congrFun (r0_final3 V c) (ix3 k (0 : Fin 1) j)).trans rfl

theorem arr0_4 (c : Dev nD) (k : Fin 2) (j : Fin 64) :
    (dat0 (F := Ideal) V c).arrAt 4 cfg0.N (ix3 k (0 : Fin 1) j)
      = ∑ r : Fin 524288, Cert.Spec.lin (r0_X V c) (r0_W V c) (r0_B V c) (rowOf k r) j * Cert.Spec.lin (r0_X V c) (r0_W V c) (r0_B V c) (rowOf k r) j :=
  (congrFun (r0_final4 V c) (ix3 k (0 : Fin 1) j)).trans rfl

end Cert.KernelIdeal.Val

end
-- ==== Proof.KI.Val1Pieces.lean ====
import proofs.«423175_j2508260901476_3_alg».proof.Proof.KI.R1Body
import Idealize.ShloMosaic.Lib.Pipeline.Value
import Idealize.ShloMosaic.Lib.Tactic

set_option maxRecDepth 16384

noncomputable section

namespace Cert.KernelIdeal.Val

open Idealize.ShloMosaic Idealize.ShloMosaic.TcCoe Idealize.SL.Sem
open Cert.KernelIdeal Cert.KernelIdeal.Gen

variable {F : FTy → Type} [FloatOps F]

theorem r1_hz2 : (![0, 0] : Fin 2 → Nat) = fun _ => 0 := funext fun a => by fin_cases a <;> rfl
theorem r1_hz3 : (![0, 0, 0] : Fin 3 → Nat) = fun _ => 0 := funext fun a => by fin_cases a <;> rfl

/-- Adding case: each row ends as the row before plus the block's sum for it. -/
theorem r1_piece_B (c : Dev nD) (i : grid1.Coords) (b : Bufs1) (hc0 : ¬cond1_0 i) (x : Ins1 F) (xo : Acc1 F) :
    out1_B c i b hc0 x xo =
      (k1_pay25 (k1_pay18 (k1_pay10 x.x3) x.x11) xo.1,
       k1_pay1 (k1_pay19 (k1_pay10 x.x3) (k1_pay13 x.x0 x.x9) (k1_pay14 x.x10) x.x11) xo.2.1,
       k1_pay2 (k1_pay22 (k1_pay20 (F := F) (k1_pay11 x.x4))) xo.2.2.1,
       k1_pay3 (k1_pay23 x.x1 x.x2 (k1_pay12 x.x0 x.x5 x.x6 x.x7 x.x8) (k1_pay20 (F := F) (k1_pay11 x.x4))) xo.2.2.2.1,
       k1_pay4 (k1_pay24 x.x1 x.x2 (k1_pay12 x.x0 x.x5 x.x6 x.x7 x.x8) (k1_pay20 (F := F) (k1_pay11 x.x4))) xo.2.2.2.2) := by
  unfold out1_B
  refine Prod.ext ?_ (Prod.ext ?_ (Prod.ext ?_ (Prod.ext ?_ ?_))) <;> dsimp only
  on_goal 1 => refine (View.read_writes_eq_canon _ _ _ (cover1_B c i b hc0 x xo).1).trans ?_
  on_goal 2 => refine (View.read_writes_eq_canon _ _ _ (cover1_B c i b hc0 x xo).2.1).trans ?_
  on_goal 3 => refine (View.read_writes_eq_canon _ _ _ (cover1_B c i b hc0 x xo).2.2.1).trans ?_
  on_goal 4 => refine (View.read_writes_eq_canon _ _ _ (cover1_B c i b hc0 x xo).2.2.2.1).trans ?_
  on_goal 5 => refine (View.read_writes_eq_canon _ _ _ (cover1_B c i b hc0 x xo).2.2.2.2).trans ?_
  all_goals
    unfold kernelRun1_B
    dsimp only
    sl_unfold_words
    simp only [View.canon_unit_zero (S := S1x1x1) r1_hz3, View.readAt_eq_ld, b.h0.read_unread, b.h1.read_unread, b.h2.read_unread, b.h3.read_unread, b.h4.read_unread, b.h5.read_unread, b.h6.read_unread, b.h7.read_unread, b.h8.read_unread, b.h9.read_unread, b.h10.read_unread, b.h11.read_unread, b.h12.read_unread, b.h13.read_unread, b.h14.read_unread, b.h15.read_unread, b.h16.read_unread,
    View.ld_unit_zero (S := S2048x64) r1_hz2, View.ld_unit_zero (S := S2048x3) r1_hz2, View.ld_unit_zero (S := S2048x1) r1_hz2, View.ld_unit_zero (S := S64x64) r1_hz2, View.ld_unit_zero (S := S1x64) r1_hz2, View.ld_unit_zero (S := S64x3) r1_hz2, View.ld_unit_zero (S := S1x3) r1_hz2, View.ld_unit_zero (S := S64x20) r1_hz2, View.ld_unit_zero (S := S1x20) r1_hz2,
    View.ld_unit_zero (S := S1x1x1) r1_hz3]

/-- Clearing case: each row ends as zero plus the block's sum for it. -/
theorem r1_piece_A (c : Dev nD) (i : grid1.Coords) (b : Bufs1) (hc0 : cond1_0 i) (x : Ins1 F) :
    out1_A c i b hc0 x =
      (k1_pay25 (k1_pay18 (k1_pay10 x.x3) x.x11) (k1_pay5 (F := F)),
       k1_pay1 (k1_pay19 (k1_pay10 x.x3) (k1_pay13 x.x0 x.x9) (k1_pay14 x.x10) x.x11) (k1_pay6 (F := F)),
       k1_pay2 (k1_pay22 (k1_pay20 (F := F) (k1_pay11 x.x4))) (k1_pay7 (F := F)),
       k1_pay3 (k1_pay23 x.x1 x.x2 (k1_pay12 x.x0 x.x5 x.x6 x.x7 x.x8) (k1_pay20 (F := F) (k1_pay11 x.x4))) (k1_pay8 (F := F)),
       k1_pay4 (k1_pay24 x.x1 x.x2 (k1_pay12 x.x0 x.x5 x.x6 x.x7 x.x8) (k1_pay20 (F := F) (k1_pay11 x.x4))) (k1_pay9 (F := F))) := by
  unfold out1_A
  refine Prod.ext ?_ (Prod.ext ?_ (Prod.ext ?_ (Prod.ext ?_ ?_))) <;> dsimp only
  on_goal 1 => refine (View.read_writes_eq_canon _ _ _ (cover1_A c i b hc0 x).1).trans ?_
  on_goal 2 => refine (View.read_writes_eq_canon _ _ _ (cover1_A c i b hc0 x).2.1).trans ?_
  on_goal 3 => refine (View.read_writes_eq_canon _ _ _ (cover1_A c i b hc0 x).2.2.1).trans ?_
  on_goal 4 => refine (View.read_writes_eq_canon _ _ _ (cover1_A c i b hc0 x).2.2.2.1).trans ?_
  on_goal 5 => refine (View.read_writes_eq_canon _ _ _ (cover1_A c i b hc0 x).2.2.2.2).trans ?_
  all_goals
    unfold kernelRun1_A
    dsimp only
    sl_unfold_words
    simp only [View.canon_cons_unit_zero (S := S1x1x1) r1_hz3, View.readCov_unit_zero (S := S1x1x1) _ r1_hz3, View.readAt_eq_ld, b.h0.read_unread, b.h1.read_unread, b.h2.read_unread, b.h3.read_unread, b.h4.read_unread, b.h5.read_unread, b.h6.read_unread, b.h7.read_unread, b.h8.read_unread, b.h9.read_unread, b.h10.read_unread, b.h11.read_unread, b.h12.read_unread, b.h13.read_unread, b.h14.read_unread, b.h15.read_unread, b.h16.read_unread,
    View.ld_unit_zero (S := S2048x64) r1_hz2, View.ld_unit_zero (S := S2048x3) r1_hz2, View.ld_unit_zero (S := S2048x1) r1_hz2, View.ld_unit_zero (S := S64x64) r1_hz2, View.ld_unit_zero (S := S1x64) r1_hz2, View.ld_unit_zero (S := S64x3) r1_hz2, View.ld_unit_zero (S := S1x3) r1_hz2, View.ld_unit_zero (S := S64x20) r1_hz2, View.ld_unit_zero (S := S1x20) r1_hz2,
    View.ld_unit_zero (S := S1x1x1) r1_hz3]

end Cert.KernelIdeal.Val

end
-- ==== Proof.KI.Val1Pay.lean ====
import proofs.«423175_j2508260901476_3_alg».proof.Proof.Gen.KernelIdeal.Skeleton
import proofs.«423175_j2508260901476_3_alg».proof.Proof.Spec
import proofs.«423175_j2508260901476_3_alg».proof.Proof.KI.Val1Lay

noncomputable section

namespace Cert.KernelIdeal.Val

open Idealize.ShloMosaic Idealize.ShloMosaic.ValueIdx Cert.KernelIdeal Cert.KernelIdeal.Gen

theorem r1_cmpi_apply {s : Shape} {w : ℕ} (p : CmpIPredicate) (x y : IVec s w) (i : s.Idx) :
    cmpi p x y i = IntOp.cmpi p (x i) (y i) := rfl

theorem r1_exp_apply {s : Shape} (x : FVec Ideal s .f32) (i : s.Idx) : exp x i = Ideal.exp (x i) := rfl
theorem r1_log_apply {s : Shape} (x : FVec Ideal s .f32) (i : s.Idx) : log x i = Ideal.log (x i) := rfl
theorem r1_sqrt_apply {s : Shape} (x : FVec Ideal s .f32) (i : s.Idx) : sqrt x i = Ideal.sqrt (x i) := rfl
theorem r1_absf_apply {s : Shape} (x : FVec Ideal s .f32) (i : s.Idx) : absf x i = max (x i) (-(x i)) := rfl

local macro "pointwise" : tactic => `(tactic| simp only [mulf_apply, addf_apply, subf_apply, divf_apply, maximumf_apply, r1_absf_apply, r1_exp_apply, r1_log_apply, r1_sqrt_apply,
    broadcast_apply, Ideal.ofBits_def, Ideal.ofBits_zero_f32, shapeCast_a_a1_apply, shapeCast_a_1a_apply, shapeCast_self,
    broadcastTo_1b_ab_apply, broadcastTo_a1_ab_apply, sitofp_apply, extui_apply, r1_cmpi_apply, valid_word])
local macro "reduction" : tactic =>
  `(tactic| first | rw [colSum_apply] | rw [rowSum_apply] | rw [rowMax_apply])
theorem k1_pay12_apply (v3 : FVec Ideal S2048x64 .f32) (v10 : FVec Ideal S64x64 .f32) (v13 : FVec Ideal S1x64 .f32)
    (v19 : FVec Ideal S64x3 .f32) (v21 : FVec Ideal S1x3 .f32) (r : Fin 2048) (d : Fin 3) :
    k1_pay12 v3 v10 v13 v19 v21 (ix2 r d)
      = (∑ k : Fin 64, max ((∑ i : Fin 64, v3 (ix2 r i) * v10 (ix2 i k)) + v13 (ix2 (0 : Fin 1) k)) 0 * v19 (ix2 k d))
        + v21 (ix2 (0 : Fin 1) d) := by
  unfold k1_pay12
  simp only [addf_apply, maximumf_apply, broadcast_apply, shapeCast_self, broadcastTo_1b_ab_apply, Ideal.ofBits_def, Ideal.ofBits_zero_f32,
    matmul_rows_cols_apply dot_S2048x64_S64x64_S2048x64_1_0_0_1_n_n rfl rfl (fun _ _ => rfl) (fun _ _ => rfl) (fun _ _ => rfl) (fun _ _ => rfl),
    matmul_rows_cols_apply dot_S2048x64_S64x3_S2048x3_1_0_0_1_n_n rfl rfl (fun _ _ => rfl) (fun _ _ => rfl) (fun _ _ => rfl) (fun _ _ => rfl)]

theorem k1_pay13_apply (v3 : FVec Ideal S2048x64 .f32) (v25 : FVec Ideal S64x20 .f32) (r : Fin 2048) (q : Fin 20) :
    k1_pay13 v3 v25 (ix2 r q) = ∑ k : Fin 64, v3 (ix2 r k) * v25 (ix2 k q) := by
  unfold k1_pay13
  simp only [matmul_rows_cols_apply dot_S2048x64_S64x20_S2048x20_1_0_0_1_n_n rfl rfl (fun _ _ => rfl) (fun _ _ => rfl) (fun _ _ => rfl) (fun _ _ => rfl)]

theorem k1_pay14_eq (v27 : FVec Ideal S1x20 .f32) : k1_pay14 v27 = v27 := by
  unfold k1_pay14
  simp only [shapeCast_self]

theorem k1_pay10_apply (v6 : IVec S2048x1 32) (r : Fin 2048) : k1_pay10 (F := Ideal) v6 (ix1 r) = v6 (ix2 r (0 : Fin 1)) := by
  unfold k1_pay10
  simp only [shapeCast_a1_a_apply]

theorem r1_iota_cols_apply (h : S2048x20.Iotas .tc 32 [1]) (r : Fin 2048) (q : Fin 20) :
    iota .tc S2048x20 32 [1] h (ix2 r q) = BitVec.ofNat 32 q.val :=
  iota_single_apply .tc S2048x20 32 1 h (ix2 r q)

theorem k1_pay16_apply (v7 : IVec S2048 32) (r : Fin 2048) (q : Fin 20) :
    k1_pay16 (F := Ideal) v7 (ix2 r q)
      = if BitVec.ofNat 32 q.val = (if v7 (ix1 r) ≠ 4294967295#32 then v7 (ix1 r) else 0#32) then (1 : EReal) else 0 := by
  unfold k1_pay16 k1_pay15
  simp only [sitofp_apply, extui_apply, r1_cmpi_apply, broadcastTo_a1_ab_apply, shapeCast_a_a1_apply,
    select_apply, broadcast_apply]
  rw [r1_iota_cols_apply]
  exact onehot_word _ _

theorem k1_pay17_apply (v7 : IVec S2048 32) (v57 : FVec Ideal S1x20 .f32) (r : Fin 2048) (u : Fin 1) :
    k1_pay17 (F := Ideal) v7 v57 (ix2 r u)
      = (∑ q : Fin 20, (if BitVec.ofNat 32 q.val = (if v7 (ix1 r) ≠ 4294967295#32 then v7 (ix1 r) else 0#32) then (1 : EReal) else 0)
            * v57 (ix2 (0 : Fin 1) q))
        * (if v7 (ix1 r) ≠ 4294967295#32 then (1 : EReal) else 0) := by
  unfold k1_pay17 k1_pay15
  pointwise
  reduction
  simp only [mulf_apply, k1_pay16_apply, broadcastTo_1b_ab_apply, shapeCast_self]

theorem k1_pay11_apply (v8 : IVec S2048x1 32) (r : Fin 2048) : k1_pay11 (F := Ideal) v8 (ix1 r) = v8 (ix2 r (0 : Fin 1)) := by
  unfold k1_pay11
  simp only [shapeCast_a1_a_apply]

theorem k1_pay20_apply (v9 : IVec S2048 32) (r : Fin 2048) (u : Fin 1) :
    k1_pay20 (F := Ideal) v9 (ix2 r u) = if v9 (ix1 r) ≠ 4294967295#32 then (1 : EReal) else 0 := by
  unfold k1_pay20
  simp only [shapeCast_a_a1_apply, sitofp_apply, extui_apply, r1_cmpi_apply, broadcast_apply, valid_word]

theorem k1_pay21_apply (v4 v5 : FVec Ideal S2048x3 .f32) (r : Fin 2048) (d : Fin 3) :
    k1_pay21 v4 v5 (ix2 r d) = v5 (ix2 r d) - v4 (ix2 r d) := by
  unfold k1_pay21
  simp only [subf_apply]

theorem k1_pay5_apply (a b c : Fin 1) : k1_pay5 (F := Ideal) (ix3 a b c) = 0 := by
  unfold k1_pay5
  simp only [shapeCast_ab_1ab_apply, broadcast_apply, Ideal.ofBits_def, Ideal.ofBits_zero_f32]
theorem k1_pay6_apply (a b c : Fin 1) : k1_pay6 (F := Ideal) (ix3 a b c) = 0 := k1_pay5_apply a b c
theorem k1_pay7_apply (a b c : Fin 1) : k1_pay7 (F := Ideal) (ix3 a b c) = 0 := k1_pay5_apply a b c
theorem k1_pay8_apply (a b c : Fin 1) : k1_pay8 (F := Ideal) (ix3 a b c) = 0 := k1_pay5_apply a b c
theorem k1_pay9_apply (a b c : Fin 1) : k1_pay9 (F := Ideal) (ix3 a b c) = 0 := k1_pay5_apply a b c

theorem k1_pay25_apply (v68 : FVec Ideal S1x1 .f32) (v111 : FVec Ideal S1x1x1 .f32) (a b c : Fin 1) :
    k1_pay25 v68 v111 (ix3 a b c) = v111 (ix3 (0 : Fin 1) b c) + v68 (ix2 b c) := by
  unfold k1_pay25
  simp only [shapeCast_ab_1ab_apply, addf_apply, shapeCast_1ab_ab_apply]
theorem k1_pay1_apply (v71 : FVec Ideal S1x1 .f32) (v117 : FVec Ideal S1x1x1 .f32) (a b c : Fin 1) :
    k1_pay1 v71 v117 (ix3 a b c) = v117 (ix3 (0 : Fin 1) b c) + v71 (ix2 b c) :=
  k1_pay25_apply v71 v117 a b c
theorem k1_pay2_apply (v83 : FVec Ideal S1x1 .f32) (v123 : FVec Ideal S1x1x1 .f32) (a b c : Fin 1) :
    k1_pay2 v83 v123 (ix3 a b c) = v123 (ix3 (0 : Fin 1) b c) + v83 (ix2 b c) :=
  k1_pay25_apply v83 v123 a b c
theorem k1_pay3_apply (v86 : FVec Ideal S1x1 .f32) (v129 : FVec Ideal S1x1x1 .f32) (a b c : Fin 1) :
    k1_pay3 v86 v129 (ix3 a b c) = v129 (ix3 (0 : Fin 1) b c) + v86 (ix2 b c) :=
  k1_pay25_apply v86 v129 a b c
theorem k1_pay4_apply (v110 : FVec Ideal S1x1 .f32) (v135 : FVec Ideal S1x1x1 .f32) (a b c : Fin 1) :
    k1_pay4 v110 v135 (ix3 a b c) = v135 (ix3 (0 : Fin 1) b c) + v110 (ix2 b c) :=
  k1_pay25_apply v110 v135 a b c

section Spec
variable (a : Cert.Spec.Args) (ρ : Fin 2048 → Fin 1048576)

/-- With the block's rows named by ρ, each of the five reductions is the sum over r of the specification's term at ρ r. -/
theorem k1_pay18_spec (v6 : IVec S2048x1 32) (v57 : FVec Ideal S1x20 .f32)
    (hseg : ∀ r, v6 (ix2 r (0 : Fin 1)) = a.seg (ρ r)) (hcw : ∀ q, v57 (ix2 (0 : Fin 1) q) = a.cw q) :
    k1_pay18 (F := Ideal) (k1_pay10 (F := Ideal) v6) v57 (ix2 (0 : Fin 1) (0 : Fin 1)) = ∑ r : Fin 2048, Cert.Spec.wgtK a (ρ r) := by
  unfold k1_pay18
  pointwise
  reduction
  refine Finset.sum_congr rfl fun r _ => ?_
  simp only [k1_pay17_apply, k1_pay10_apply, hseg, hcw]
  rfl

theorem k1_pay19_spec (v3 : FVec Ideal S2048x64 .f32) (v6 : IVec S2048x1 32) (v25 : FVec Ideal S64x20 .f32)
    (v27 v57 : FVec Ideal S1x20 .f32)
    (hfeat : ∀ r k, v3 (ix2 r k) = a.feat (ρ r) k) (hseg : ∀ r, v6 (ix2 r (0 : Fin 1)) = a.seg (ρ r))
    (hWseg : ∀ k q, v25 (ix2 k q) = a.Wseg k q) (hbseg : ∀ q, v27 (ix2 (0 : Fin 1) q) = a.bseg q)
    (hcw : ∀ q, v57 (ix2 (0 : Fin 1) q) = a.cw q) :
    k1_pay19 (F := Ideal) (k1_pay10 (F := Ideal) v6) (k1_pay13 v3 v25) (k1_pay14 v27) v57 (ix2 (0 : Fin 1) (0 : Fin 1))
      = ∑ r : Fin 2048, Cert.Spec.wgtK a (ρ r) * Cert.Spec.nllK a (ρ r) := by
  unfold k1_pay19
  pointwise
  reduction
  refine Finset.sum_congr rfl fun r _ => ?_
  pointwise
  reduction
  pointwise
  reduction
  reduction
  pointwise
  reduction
  simp only [addf_apply, broadcastTo_1b_ab_apply, k1_pay16_apply, k1_pay17_apply, k1_pay10_apply, k1_pay13_apply, k1_pay14_eq,
    hfeat, hseg, hWseg, hbseg, hcw]
  rfl

theorem k1_pay22_spec (v8 : IVec S2048x1 32) (hinst : ∀ r, v8 (ix2 r (0 : Fin 1)) = a.inst (ρ r)) :
    k1_pay22 (k1_pay20 (F := Ideal) (k1_pay11 (F := Ideal) v8)) (ix2 (0 : Fin 1) (0 : Fin 1)) = ∑ r : Fin 2048, Cert.Spec.maskF a (ρ r) := by
  unfold k1_pay22
  pointwise
  reduction
  refine Finset.sum_congr rfl fun r _ => ?_
  simp only [k1_pay20_apply, k1_pay11_apply, hinst]
  rfl

variable (h : Fin 1048576 → Fin 64 → EReal) (v3 : FVec Ideal S2048x64 .f32) (v4 v5 : FVec Ideal S2048x3 .f32) (v8 : IVec S2048x1 32)
    (v10 : FVec Ideal S64x64 .f32) (v13 : FVec Ideal S1x64 .f32) (v19 : FVec Ideal S64x3 .f32) (v21 : FVec Ideal S1x3 .f32)
    (hh : ∀ r k, max ((∑ i : Fin 64, v3 (ix2 r i) * v10 (ix2 i k)) + v13 (ix2 (0 : Fin 1) k)) 0 = h (ρ r) k)
    (hW2 : ∀ k d, v19 (ix2 k d) = a.W2 k d) (hb2 : ∀ d, v21 (ix2 (0 : Fin 1) d) = a.b2 d)
    (hcoord : ∀ r d, v4 (ix2 r d) = a.coord (ρ r) d) (hcent : ∀ r d, v5 (ix2 r d) = a.cent (ρ r) d)
    (hinst : ∀ r, v8 (ix2 r (0 : Fin 1)) = a.inst (ρ r))
include hh hW2 hb2 hcoord hcent hinst

theorem k1_pay23_spec :
    k1_pay23 v4 v5 (k1_pay12 v3 v10 v13 v19 v21) (k1_pay20 (F := Ideal) (k1_pay11 (F := Ideal) v8)) (ix2 (0 : Fin 1) (0 : Fin 1))
      = ∑ r : Fin 2048, Cert.Spec.biasDist a h (ρ r) * Cert.Spec.maskF a (ρ r) := by
  unfold k1_pay23
  pointwise
  reduction
  refine Finset.sum_congr rfl fun r _ => ?_
  pointwise
  reduction
  simp only [r1_absf_apply, subf_apply, k1_pay21_apply, k1_pay12_apply, k1_pay20_apply, k1_pay11_apply, hh, hW2, hb2, hcoord, hcent, hinst]
  rfl

theorem k1_pay24_spec :
    k1_pay24 v4 v5 (k1_pay12 v3 v10 v13 v19 v21) (k1_pay20 (F := Ideal) (k1_pay11 (F := Ideal) v8)) (ix2 (0 : Fin 1) (0 : Fin 1))
      = ∑ r : Fin 2048, (0 - Cert.Spec.cosSum a h (ρ r)) * Cert.Spec.maskF a (ρ r) := by
  unfold k1_pay24
  pointwise
  reduction
  refine Finset.sum_congr rfl fun r _ => ?_
  pointwise
  reduction
  pointwise
  reduction
  reduction
  simp only [mulf_apply, subf_apply, k1_pay21_apply, k1_pay12_apply, k1_pay20_apply, k1_pay11_apply, hh, hW2, hb2, hcoord, hcent, hinst]
  rfl

end Spec

end Cert.KernelIdeal.Val

end
-- ==== Proof.KI.Val1Blocks.lean ====
import proofs.«423175_j2508260901476_3_alg».proof.Proof.KI.R1Runs
import proofs.«423175_j2508260901476_3_alg».proof.Proof.KI.ArgsOf
import proofs.«423175_j2508260901476_3_alg».proof.Proof.Spec
import Idealize.ShloMosaic.Lib.Pipeline.Value
import Idealize.ShloMosaic.Lib.ValueIdx

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen

def r1_row (p : ℕ) (r : Fin 2048) : Fin 1048576 := ⟨(p * 2048 + r.val) % 1048576, Nat.mod_lt _ (by norm_num)⟩

theorem r1_row_val (p : ℕ) (r : Fin 2048) (hp : p < 512) : (r1_row p r).val = p * 2048 + r.val := by
  have := r.isLt
  show (p * 2048 + r.val) % 1048576 = _
  exact Nat.mod_eq_of_lt (by omega)

def r1_bs (f : Fin 1048576 → EReal) (p : ℕ) : EReal := ∑ r : Fin 2048, f (r1_row p r)

/-- Row n = 2048 s + i of a half is row i of the half's block s: the half's sum regroups by blocks. -/
theorem r1_half_eq (f : Fin 1048576 → EReal) (k : Fin 2) :
    ∑ r : Fin 524288, f (rowOf k r) = ∑ s ∈ Finset.range 256, r1_bs f (k.val * 256 + s) := by
  have hk := k.isLt
  refine ((finProdFinEquiv (m := 256) (n := 2048)).sum_comp fun r => f (rowOf k r)).symm.trans ?_
  rw [Fintype.sum_prod_type, ← Fin.sum_univ_eq_sum_range (fun s => r1_bs f (k.val * 256 + s)) 256]
  refine Finset.sum_congr rfl fun s _ => Finset.sum_congr rfl fun i _ => congrArg f (Fin.ext ?_)
  have hs := s.isLt
  have hi := i.isLt
  show k.val * 524288 + (i.val + 2048 * s.val) = ((k.val * 256 + s.val) * 2048 + i.val) % 1048576
  omega

theorem r1_accum (o : (n : ℕ) → n < 512 → EReal) (g : ℕ → EReal)
    (hA : ∀ n (h : n < 512), n % 256 = 0 → o n h = g n)
    (hB : ∀ n (h : n < 512), ¬n % 256 = 0 → o n h = o (n - 1) (Nat.lt_of_le_of_lt (Nat.sub_le _ _) h) + g n) :
    ∀ n (h : n < 512), o n h = ∑ s ∈ Finset.range (n % 256 + 1), g (n / 256 * 256 + s)
  | 0, h => by
    rw [hA 0 h rfl]
    simp
  | n + 1, h => by
    by_cases h0 : (n + 1) % 256 = 0
    · have e2 : (n + 1) / 256 * 256 + 0 = n + 1 := by omega
      rw [hA (n + 1) h h0, h0, Nat.zero_add, Finset.sum_range_one, e2]
    · have ih := r1_accum o g hA hB n (by omega)
      have e1 : (n + 1) % 256 = n % 256 + 1 := by omega
      have e2 : (n + 1) / 256 = n / 256 := by omega
      have e3 : n / 256 * 256 + (n % 256 + 1) = n + 1 := by omega
      rw [hB (n + 1) h h0]
      show o n _ + g (n + 1) = _
      rw [ih, e1, e2, Finset.sum_range_succ _ (n % 256 + 1), e3]

variable (V : (c : Dev nD) → (b : Ref sig .tc) → Buf (Elt Ideal) ((c : Thread nD τ).loc b))

abbrev r1_feat (c : Dev nD) : Vec Ideal S1048576x64 .f32 := V c main_arg0
abbrev r1_coord (c : Dev nD) : Vec Ideal S1048576x3 .f32 := V c main_arg1
abbrev r1_cent (c : Dev nD) : Vec Ideal S1048576x3 .f32 := V c main_arg4
abbrev r1_seg (c : Dev nD) : Vec Ideal S1048576x1 .i32 := V c main_v34
abbrev r1_inst (c : Dev nD) : Vec Ideal S1048576x1 .i32 := V c main_v35
abbrev r1_w1p (c : Dev nD) : Vec Ideal S64x64 .f32 := V c main_v29
abbrev r1_b1p (c : Dev nD) : Vec Ideal S1x64 .f32 := V c main_v33
abbrev r1_w2 (c : Dev nD) : Vec Ideal S64x3 .f32 := V c main_arg9
abbrev r1_b2 (c : Dev nD) : Vec Ideal S1x3 .f32 := V c main_v1
abbrev r1_wseg (c : Dev nD) : Vec Ideal S64x20 .f32 := V c main_arg11
abbrev r1_bseg (c : Dev nD) : Vec Ideal S1x20 .f32 := V c main_v2
abbrev r1_cw (c : Dev nD) : Vec Ideal S1x20 .f32 := V c main_v3
abbrev r1_w1 (c : Dev nD) : Vec Ideal S64x64 .f32 := V c main_arg5
abbrev r1_b1 (c : Dev nD) : Vec Ideal S64 .f32 := V c main_arg6
abbrev r1_gamma (c : Dev nD) : Vec Ideal S64 .f32 := V c main_arg7
abbrev r1_beta (c : Dev nD) : Vec Ideal S64 .f32 := V c main_arg8

def r1_aV (c : Dev nD) : Cert.Spec.Args where
  feat n k := r1_feat V c (ix2 n k)
  coord n d := r1_coord V c (ix2 n d)
  seg r := r1_seg V c (ix2 r (0 : Fin 1))
  inst r := r1_inst V c (ix2 r (0 : Fin 1))
  cent n d := r1_cent V c (ix2 n d)
  W1 k j := r1_w1 V c (ix2 k j)
  b1 j := r1_b1 V c (ix1 j)
  gamma j := r1_gamma V c (ix1 j)
  beta j := r1_beta V c (ix1 j)
  W2 k d := r1_w2 V c (ix2 k d)
  b2 d := r1_b2 V c (ix2 (0 : Fin 1) d)
  Wseg k q := r1_wseg V c (ix2 k q)
  bseg q := r1_bseg V c (ix2 (0 : Fin 1) q)
  cw q := r1_cw V c (ix2 (0 : Fin 1) q)

def r1_hV (c : Dev nD) : Fin 1048576 → Fin 64 → EReal := fun r j =>
  max (Cert.Spec.lin (r1_aV V c).feat (fun k j => r1_w1p V c (ix2 k j)) (fun j => r1_b1p V c (ix2 (0 : Fin 1) j)) r j) 0

abbrev r1_blk0 (c : Dev nD) (t : Fin cfg1.N) : Vec Ideal S2048x64 .f32 := iblk1 (F := Ideal) V c 0 t
abbrev r1_blk1 (c : Dev nD) (t : Fin cfg1.N) : Vec Ideal S2048x3 .f32 := iblk1 (F := Ideal) V c 1 t
abbrev r1_blk2 (c : Dev nD) (t : Fin cfg1.N) : Vec Ideal S2048x3 .f32 := iblk1 (F := Ideal) V c 2 t
abbrev r1_blk3 (c : Dev nD) (t : Fin cfg1.N) : Vec Ideal S2048x1 .i32 := iblk1 (F := Ideal) V c 3 t
abbrev r1_blk4 (c : Dev nD) (t : Fin cfg1.N) : Vec Ideal S2048x1 .i32 := iblk1 (F := Ideal) V c 4 t
abbrev r1_blk5 (c : Dev nD) (t : Fin cfg1.N) : Vec Ideal S64x64 .f32 := iblk1 (F := Ideal) V c 5 t
abbrev r1_blk6 (c : Dev nD) (t : Fin cfg1.N) : Vec Ideal S1x64 .f32 := iblk1 (F := Ideal) V c 6 t
abbrev r1_blk7 (c : Dev nD) (t : Fin cfg1.N) : Vec Ideal S64x3 .f32 := iblk1 (F := Ideal) V c 7 t
abbrev r1_blk8 (c : Dev nD) (t : Fin cfg1.N) : Vec Ideal S1x3 .f32 := iblk1 (F := Ideal) V c 8 t
abbrev r1_blk9 (c : Dev nD) (t : Fin cfg1.N) : Vec Ideal S64x20 .f32 := iblk1 (F := Ideal) V c 9 t
abbrev r1_blk10 (c : Dev nD) (t : Fin cfg1.N) : Vec Ideal S1x20 .f32 := iblk1 (F := Ideal) V c 10 t
abbrev r1_blk11 (c : Dev nD) (t : Fin cfg1.N) : Vec Ideal S1x20 .f32 := iblk1 (F := Ideal) V c 11 t

theorem r1_idx_rows : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)
theorem r1_idx_params : ∀ t : Fin cfg1.N, win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = 0 ∧ win1_11.index t (1 : Fin 2) = 0 :=
  (by decide +kernel : ∀ t : Fin grid1.N, _)
theorem r1_idx_accs : ∀ t : Fin cfg1.N,
    (win1_12.index t (0 : Fin 3) = t.val / 256 ∧ win1_12.index t (1 : Fin 3) = 0 ∧ win1_12.index t (2 : Fin 3) = 0)
    ∧ (win1_13.index t (0 : Fin 3) = t.val / 256 ∧ win1_13.index t (1 : Fin 3) = 0 ∧ win1_13.index t (2 : Fin 3) = 0)
    ∧ (win1_14.index t (0 : Fin 3) = t.val / 256 ∧ win1_14.index t (1 : Fin 3) = 0 ∧ win1_14.index t (2 : Fin 3) = 0)
    ∧ (win1_15.index t (0 : Fin 3) = t.val / 256 ∧ win1_15.index t (1 : Fin 3) = 0 ∧ win1_15.index t (2 : Fin 3) = 0)
    ∧ (win1_16.index t (0 : Fin 3) = t.val / 256 ∧ win1_16.index t (1 : Fin 3) = 0 ∧ win1_16.index t (2 : Fin 3) = 0) :=
  (by decide +kernel : ∀ t : Fin grid1.N, _)

/-- An index of a row-blocked array whose coordinates are (block t) * 2048 + r and k is (row r of block t, k). -/
theorem r1_rows_ix {n : ℕ} {i : (⟨2, ![1048576, n]⟩ : Shape).Idx} {t : Fin cfg1.N} {r : Fin 2048} {k : Fin n} {i0 i1 : ℕ}
    (e0 : i0 = t.val) (e1 : i1 = 0) (h0 : (i 0).val = i0 * 2048 + 1 * r.val) (h1 : (i 1).val = i1 * n + 1 * k.val) :
    i = ix2 (r1_row t.val r) k := by
  have hN : t.val < 512 := lt_of_lt_of_eq t.isLt (show cfg1.N = 512 from N_1)
  subst e0 e1
  exact (eq_ix2 i).trans (congrArg₂ ix2 (Fin.ext (by rw [h0, r1_row_val _ r hN]; omega)) (Fin.ext (by rw [h1]; omega)))

/-- An index of a one-block array keeps its coordinates. -/
theorem r1_param_ix {m n : ℕ} {i : (⟨2, ![m, n]⟩ : Shape).Idx} {j : Fin m} {k : Fin n} {i0 i1 : ℕ}
    (e0 : i0 = 0) (e1 : i1 = 0) (h0 : (i 0).val = i0 * m + 1 * j.val) (h1 : (i 1).val = i1 * n + 1 * k.val) : i = ix2 j k := by
  subst e0 e1
  exact (eq_ix2 i).trans (congrArg₂ ix2 (Fin.ext (by rw [h0]; omega)) (Fin.ext (by rw [h1]; omega)))

theorem r1_blk0_apply (c : Dev nD) (t : Fin cfg1.N) (r : Fin 2048) (k : Fin 64) :
    r1_blk0 V c t (ix2 r k) = (r1_aV V c).feat (r1_row t.val r) k := by
  obtain ⟨e0, e1, -⟩ := r1_idx_rows t
  exact congrArg (V c main_arg0) (r1_rows_ix e0 e1 rfl rfl)
theorem r1_blk1_apply (c : Dev nD) (t : Fin cfg1.N) (r : Fin 2048) (d : Fin 3) :
    r1_blk1 V c t (ix2 r d) = (r1_aV V c).coord (r1_row t.val r) d := by
  obtain ⟨-, -, e0, e1, -⟩ := r1_idx_rows t
  exact congrArg (V c main_arg1) (r1_rows_ix e0 e1 rfl rfl)
theorem r1_blk2_apply (c : Dev nD) (t : Fin cfg1.N) (r : Fin 2048) (d : Fin 3) :
    r1_blk2 V c t (ix2 r d) = (r1_aV V c).cent (r1_row t.val r) d := by
  obtain ⟨-, -, -, -, e0, e1, -⟩ := r1_idx_rows t
  exact congrArg (V c main_arg4) (r1_rows_ix e0 e1 rfl rfl)
theorem r1_blk3_apply (c : Dev nD) (t : Fin cfg1.N) (r : Fin 2048) :
    r1_blk3 V c t (ix2 r (0 : Fin 1)) = (r1_aV V c).seg (r1_row t.val r) := by
  obtain ⟨-, -, -, -, -, -, e0, e1, -⟩ := r1_idx_rows t
  exact congrArg (V c main_v34) (r1_rows_ix e0 e1 rfl rfl)
theorem r1_blk4_apply (c : Dev nD) (t : Fin cfg1.N) (r : Fin 2048) :
    r1_blk4 V c t (ix2 r (0 : Fin 1)) = (r1_aV V c).inst (r1_row t.val r) := by
  obtain ⟨-, -, -, -, -, -, -, -, e0, e1⟩ := r1_idx_rows t
  exact congrArg (V c main_v35) (r1_rows_ix e0 e1 rfl rfl)

theorem r1_blk5_apply (c : Dev nD) (t : Fin cfg1.N) (k : Fin 64) (j : Fin 64) : r1_blk5 V c t (ix2 k j) = r1_w1p V c (ix2 k j) := by
  obtain ⟨e0, e1, -⟩ := r1_idx_params t
  exact congrArg (V c main_v29) (r1_param_ix e0 e1 rfl rfl)
theorem r1_blk6_apply (c : Dev nD) (t : Fin cfg1.N) (j : Fin 64) : r1_blk6 V c t (ix2 (0 : Fin 1) j) = r1_b1p V c (ix2 (0 : Fin 1) j) := by
  obtain ⟨-, -, e0, e1, -⟩ := r1_idx_params t
  exact congrArg (V c main_v33) (r1_param_ix e0 e1 rfl rfl)
theorem r1_blk7_apply (c : Dev nD) (t : Fin cfg1.N) (k : Fin 64) (d : Fin 3) : r1_blk7 V c t (ix2 k d) = (r1_aV V c).W2 k d := by
  obtain ⟨-, -, -, -, e0, e1, -⟩ := r1_idx_params t
  exact congrArg (V c main_arg9) (r1_param_ix e0 e1 rfl rfl)
theorem r1_blk8_apply (c : Dev nD) (t : Fin cfg1.N) (d : Fin 3) : r1_blk8 V c t (ix2 (0 : Fin 1) d) = (r1_aV V c).b2 d := by
  obtain ⟨-, -, -, -, -, -, e0, e1, -⟩ := r1_idx_params t
  exact congrArg (V c main_v1) (r1_param_ix e0 e1 rfl rfl)
theorem r1_blk9_apply (c : Dev nD) (t : Fin cfg1.N) (k : Fin 64) (q : Fin 20) : r1_blk9 V c t (ix2 k q) = (r1_aV V c).Wseg k q := by
  obtain ⟨-, -, -, -, -, -, -, -, e0, e1, -⟩ := r1_idx_params t
  exact congrArg (V c main_arg11) (r1_param_ix e0 e1 rfl rfl)
theorem r1_blk10_apply (c : Dev nD) (t : Fin cfg1.N) (q : Fin 20) : r1_blk10 V c t (ix2 (0 : Fin 1) q) = (r1_aV V c).bseg q := by
  obtain ⟨-, -, -, -, -, -, -, -, -, -, e0, e1, -⟩ := r1_idx_params t
  exact congrArg (V c main_v2) (r1_param_ix e0 e1 rfl rfl)
theorem r1_blk11_apply (c : Dev nD) (t : Fin cfg1.N) (q : Fin 20) : r1_blk11 V c t (ix2 (0 : Fin 1) q) = (r1_aV V c).cw q := by
  obtain ⟨-, -, -, -, -, -, -, -, -, -, -, -, e0, e1⟩ := r1_idx_params t
  exact congrArg (V c main_v3) (r1_param_ix e0 e1 rfl rfl)

theorem r1_block_h (c : Dev nD) (t : Fin cfg1.N) (r : Fin 2048) (k : Fin 64) :
    max ((∑ i : Fin 64, r1_blk0 V c t (ix2 r i) * r1_blk5 V c t (ix2 i k)) + r1_blk6 V c t (ix2 (0 : Fin 1) k)) 0
      = r1_hV V c (r1_row t.val r) k := by
  show _ = max ((∑ i : Fin 64, (r1_aV V c).feat (r1_row t.val r) i * r1_w1p V c (ix2 i k)) + r1_b1p V c (ix2 (0 : Fin 1) k)) 0
  refine congrArg (max · 0) (congrArg₂ (· + ·) (Finset.sum_congr rfl fun i _ => ?_) (r1_blk6_apply V c t k))
  rw [r1_blk0_apply V c t r i, r1_blk5_apply V c t i k]

end Cert.KernelIdeal.Val

end
-- ==== Proof.KI.Val1.lean ====
import proofs.«423175_j2508260901476_3_alg».proof.Proof.KI.Val1Pieces
import proofs.«423175_j2508260901476_3_alg».proof.Proof.KI.Val1Pay
import proofs.«423175_j2508260901476_3_alg».proof.Proof.KI.Val1Blocks
import Idealize.ShloMosaic.Lib.Pipeline.Value

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The five row terms: the weight; the weight times the negative log-likelihood; the instance mask; the masked L1 distance; the masked cosine term. -/
def r1_f12 (c : Dev nD) : Fin 1048576 → EReal := fun r => Cert.Spec.wgtK (r1_aV V c) r
def r1_f13 (c : Dev nD) : Fin 1048576 → EReal := fun r => Cert.Spec.wgtK (r1_aV V c) r * Cert.Spec.nllK (r1_aV V c) r
def r1_f14 (c : Dev nD) : Fin 1048576 → EReal := fun r => Cert.Spec.maskF (r1_aV V c) r
def r1_f15 (c : Dev nD) : Fin 1048576 → EReal := fun r =>
  Cert.Spec.biasDist (r1_aV V c) (r1_hV V c) r * Cert.Spec.maskF (r1_aV V c) r
def r1_f16 (c : Dev nD) : Fin 1048576 → EReal := fun r =>
  (0 - Cert.Spec.cosSum (r1_aV V c) (r1_hV V c) r) * Cert.Spec.maskF (r1_aV V c) r

/-- A [2, 1, 1] array holding at (k, 0, 0) the sum of a row term over half `k` of the points. -/
def r1_acc (f : Fin 1048576 → EReal) : Vec Ideal S2x1x1 .f32 := fun i => ∑ r : Fin 524288, f (rowOf (i 0) r)

/-- A row that at each half's first point is that point's block sum and at any other point adds its block sum to the row before holds, after point `t`, the block sums of `t`'s half up to `t`. -/
theorem r1_outs (X : (n : ℕ) → n < cfg1.N → EReal) (f : Fin 1048576 → EReal)
    (hA : ∀ t : Fin cfg1.N, t.val % 256 = 0 → X t.val t.isLt = r1_bs f t.val)
    (hB : ∀ t : Fin cfg1.N, ¬t.val % 256 = 0 → X t.val t.isLt = X (t.val - 1) (Nat.lt_of_le_of_lt (Nat.sub_le _ _) t.isLt) + r1_bs f t.val)
    (t : Fin cfg1.N) : X t.val t.isLt = ∑ s ∈ Finset.range (t.val % 256 + 1), r1_bs f (t.val / 256 * 256 + s) := by
  have hN : cfg1.N = 512 := N_1
  exact r1_accum (fun n h => X n (lt_of_lt_of_eq h hN.symm)) (r1_bs f)
    (fun n h h0 => hA ⟨n, lt_of_lt_of_eq h hN.symm⟩ h0) (fun n h h0 => hB ⟨n, lt_of_lt_of_eq h hN.symm⟩ h0) t.val (lt_of_lt_of_eq t.isLt hN)

/-- The block of an accumulator window at point `t` is row `t / 256` of its [2, 1, 1] array; the five accumulator windows have one and the same index map, stated at the first. -/
theorem r1_emb (t : Fin cfg1.N) (h : t.val / 256 < 2) :
    ((cfg1.win 12).blk t).view.emb (ix3 (0 : Fin 1) (0 : Fin 1) (0 : Fin 1)) = (ix3 (⟨t.val / 256, h⟩ : Fin 2) (0 : Fin 1) (0 : Fin 1) : S2x1x1.Idx) := by
  obtain ⟨⟨e0, e1, e2⟩, -, -, -, -⟩ := r1_idx_accs t
  funext a
  apply Fin.ext
  match a with
  | ⟨0, _⟩ => show win1_12.index t (0 : Fin 3) * 1 + 1 * 0 = t.val / 256; rw [e0]; omega
  | ⟨1, _⟩ => show win1_12.index t (1 : Fin 3) * 1 + 1 * 0 = 0; rw [e1]
  | ⟨2, _⟩ => show win1_12.index t (2 : Fin 3) * 1 + 1 * 0 = 0; rw [e2]

/-- When the last point of a half has left in a row `X` the sum of `f`'s block sums over that half, `X` agrees entry by entry with row `t / 256` of `r1_acc f`. -/
theorem r1_at (X : Vec Ideal S1x1x1 .f32) (f : Fin 1048576 → EReal) (t : Fin cfg1.N) (h255 : t.val % 256 = 255)
    (hX : X (ix3 (0 : Fin 1) (0 : Fin 1) (0 : Fin 1)) = ∑ s ∈ Finset.range (t.val % 256 + 1), r1_bs f (t.val / 256 * 256 + s)) (y : S1x1x1.Idx) :
    X (win1_12.xinj (grid1.coords t) y) = r1_acc f (((cfg1.win 12).blk t).view.emb y) := by
  have hN : t.val < 512 := lt_of_lt_of_eq t.isLt (show cfg1.N = 512 from N_1)
  obtain ⟨u, v, w, rfl⟩ : ∃ (u : Fin 1) (v : Fin 1) (w : Fin 1), y = ix3 u v w := ⟨y 0, y 1, y 2, eq_ix3 y⟩
  obtain rfl : u = 0 := Subsingleton.elim _ _
  obtain rfl : v = 0 := Subsingleton.elim _ _
  obtain rfl : w = 0 := Subsingleton.elim _ _
  have hx : win1_12.xinj (grid1.coords t) (ix3 (0 : Fin 1) (0 : Fin 1) (0 : Fin 1)) = (ix3 (0 : Fin 1) (0 : Fin 1) (0 : Fin 1)) := funext fun a => Fin.ext rfl
  rw [hx, r1_emb t (by omega), hX, h255]
  show _ = ∑ r : Fin 524288, f (rowOf ⟨t.val / 256, _⟩ r)
  rw [r1_half_eq]

/-- A row that agrees entry by entry with a block of an array `G` is, cut to its block, the read of that block. -/
theorem r1_cut_eq_read (t : Fin cfg1.N) (X : Vec Ideal S1x1x1 .f32) (G : Vec Ideal S2x1x1 .f32)
    (h : ∀ y : S1x1x1.Idx, X (win1_12.xinj (grid1.coords t) y) = G (((cfg1.win 12).blk t).view.emb y)) :
    (cfg1.win 12).cut (grid1.coords t) X = ((cfg1.win 12).blk t).view.read (Elt Ideal) G :=
  funext fun y => h y

theorem r1_mem_blk (t : Fin cfg1.N) (i : S2x1x1.Idx) :
    i ∈ ((cfg1.win 12).blk t).view.set ↔ ∀ a : Fin 3, win1_12.index t a * S1x1x1.size a ≤ (i a).val ∧ (i a).val < win1_12.index t a * S1x1x1.size a + S1x1x1.size a := by
  show i ∈ ((View.whole main_v36_0).slice (win1_12.rect t)).set ↔ _
  rw [View.set_slice_whole, Rect.mem_set_unit]
  exact Iff.rfl

/-- The blocks at the last points of the two halves are the array's two rows, so they cover it. -/
theorem r1_cover (i : S2x1x1.Idx) : ∃ t : Fin cfg1.N, (cfg1.win 12).flush t = true ∧ i ∈ ((cfg1.win 12).blk t).view.set := by
  have h0 : (i 0).val < 2 := (i 0).isLt
  have h1 : (i 1).val < 1 := (i 1).isLt
  have h2 : (i 2).val < 1 := (i 2).isLt
  obtain ⟨t, ht⟩ : ∃ t : Fin cfg1.N, t.val = (i 0).val * 256 + 255 :=
    ⟨⟨(i 0).val * 256 + 255, by rw [show cfg1.N = 512 from N_1]; omega⟩, rfl⟩
  obtain ⟨⟨e0, e1, e2⟩, -, -, -, -⟩ := r1_idx_accs t
  refine ⟨t, (flush1_12 t).mpr (by omega), ?_⟩
  rw [r1_mem_blk]
  intro a
  match a with
  | ⟨0, _⟩ => show win1_12.index t (0 : Fin 3) * 1 ≤ (i 0).val ∧ (i 0).val < win1_12.index t (0 : Fin 3) * 1 + 1; rw [e0]; omega
  | ⟨1, _⟩ => show win1_12.index t (1 : Fin 3) * 1 ≤ (i 1).val ∧ (i 1).val < win1_12.index t (1 : Fin 3) * 1 + 1; rw [e1]; omega
  | ⟨2, _⟩ => show win1_12.index t (2 : Fin 3) * 1 ≤ (i 2).val ∧ (i 2).val < win1_12.index t (2 : Fin 3) * 1 + 1; rw [e2]; omega

theorem r1_sum12 (c : Dev nD) (t : Fin cfg1.N) :
    k1_pay18 (F := Ideal) (k1_pay10 (F := Ideal) (r1_blk3 V c t)) (r1_blk11 V c t) (ix2 (0 : Fin 1) (0 : Fin 1)) = r1_bs (r1_f12 V c) t.val :=
  (k1_pay18_spec (r1_aV V c) (r1_row t.val) (r1_blk3 V c t) (r1_blk11 V c t) (r1_blk3_apply V c t) (r1_blk11_apply V c t)).trans rfl

/-- After point `t` a window's row holds the block sums of `t`'s half up to `t`: a restart point leaves its own block's sum, any other adds its to the row before. -/
theorem r1_outs_12 (c : Dev nD) (t : Fin cfg1.N) :
    (outsAt1 (F := Ideal) V c t.val t.isLt).1 (ix3 (0 : Fin 1) (0 : Fin 1) (0 : Fin 1))
      = ∑ s ∈ Finset.range (t.val % 256 + 1), r1_bs (r1_f12 V c) (t.val / 256 * 256 + s) :=
  r1_outs (fun n h => (outsAt1 (F := Ideal) V c n h).1 (ix3 (0 : Fin 1) (0 : Fin 1) (0 : Fin 1))) (r1_f12 V c)
    (fun t h0 => by
      rw [outsAt1_A V c t h0, outA1, r1_piece_A]
      dsimp only
      refine (k1_pay25_apply _ _ (0 : Fin 1) (0 : Fin 1) (0 : Fin 1)).trans ?_
      rw [k1_pay5_apply, zero_add]
      exact r1_sum12 V c t)
    (fun t h0 => by
      rw [outsAt1_B V c t h0, outB1, r1_piece_B]
      dsimp only
      refine (k1_pay25_apply _ _ (0 : Fin 1) (0 : Fin 1) (0 : Fin 1)).trans ?_
      exact congrArg (_ + ·) (r1_sum12 V c t)) t

/-- The accumulator array after the pass: the block written at a half's last point is that block of `r1_acc`, and these blocks cover the array. -/
theorem r1_final12 (c : Dev nD) : (dat1 (F := Ideal) V c).arrAt 12 cfg1.N = r1_acc (r1_f12 V c) :=
  (dat1 (F := Ideal) V c).arrAt_eq_of_cover 12 (r1_acc (r1_f12 V c)) (fun t hf => by
    show (cfg1.win 12).cut (grid1.coords t) ((dat1 (F := Ideal) V c).after 12 t) = ((cfg1.win 12).blk t).view.read (Elt Ideal) (r1_acc (r1_f12 V c))
    rw [after1_12]
    exact r1_cut_eq_read t _ _ (r1_at _ _ t ((flush1_12 t).mp hf) (r1_outs_12 V c t))) r1_cover

theorem r1_sum13 (c : Dev nD) (t : Fin cfg1.N) :
    k1_pay19 (F := Ideal) (k1_pay10 (F := Ideal) (r1_blk3 V c t)) (k1_pay13 (r1_blk0 V c t) (r1_blk9 V c t)) (k1_pay14 (r1_blk10 V c t)) (r1_blk11 V c t) (ix2 (0 : Fin 1) (0 : Fin 1)) = r1_bs (r1_f13 V c) t.val :=
  (k1_pay19_spec (r1_aV V c) (r1_row t.val) (r1_blk0 V c t) (r1_blk3 V c t) (r1_blk9 V c t) (r1_blk10 V c t) (r1_blk11 V c t)
    (r1_blk0_apply V c t) (r1_blk3_apply V c t) (r1_blk9_apply V c t) (r1_blk10_apply V c t) (r1_blk11_apply V c t)).trans rfl

theorem r1_outs_13 (c : Dev nD) (t : Fin cfg1.N) :
    (outsAt1 (F := Ideal) V c t.val t.isLt).2.1 (ix3 (0 : Fin 1) (0 : Fin 1) (0 : Fin 1))
      = ∑ s ∈ Finset.range (t.val % 256 + 1), r1_bs (r1_f13 V c) (t.val / 256 * 256 + s) :=
  r1_outs (fun n h => (outsAt1 (F := Ideal) V c n h).2.1 (ix3 (0 : Fin 1) (0 : Fin 1) (0 : Fin 1))) (r1_f13 V c)
    (fun t h0 => by
      rw [outsAt1_A V c t h0, outA1, r1_piece_A]
      dsimp only
      refine (k1_pay1_apply _ _ (0 : Fin 1) (0 : Fin 1) (0 : Fin 1)).trans ?_
      rw [k1_pay6_apply, zero_add]
      exact r1_sum13 V c t)
    (fun t h0 => by
      rw [outsAt1_B V c t h0, outB1, r1_piece_B]
      dsimp only
      refine (k1_pay1_apply _ _ (0 : Fin 1) (0 : Fin 1) (0 : Fin 1)).trans ?_
      exact congrArg (_ + ·) (r1_sum13 V c t)) t

theorem r1_final13 (c : Dev nD) : (dat1 (F := Ideal) V c).arrAt 13 cfg1.N = r1_acc (r1_f13 V c) :=
  (dat1 (F := Ideal) V c).arrAt_eq_of_cover 13 (r1_acc (r1_f13 V c)) (fun t hf => by
    show (cfg1.win 12).cut (grid1.coords t) ((dat1 (F := Ideal) V c).after 13 t) = ((cfg1.win 12).blk t).view.read (Elt Ideal) (r1_acc (r1_f13 V c))
    rw [after1_13]
    exact r1_cut_eq_read t _ _ (r1_at _ _ t ((flush1_13 t).mp hf) (r1_outs_13 V c t))) r1_cover

theorem r1_sum14 (c : Dev nD) (t : Fin cfg1.N) :
    k1_pay22 (k1_pay20 (F := Ideal) (k1_pay11 (F := Ideal) (r1_blk4 V c t))) (ix2 (0 : Fin 1) (0 : Fin 1)) = r1_bs (r1_f14 V c) t.val :=
  (k1_pay22_spec (r1_aV V c) (r1_row t.val) (r1_blk4 V c t) (r1_blk4_apply V c t)).trans rfl

theorem r1_outs_14 (c : Dev nD) (t : Fin cfg1.N) :
    (outsAt1 (F := Ideal) V c t.val t.isLt).2.2.1 (ix3 (0 : Fin 1) (0 : Fin 1) (0 : Fin 1))
      = ∑ s ∈ Finset.range (t.val % 256 + 1), r1_bs (r1_f14 V c) (t.val / 256 * 256 + s) :=
  r1_outs (fun n h => (outsAt1 (F := Ideal) V c n h).2.2.1 (ix3 (0 : Fin 1) (0 : Fin 1) (0 : Fin 1))) (r1_f14 V c)
    (fun t h0 => by
      rw [outsAt1_A V c t h0, outA1, r1_piece_A]
      dsimp only
      refine (k1_pay2_apply _ _ (0 : Fin 1) (0 : Fin 1) (0 : Fin 1)).trans ?_
      rw [k1_pay7_apply, zero_add]
      exact r1_sum14 V c t)
    (fun t h0 => by
      rw [outsAt1_B V c t h0, outB1, r1_piece_B]
      dsimp only
      refine (k1_pay2_apply _ _ (0 : Fin 1) (0 : Fin 1) (0 : Fin 1)).trans ?_
      exact congrArg (_ + ·) (r1_sum14 V c t)) t

theorem r1_final14 (c : Dev nD) : (dat1 (F := Ideal) V c).arrAt 14 cfg1.N = r1_acc (r1_f14 V c) :=
  (dat1 (F := Ideal) V c).arrAt_eq_of_cover 14 (r1_acc (r1_f14 V c)) (fun t hf => by
    show (cfg1.win 12).cut (grid1.coords t) ((dat1 (F := Ideal) V c).after 14 t) = ((cfg1.win 12).blk t).view.read (Elt Ideal) (r1_acc (r1_f14 V c))
    rw [after1_14]
    exact r1_cut_eq_read t _ _ (r1_at _ _ t ((flush1_14 t).mp hf) (r1_outs_14 V c t))) r1_cover

theorem r1_sum15 (c : Dev nD) (t : Fin cfg1.N) :
    k1_pay23 (r1_blk1 V c t) (r1_blk2 V c t) (k1_pay12 (r1_blk0 V c t) (r1_blk5 V c t) (r1_blk6 V c t) (r1_blk7 V c t) (r1_blk8 V c t)) (k1_pay20 (F := Ideal) (k1_pay11 (F := Ideal) (r1_blk4 V c t))) (ix2 (0 : Fin 1) (0 : Fin 1)) = r1_bs (r1_f15 V c) t.val :=
  (k1_pay23_spec (r1_aV V c) (r1_row t.val) (r1_hV V c) (r1_blk0 V c t) (r1_blk1 V c t) (r1_blk2 V c t) (r1_blk4 V c t) (r1_blk5 V c t) (r1_blk6 V c t)
    (r1_blk7 V c t) (r1_blk8 V c t) (r1_block_h V c t) (r1_blk7_apply V c t) (r1_blk8_apply V c t) (r1_blk1_apply V c t) (r1_blk2_apply V c t)
    (r1_blk4_apply V c t)).trans rfl

theorem r1_outs_15 (c : Dev nD) (t : Fin cfg1.N) :
    (outsAt1 (F := Ideal) V c t.val t.isLt).2.2.2.1 (ix3 (0 : Fin 1) (0 : Fin 1) (0 : Fin 1))
      = ∑ s ∈ Finset.range (t.val % 256 + 1), r1_bs (r1_f15 V c) (t.val / 256 * 256 + s) :=
  r1_outs (fun n h => (outsAt1 (F := Ideal) V c n h).2.2.2.1 (ix3 (0 : Fin 1) (0 : Fin 1) (0 : Fin 1))) (r1_f15 V c)
    (fun t h0 => by
      rw [outsAt1_A V c t h0, outA1, r1_piece_A]
      dsimp only
      refine (k1_pay3_apply _ _ (0 : Fin 1) (0 : Fin 1) (0 : Fin 1)).trans ?_
      rw [k1_pay8_apply, zero_add]
      exact r1_sum15 V c t)
    (fun t h0 => by
      rw [outsAt1_B V c t h0, outB1, r1_piece_B]
      dsimp only
      refine (k1_pay3_apply _ _ (0 : Fin 1) (0 : Fin 1) (0 : Fin 1)).trans ?_
      exact congrArg (_ + ·) (r1_sum15 V c t)) t

theorem r1_final15 (c : Dev nD) : (dat1 (F := Ideal) V c).arrAt 15 cfg1.N = r1_acc (r1_f15 V c) :=
  (dat1 (F := Ideal) V c).arrAt_eq_of_cover 15 (r1_acc (r1_f15 V c)) (fun t hf => by
    show (cfg1.win 12).cut (grid1.coords t) ((dat1 (F := Ideal) V c).after 15 t) = ((cfg1.win 12).blk t).view.read (Elt Ideal) (r1_acc (r1_f15 V c))
    rw [after1_15]
    exact r1_cut_eq_read t _ _ (r1_at _ _ t ((flush1_15 t).mp hf) (r1_outs_15 V c t))) r1_cover

theorem r1_sum16 (c : Dev nD) (t : Fin cfg1.N) :
    k1_pay24 (r1_blk1 V c t) (r1_blk2 V c t) (k1_pay12 (r1_blk0 V c t) (r1_blk5 V c t) (r1_blk6 V c t) (r1_blk7 V c t) (r1_blk8 V c t)) (k1_pay20 (F := Ideal) (k1_pay11 (F := Ideal) (r1_blk4 V c t))) (ix2 (0 : Fin 1) (0 : Fin 1)) = r1_bs (r1_f16 V c) t.val :=
  (k1_pay24_spec (r1_aV V c) (r1_row t.val) (r1_hV V c) (r1_blk0 V c t) (r1_blk1 V c t) (r1_blk2 V c t) (r1_blk4 V c t) (r1_blk5 V c t) (r1_blk6 V c t)
    (r1_blk7 V c t) (r1_blk8 V c t) (r1_block_h V c t) (r1_blk7_apply V c t) (r1_blk8_apply V c t) (r1_blk1_apply V c t) (r1_blk2_apply V c t)
    (r1_blk4_apply V c t)).trans rfl

theorem r1_outs_16 (c : Dev nD) (t : Fin cfg1.N) :
    (outsAt1 (F := Ideal) V c t.val t.isLt).2.2.2.2 (ix3 (0 : Fin 1) (0 : Fin 1) (0 : Fin 1))
      = ∑ s ∈ Finset.range (t.val % 256 + 1), r1_bs (r1_f16 V c) (t.val / 256 * 256 + s) :=
  r1_outs (fun n h => (outsAt1 (F := Ideal) V c n h).2.2.2.2 (ix3 (0 : Fin 1) (0 : Fin 1) (0 : Fin 1))) (r1_f16 V c)
    (fun t h0 => by
      rw [outsAt1_A V c t h0, outA1, r1_piece_A]
      dsimp only
      refine (k1_pay4_apply _ _ (0 : Fin 1) (0 : Fin 1) (0 : Fin 1)).trans ?_
      rw [k1_pay9_apply, zero_add]
      exact r1_sum16 V c t)
    (fun t h0 => by
      rw [outsAt1_B V c t h0, outB1, r1_piece_B]
      dsimp only
      refine (k1_pay4_apply _ _ (0 : Fin 1) (0 : Fin 1) (0 : Fin 1)).trans ?_
      exact congrArg (_ + ·) (r1_sum16 V c t)) t

theorem r1_final16 (c : Dev nD) : (dat1 (F := Ideal) V c).arrAt 16 cfg1.N = r1_acc (r1_f16 V c) :=
  (dat1 (F := Ideal) V c).arrAt_eq_of_cover 16 (r1_acc (r1_f16 V c)) (fun t hf => by
    show (cfg1.win 12).cut (grid1.coords t) ((dat1 (F := Ideal) V c).after 16 t) = ((cfg1.win 12).blk t).view.read (Elt Ideal) (r1_acc (r1_f16 V c))
    rw [after1_16]
    exact r1_cut_eq_read t _ _ (r1_at _ _ t ((flush1_16 t).mp hf) (r1_outs_16 V c t))) r1_cover

theorem arr1_12 (c : Dev nD) (k : Fin 2) :
    (dat1 (F := Ideal) V c).arrAt 12 cfg1.N (ix3 k (0 : Fin 1) (0 : Fin 1))
      = ∑ r : Fin 524288, Cert.Spec.wgtK (r1_aV V c) (rowOf k r) :=
  (congrFun (r1_final12 V c) (ix3 k (0 : Fin 1) (0 : Fin 1))).trans rfl

theorem arr1_13 (c : Dev nD) (k : Fin 2) :
    (dat1 (F := Ideal) V c).arrAt 13 cfg1.N (ix3 k (0 : Fin 1) (0 : Fin 1))
      = ∑ r : Fin 524288, Cert.Spec.wgtK (r1_aV V c) (rowOf k r) * Cert.Spec.nllK (r1_aV V c) (rowOf k r) :=
  (congrFun (r1_final13 V c) (ix3 k (0 : Fin 1) (0 : Fin 1))).trans rfl

theorem arr1_14 (c : Dev nD) (k : Fin 2) :
    (dat1 (F := Ideal) V c).arrAt 14 cfg1.N (ix3 k (0 : Fin 1) (0 : Fin 1))
      = ∑ r : Fin 524288, Cert.Spec.maskF (r1_aV V c) (rowOf k r) :=
  (congrFun (r1_final14 V c) (ix3 k (0 : Fin 1) (0 : Fin 1))).trans rfl

theorem arr1_15 (c : Dev nD) (k : Fin 2) :
    (dat1 (F := Ideal) V c).arrAt 15 cfg1.N (ix3 k (0 : Fin 1) (0 : Fin 1))
      = ∑ r : Fin 524288, Cert.Spec.biasDist (r1_aV V c) (r1_hV V c) (rowOf k r) * Cert.Spec.maskF (r1_aV V c) (rowOf k r) :=
  (congrFun (r1_final15 V c) (ix3 k (0 : Fin 1) (0 : Fin 1))).trans rfl

theorem arr1_16 (c : Dev nD) (k : Fin 2) :
    (dat1 (F := Ideal) V c).arrAt 16 cfg1.N (ix3 k (0 : Fin 1) (0 : Fin 1))
      = ∑ r : Fin 524288, (0 - Cert.Spec.cosSum (r1_aV V c) (r1_hV V c) (rowOf k r)) * Cert.Spec.maskF (r1_aV V c) (rowOf k r) :=
  (congrFun (r1_final16 V c) (ix3 k (0 : Fin 1) (0 : Fin 1))).trans rfl

end Cert.KernelIdeal.Val

end
-- ==== Proof.KI.HostVal0.lean ====
import proofs.«423175_j2508260901476_3_alg».proof.Proof.KI.Run
import proofs.«423175_j2508260901476_3_alg».proof.Proof.KI.ArgsOf
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.KernelIdeal.Val

open Idealize.ShloMosaic Idealize.ShloMosaic.TcCoe Idealize.SL.Sem Cert.KernelIdeal Cert.KernelIdeal.Gen
open Idealize.ShloMosaic.ValueIdx

variable (m : (ℓ : Loc nD τ sig) → Buf (Elt Ideal) ℓ) (c : Dev nD)

/-- A vector reshaped to a single row keeps its entries in order. -/
theorem W1_v0 (j : Fin 64) : (W1 m c main_v0 : FVec Ideal S1x64 .f32) (ix2 0 j) = (argsOf m c).b1 j := by
  show StableHlo.after hostOps0 _ (Proc.devRef .tc main_v0) (ix2 0 j) = _
  after_results
  exact shapeCast_a_1a_apply _ _ 0 j

theorem W1_v1 (d : Fin 3) : (W1 m c main_v1 : FVec Ideal S1x3 .f32) (ix2 0 d) = (argsOf m c).b2 d := by
  show StableHlo.after hostOps0 _ (Proc.devRef .tc main_v1) (ix2 0 d) = _
  after_results
  exact shapeCast_a_1a_apply _ _ 0 d

theorem W1_v2 (q : Fin 20) : (W1 m c main_v2 : FVec Ideal S1x20 .f32) (ix2 0 q) = (argsOf m c).bseg q := by
  show StableHlo.after hostOps0 _ (Proc.devRef .tc main_v2) (ix2 0 q) = _
  after_results
  exact shapeCast_a_1a_apply _ _ 0 q

theorem W1_v3 (q : Fin 20) : (W1 m c main_v3 : FVec Ideal S1x20 .f32) (ix2 0 q) = (argsOf m c).cw q := by
  show StableHlo.after hostOps0 _ (Proc.devRef .tc main_v3) (ix2 0 q) = _
  after_results
  exact shapeCast_a_1a_apply _ _ 0 q

end Cert.KernelIdeal.Val

end
-- ==== Proof.KI.HostVal1.lean ====
import proofs.«423175_j2508260901476_3_alg».proof.Proof.KI.HostVal0
import proofs.«423175_j2508260901476_3_alg».proof.Proof.KI.Val1Lay

noncomputable section

namespace Cert.KernelIdeal.Val

open Idealize.ShloMosaic Idealize.ShloMosaic.TcCoe Idealize.SL.Sem Cert.KernelIdeal Cert.KernelIdeal.Gen
open Idealize.ShloMosaic.ValueIdx

variable (m : (ℓ : Loc nD τ sig) → Buf (Elt Ideal) ℓ) (c : Dev nD)

theorem half_vec (x : FVec Ideal S2x1x64 .f32) (k : Fin 2) (off : Fin 3 → Nat) (hs : S2x1x64.Slices off S1x1x64)
    (hc : S1x1x64.ShapeCasts S64) (o0 : off 0 = k.val) (o1 : off 1 = 0) (o2 : off 2 = 0) (j : Fin 64) :
    shapeCast S64 (extractStridedSlice S1x1x64 off x hs) hc (ix1 j) = x (ix3 k 0 j) := by
  refine (shapeCast_apply _ hc (ix1 j) (ix3 0 0 j) ?_).trans ?_
  · rw [Shape.rowMajor_val_three, Shape.rowMajor_val_one]
    show ((0 * 1 + 0) * 64 + j.val : ℕ) = j.val
    omega
  · exact extractStridedSlice_apply off x hs (ix3 0 0 j) (ix3 k 0 j) (fun a => match a with
      | ⟨0, _⟩ => by show k.val = off 0 + 0; omega
      | ⟨1, _⟩ => by show 0 = off 1 + 0; omega
      | ⟨2, _⟩ => by show j.val = off 2 + j.val; omega)

theorem bcast_const_apply {T : Shape} (h : S_.BroadcastsInDim T ![]) (w : BitVec 32) (i : T.Idx) :
    broadcastInDim T ![] h (constant (F := Ideal) S_ .f32 w) i = Ideal.ofBits .f32 w :=
  broadcastInDim_scalar_apply h _ i

theorem bcast_row_apply (x : FVec Ideal S1x64 .f32) (h : S1x64.BroadcastsInDim S64x64 ![0, 1]) (k j : Fin 64) :
    broadcastInDim S64x64 ![0, 1] h x (ix2 k j) = x (ix2 0 j) :=
  broadcastInDim_apply _ h x (ix2 k j) (ix2 0 j) (fun a => match a with
    | ⟨0, _⟩ => rfl
    | ⟨1, _⟩ => rfl)

def rowSum (x : FVec Ideal S2x1x64 .f32) : FVec Ideal S1x64 .f32 :=
  shapeCast S1x64
    (addf (shapeCast S64 (extractStridedSlice S1x1x64 ![0, 0, 0] x slices_S2x1x64_S1x1x64_0_0_0) shapeCasts_S1x1x64_S64)
      (shapeCast S64 (extractStridedSlice S1x1x64 ![1, 0, 0] x slices_S2x1x64_S1x1x64_1_0_0) shapeCasts_S1x1x64_S64))
    shapeCasts_S64_S1x64

def nnRow : FVec Ideal S1x64 .f32 := broadcastInDim S1x64 ![] bcast_S_S1x64 (constant S_ .f32 0x49800000#32)

def meanRow (x : FVec Ideal S2x1x64 .f32) : FVec Ideal S1x64 .f32 := Host.divf (rowSum x) nnRow

def scaleRow (x xx : FVec Ideal S2x1x64 .f32) (g : FVec Ideal S64 .f32) : FVec Ideal S1x64 .f32 :=
  mulf (shapeCast S1x64 g shapeCasts_S64_S1x64)
    (Host.rsqrt (addf (subf (Host.divf (rowSum xx) nnRow) (mulf (meanRow x) (meanRow x)))
      (broadcastInDim S1x64 ![] bcast_S_S1x64 (constant S_ .f32 0x3A83126F#32))))

theorem halvesSum_apply (x : FVec Ideal S2x1x64 .f32) (S : Fin 2 → Fin 64 → EReal) (h : ∀ k j, x (ix3 k 0 j) = S k j)
    (j : Fin 64) : rowSum x (ix2 0 j) = S 0 j + S 1 j := by
  unfold rowSum
  refine (shapeCast_a_1a_apply _ _ 0 j).trans ?_
  exact congrArg₂ (· + ·) ((half_vec x 0 _ _ _ rfl rfl rfl j).trans (h 0 j)) ((half_vec x 1 _ _ _ rfl rfl rfl j).trans (h 1 j))

theorem meanRow_apply (x : FVec Ideal S2x1x64 .f32) (S : Fin 2 → Fin 64 → EReal) (h : ∀ k j, x (ix3 k 0 j) = S k j)
    (j : Fin 64) : meanRow x (ix2 0 j) = Ideal.div (S 0 j + S 1 j) Cert.Spec.nnE :=
  congrArg₂ Ideal.div (halvesSum_apply x S h j) (bcast_const_apply _ _ _)

theorem scaleRow_apply (x xx : FVec Ideal S2x1x64 .f32) (g : FVec Ideal S64 .f32) (S SS : Fin 2 → Fin 64 → EReal)
    (G : Fin 64 → EReal) (h : ∀ k j, x (ix3 k 0 j) = S k j) (hh : ∀ k j, xx (ix3 k 0 j) = SS k j)
    (hg : ∀ j, g (ix1 j) = G j) (j : Fin 64) :
    scaleRow x xx g (ix2 0 j)
      = G j * Ideal.rsqrt ((Ideal.div (SS 0 j + SS 1 j) Cert.Spec.nnE
          - Ideal.div (S 0 j + S 1 j) Cert.Spec.nnE * Ideal.div (S 0 j + S 1 j) Cert.Spec.nnE) + Cert.Spec.epsE) :=
  congrArg₂ (· * ·) ((shapeCast_a_1a_apply g _ 0 j).trans (hg j))
    (congrArg Ideal.rsqrt (congrArg₂ (· + ·)
      (congrArg₂ (· - ·) (congrArg₂ Ideal.div (halvesSum_apply xx SS hh j) (bcast_const_apply _ _ _))
        (congrArg₂ (· * ·) (meanRow_apply x S h j) (meanRow_apply x S h j)))
      (bcast_const_apply _ _ _)))

theorem W2_of_arg (b : Ref sig .tc) (h0 : ∀ w, Pipeline.arrRef spec0 w ≠ b) (h1 : b ∉ hostOps0_W) :
    W2 m c (Proc.devRef .tc b) = m ((c.tc : Thread nD τ).loc b) :=
  (W2_of_ne m c b h0).trans (StableHlo.after_of_writes_sub hostOps0 _ hostOps0_writes h1)

theorem W2_arg5 : W2 m c (Proc.devRef .tc main_arg5) = m ((c.tc : Thread nD τ).loc main_arg5) :=
  ((W2_arr m c 1).trans (((dat0 (U1 m) c).arrAt_in 1 rfl _).trans (A_eq0 (U1 m) c 1))).trans
    (StableHlo.after_of_writes_sub hostOps0 _ hostOps0_writes (by decide : main_arg5 ∉ hostOps0_W))

theorem W2_v0 : W2 m c (Proc.devRef .tc main_v0) = W1 m c (Proc.devRef .tc main_v0) :=
  (W2_arr m c 2).trans (((dat0 (U1 m) c).arrAt_in 2 rfl _).trans (A_eq0 (U1 m) c 2))

theorem W2_arg7 (j : Fin 64) : (W2 m c main_arg7 : FVec Ideal S64 .f32) (ix1 j) = (argsOf m c).gamma j := by
  rw [W2_of_arg m c main_arg7 (by decide) (by decide)]; rfl

section Fold
variable (S SS : Fin 2 → Fin 64 → EReal)
    (hS : ∀ k j, (W2 m c main_v4_0 : FVec Ideal S2x1x64 .f32) (ix3 k 0 j) = S k j)
    (hSS : ∀ k j, (W2 m c main_v4_1 : FVec Ideal S2x1x64 .f32) (ix3 k 0 j) = SS k j)
include hS hSS

/-- Each weight is multiplied by the scale of its output column. -/
theorem W3_v29 (k j : Fin 64) :
    (W3 m c main_v29 : FVec Ideal S64x64 .f32) (ix2 k j)
      = (argsOf m c).W1 k j * ((argsOf m c).gamma j * Ideal.rsqrt ((Ideal.div (SS 0 j + SS 1 j) Cert.Spec.nnE
          - Ideal.div (S 0 j + S 1 j) Cert.Spec.nnE * Ideal.div (S 0 j + S 1 j) Cert.Spec.nnE) + Cert.Spec.epsE)) := by
  have hw : (W2 m c main_arg5 : FVec Ideal S64x64 .f32) (ix2 k j) = (argsOf m c).W1 k j := by
    rw [W2_arg5]; rfl
  show StableHlo.after hostOps1 _ (Proc.devRef .tc main_v29) (ix2 k j) = _
  after_results
  exact congrArg₂ (· * ·) hw ((bcast_row_apply _ _ k j).trans (scaleRow_apply _ _ _ S SS _ hS hSS (W2_arg7 m c) j))

/-- The bias is centred by the column mean, scaled, then shifted. -/
theorem W3_v33 (j : Fin 64) :
    (W3 m c main_v33 : FVec Ideal S1x64 .f32) (ix2 0 j)
      = ((argsOf m c).b1 j - Ideal.div (S 0 j + S 1 j) Cert.Spec.nnE)
          * ((argsOf m c).gamma j * Ideal.rsqrt ((Ideal.div (SS 0 j + SS 1 j) Cert.Spec.nnE
          - Ideal.div (S 0 j + S 1 j) Cert.Spec.nnE * Ideal.div (S 0 j + S 1 j) Cert.Spec.nnE) + Cert.Spec.epsE))
        + (argsOf m c).beta j := by
  have hb : (W2 m c main_arg8 : FVec Ideal S64 .f32) (ix1 j) = (argsOf m c).beta j := by
    rw [W2_of_arg m c main_arg8 (by decide) (by decide)]; rfl
  have hv : (W2 m c main_v0 : FVec Ideal S1x64 .f32) (ix2 0 j) = (argsOf m c).b1 j := by
    rw [W2_v0]; exact W1_v0 m c j
  show StableHlo.after hostOps1 _ (Proc.devRef .tc main_v33) (ix2 0 j) = _
  after_results_simp
  exact congrArg₂ (· + ·)
    (congrArg₂ (· * ·) (congrArg₂ (· - ·) hv (meanRow_apply _ S hS j)) (scaleRow_apply _ _ _ S SS _ hS hSS (W2_arg7 m c) j))
    ((shapeCast_a_1a_apply _ _ 0 j).trans hb)

end Fold

theorem W3_v34 (r : Fin 1048576) : (W3 m c main_v34 : Vec Ideal S1048576x1 .i32) (ix2 r 0) = (argsOf m c).seg r := by
  have ha : (W2 m c main_arg2 : Vec Ideal S1048576 .i32) (ix1 r) = (argsOf m c).seg r := by
    rw [W2_of_arg m c main_arg2 (by decide) (by decide)]; rfl
  show StableHlo.after hostOps1 _ (Proc.devRef .tc main_v34) (ix2 r 0) = _
  after_results
  exact (shapeCast_a_a1_apply _ _ r 0).trans ha

theorem W3_v35 (r : Fin 1048576) : (W3 m c main_v35 : Vec Ideal S1048576x1 .i32) (ix2 r 0) = (argsOf m c).inst r := by
  have ha : (W2 m c main_arg3 : Vec Ideal S1048576 .i32) (ix1 r) = (argsOf m c).inst r := by
    rw [W2_of_arg m c main_arg3 (by decide) (by decide)]; rfl
  show StableHlo.after hostOps1 _ (Proc.devRef .tc main_v35) (ix2 r 0) = _
  after_results
  exact (shapeCast_a_a1_apply _ _ r 0).trans ha

theorem W3_keep (b : Ref sig .tc) (h1 : b ∉ hostOps1_W) (h0 : ∀ w, Pipeline.arrRef spec0 w ≠ b) :
    W3 m c b = W1 m c b :=
  (StableHlo.after_of_writes_sub hostOps1 _ hostOps1_writes h1).trans (W2_of_ne m c b h0)

end Cert.KernelIdeal.Val

end
-- ==== Proof.KI.HostVal2.lean ====
import proofs.«423175_j2508260901476_3_alg».proof.Proof.KI.HostVal0

noncomputable section

namespace Cert.KernelIdeal.Val

open Idealize.ShloMosaic Idealize.ShloMosaic.TcCoe Idealize.SL.Sem Cert.KernelIdeal Cert.KernelIdeal.Gen
open Idealize.ShloMosaic.ValueIdx

variable (m : (ℓ : Loc nD τ sig) → Buf (Elt Ideal) ℓ) (c : Dev nD)

/-- Slicing out half k and dropping the unit axes reads entry (k, 0, 0). -/
theorem half_scalar (x : FVec Ideal S2x1x1 .f32) (k : Fin 2) (off : Fin 3 → Nat) (hs : S2x1x1.Slices off S1x1x1)
    (hc : S1x1x1.ShapeCasts S_) (o0 : off 0 = k.val) (o1 : off 1 = 0) (o2 : off 2 = 0) :
    shapeCast S_ (extractStridedSlice S1x1x1 off x hs) hc ix0 = x (ix3 k 0 0) := by
  refine (shapeCast_apply _ hc ix0 (ix3 0 0 0) ?_).trans ?_
  · rw [Shape.rowMajor_val_three]
    show ((0 * 1 + 0) * 1 + 0 : ℕ) = (Shape.rowMajorPi _ _).val
    rw [Shape.rowMajorPi_zero]
  · exact extractStridedSlice_apply off x hs (ix3 0 0 0) (ix3 k 0 0) (fun a => match a with
      | ⟨0, _⟩ => by show k.val = off 0 + 0; omega
      | ⟨1, _⟩ => by show 0 = off 1 + 0; omega
      | ⟨2, _⟩ => by show 0 = off 2 + 0; omega)

theorem halves_scalar (x : FVec Ideal S2x1x1 .f32) (A : Fin 2 → EReal) (h : ∀ k, x (ix3 k 0 0) = A k) :
    addf (shapeCast S_ (extractStridedSlice S1x1x1 ![0, 0, 0] x slices_S2x1x1_S1x1x1_0_0_0) shapeCasts_S1x1x1_S_)
        (shapeCast S_ (extractStridedSlice S1x1x1 ![1, 0, 0] x slices_S2x1x1_S1x1x1_1_0_0) shapeCasts_S1x1x1_S_) ix0 = A 0 + A 1 :=
  congrArg₂ (· + ·) ((half_scalar x 0 _ _ _ rfl rfl rfl).trans (h 0)) ((half_scalar x 1 _ _ _ rfl rfl rfl).trans (h 1))

variable (A0 A1 A2 A3 A4 : Fin 2 → EReal)
    (h0 : ∀ k, (W4 m c main_v36_0 : FVec Ideal S2x1x1 .f32) (ix3 k 0 0) = A0 k)
    (h1 : ∀ k, (W4 m c main_v36_1 : FVec Ideal S2x1x1 .f32) (ix3 k 0 0) = A1 k)
    (h2 : ∀ k, (W4 m c main_v36_2 : FVec Ideal S2x1x1 .f32) (ix3 k 0 0) = A2 k)
    (h3 : ∀ k, (W4 m c main_v36_3 : FVec Ideal S2x1x1 .f32) (ix3 k 0 0) = A3 k)
    (h4 : ∀ k, (W4 m c main_v36_4 : FVec Ideal S2x1x1 .f32) (ix3 k 0 0) = A4 k)
include h0 h1 h2 h3 h4

/-- Each quotient is formed from the sums of the two halves of its accumulators. -/
theorem W5_v69 : (W5 m c main_v69 : FVec Ideal S1 .f32) (ix1 0) = Ideal.div (A1 0 + A1 1) (A0 0 + A0 1) := by
  show StableHlo.after hostOps2 _ (Proc.devRef .tc main_v69) (ix1 0) = _
  after_results_simp
  exact (broadcastInDim_scalar_apply _ _ _).trans (congrArg₂ Ideal.div (halves_scalar _ A1 h1) (halves_scalar _ A0 h0))

theorem W5_v70 : (W5 m c main_v70 : FVec Ideal S1 .f32) (ix1 0) = Ideal.div (A3 0 + A3 1) ((A2 0 + A2 1) + Cert.Spec.tinyE) := by
  show StableHlo.after hostOps2 _ (Proc.devRef .tc main_v70) (ix1 0) = _
  after_results_simp
  exact (broadcastInDim_scalar_apply _ _ _).trans (congrArg₂ Ideal.div (halves_scalar _ A3 h3) (congrArg (· + Cert.Spec.tinyE) (halves_scalar _ A2 h2)))

theorem W5_v71 : (W5 m c main_v71 : FVec Ideal S1 .f32) (ix1 0) = Ideal.div (A4 0 + A4 1) ((A2 0 + A2 1) + Cert.Spec.tinyE) := by
  show StableHlo.after hostOps2 _ (Proc.devRef .tc main_v71) (ix1 0) = _
  after_results_simp
  exact (broadcastInDim_scalar_apply _ _ _).trans (congrArg₂ Ideal.div (halves_scalar _ A4 h4) (congrArg (· + Cert.Spec.tinyE) (halves_scalar _ A2 h2)))

theorem W5_v68 : (W5 m c main_v68 : FVec Ideal S1 .f32) (ix1 0)
      = Ideal.div (A1 0 + A1 1) (A0 0 + A0 1) + Ideal.div (A3 0 + A3 1) ((A2 0 + A2 1) + Cert.Spec.tinyE)
        + Ideal.div (A4 0 + A4 1) ((A2 0 + A2 1) + Cert.Spec.tinyE) := by
  have den := congrArg (· + Cert.Spec.tinyE) (halves_scalar _ A2 h2)
  show StableHlo.after hostOps2 _ (Proc.devRef .tc main_v68) (ix1 0) = _
  after_results_simp
  exact (broadcastInDim_scalar_apply _ _ _).trans (congrArg₂ (· + ·)
    (congrArg₂ (· + ·) (congrArg₂ Ideal.div (halves_scalar _ A1 h1) (halves_scalar _ A0 h0)) (congrArg₂ Ideal.div (halves_scalar _ A3 h3) den))
    (congrArg₂ Ideal.div (halves_scalar _ A4 h4) den))

omit h0 h1 h2 h3 h4 in
theorem W5_v72_concat :
    (W5 m c main_v72 : FVec Ideal S4 .f32)
      = concatenate S4 0 [⟨S1, (W5 m c main_v68 : FVec Ideal S1 .f32)⟩, ⟨S1, (W5 m c main_v69 : FVec Ideal S1 .f32)⟩,
          ⟨S1, (W5 m c main_v70 : FVec Ideal S1 .f32)⟩, ⟨S1, (W5 m c main_v71 : FVec Ideal S1 .f32)⟩]
          concatenates_S1_S1_S1_S1_S4_d0 := by
  show StableHlo.after hostOps2 _ (Proc.devRef .tc main_v72)
    = concatenate S4 0 [⟨S1, StableHlo.after hostOps2 _ (Proc.devRef .tc main_v68)⟩,
        ⟨S1, StableHlo.after hostOps2 _ (Proc.devRef .tc main_v69)⟩, ⟨S1, StableHlo.after hostOps2 _ (Proc.devRef .tc main_v70)⟩,
        ⟨S1, StableHlo.after hostOps2 _ (Proc.devRef .tc main_v71)⟩] concatenates_S1_S1_S1_S1_S4_d0
  simp only [StableHlo.after_cons, StableHlo.after_nil]
  rw [StableHlo.nary_result,
    StableHlo.nary_result_ne (r := main_v68) (h := by decide), StableHlo.nary_result_ne (r := main_v69) (h := by decide),
    StableHlo.nary_result_ne (r := main_v70) (h := by decide), StableHlo.nary_result_ne (r := main_v71) (h := by decide)]
  generalize HloOp.result _ _ = V
  rfl

/-- Position n of the concatenation is the n-th one-entry buffer. -/
theorem W5_v72 :
    (W5 m c main_v72 : FVec Ideal S4 .f32)
      = Cert.Spec.asArray (Cert.Spec.combine (A0 0 + A0 1) (A1 0 + A1 1) (A2 0 + A2 1) (A3 0 + A3 1) (A4 0 + A4 1)) := by
  rw [W5_v72_concat]
  funext i
  obtain ⟨n, rfl⟩ : ∃ n, i = ix1 n := ⟨i 0, eq_ix1 i⟩
  match n with
  | ⟨0, _⟩ => exact Eq.trans (concatenate_apply_piece (t := S4) 0 _ _ _ 0 (by simp) S1 _ rfl rfl 0 rfl (ix1 0) (fun b hb => match b with | ⟨0, _⟩ => absurd rfl hb) rfl) (W5_v68 m c A0 A1 A2 A3 A4 h0 h1 h2 h3 h4)
  | ⟨1, _⟩ => exact Eq.trans (concatenate_apply_piece (t := S4) 0 _ _ _ 1 (by simp) S1 _ rfl rfl 1 rfl (ix1 0) (fun b hb => match b with | ⟨0, _⟩ => absurd rfl hb) rfl) (W5_v69 m c A0 A1 A2 A3 A4 h0 h1 h2 h3 h4)
  | ⟨2, _⟩ => exact Eq.trans (concatenate_apply_piece (t := S4) 0 _ _ _ 2 (by simp) S1 _ rfl rfl 2 rfl (ix1 0) (fun b hb => match b with | ⟨0, _⟩ => absurd rfl hb) rfl) (W5_v70 m c A0 A1 A2 A3 A4 h0 h1 h2 h3 h4)
  | ⟨3, _⟩ => exact Eq.trans (concatenate_apply_piece (t := S4) 0 _ _ _ 3 (by simp) S1 _ rfl rfl 3 rfl (ix1 0) (fun b hb => match b with | ⟨0, _⟩ => absurd rfl hb) rfl) (W5_v71 m c A0 A1 A2 A3 A4 h0 h1 h2 h3 h4)

end Cert.KernelIdeal.Val

end
-- ==== Proof.KI.Value.lean ====
import proofs.«423175_j2508260901476_3_alg».proof.Proof.KI.RunArgs
import proofs.«423175_j2508260901476_3_alg».proof.Proof.KI.ArgsOf
import proofs.«423175_j2508260901476_3_alg».proof.Proof.KI.Val0
import proofs.«423175_j2508260901476_3_alg».proof.Proof.KI.Val1
import proofs.«423175_j2508260901476_3_alg».proof.Proof.KI.HostVal1
import proofs.«423175_j2508260901476_3_alg».proof.Proof.KI.HostVal2

noncomputable section

namespace Cert.KernelIdeal.Val

open Idealize.ShloMosaic Idealize.ShloMosaic.TcCoe Idealize.SL.Sem Idealize.ShloMosaic.ValueIdx
open Cert.KernelIdeal Cert.KernelIdeal.Gen Cert.Spec

variable (m : (ℓ : Loc nD τ sig) → Buf (Elt Ideal) ℓ) (c : Dev nD)

theorem U1_arg0 : U1 m c main_arg0 = m ((c.tc : Thread nD τ).loc main_arg0) :=
  StableHlo.after_of_writes_sub hostOps0 _ hostOps0_writes (by decide : main_arg0 ∉ hostOps0_W)
theorem U1_arg5 : U1 m c main_arg5 = m ((c.tc : Thread nD τ).loc main_arg5) :=
  StableHlo.after_of_writes_sub hostOps0 _ hostOps0_writes (by decide : main_arg5 ∉ hostOps0_W)

theorem lin0_eq (r : Fin 1048576) (j : Fin 64) :
    lin (r0_X (U1 m) c) (r0_W (U1 m) c) (r0_B (U1 m) c) r j = h0 (argsOf m c) r j := by
  have hX : r0_X (U1 m) c = (argsOf m c).feat := funext fun n => funext fun k => congrFun (U1_arg0 m c) (ix2 n k)
  have hW : r0_W (U1 m) c = (argsOf m c).W1 := funext fun k => funext fun j => congrFun (U1_arg5 m c) (ix2 k j)
  have hB : r0_B (U1 m) c = (argsOf m c).b1 := funext fun j => W1_v0 m c j
  rw [hX, hW, hB]; rfl

def sumH (k : Fin 2) (j : Fin 64) : EReal := ∑ r : Fin 524288, h0 (argsOf m c) (rowOf k r) j
def sumHH (k : Fin 2) (j : Fin 64) : EReal := ∑ r : Fin 524288, h0 (argsOf m c) (rowOf k r) j * h0 (argsOf m c) (rowOf k r) j

theorem acc0_eq (k : Fin 2) (j : Fin 64) : (W2 m c main_v4_0 : FVec Ideal S2x1x64 .f32) (ix3 k 0 j) = sumH m c k j :=
  calc (W2 m c main_v4_0 : FVec Ideal S2x1x64 .f32) (ix3 k 0 j)
      = ((dat0 (F := Ideal) (U1 m) c).arrAt 3 cfg0.N : FVec Ideal S2x1x64 .f32) (ix3 k 0 j) := congrFun (W2_arr m c 3) (ix3 k 0 j)
    _ = ∑ r : Fin 524288, lin (r0_X (U1 m) c) (r0_W (U1 m) c) (r0_B (U1 m) c) (rowOf k r) j := arr0_3 (U1 m) c k j
    _ = sumH m c k j := Finset.sum_congr rfl fun r _ => lin0_eq m c _ j
theorem acc1_eq (k : Fin 2) (j : Fin 64) : (W2 m c main_v4_1 : FVec Ideal S2x1x64 .f32) (ix3 k 0 j) = sumHH m c k j :=
  calc (W2 m c main_v4_1 : FVec Ideal S2x1x64 .f32) (ix3 k 0 j)
      = ((dat0 (F := Ideal) (U1 m) c).arrAt 4 cfg0.N : FVec Ideal S2x1x64 .f32) (ix3 k 0 j) := congrFun (W2_arr m c 4) (ix3 k 0 j)
    _ = ∑ r : Fin 524288, lin (r0_X (U1 m) c) (r0_W (U1 m) c) (r0_B (U1 m) c) (rowOf k r) j
          * lin (r0_X (U1 m) c) (r0_W (U1 m) c) (r0_B (U1 m) c) (rowOf k r) j := arr0_4 (U1 m) c k j
    _ = sumHH m c k j := Finset.sum_congr rfl fun r _ => by rw [lin0_eq m c _ j]

theorem sumH_total (j : Fin 64) : sumH m c 0 j + sumH m c 1 j = ∑ r : Fin 1048576, h0 (argsOf m c) r j :=
  (sum_halves fun r => h0 (argsOf m c) r j).symm
theorem sumHH_total (j : Fin 64) :
    sumHH m c 0 j + sumHH m c 1 j = ∑ r : Fin 1048576, h0 (argsOf m c) r j * h0 (argsOf m c) r j :=
  (sum_halves fun r => h0 (argsOf m c) r j * h0 (argsOf m c) r j).symm

theorem U3_v29 (k j : Fin 64) : (U3 m c main_v29 : FVec Ideal S64x64 .f32) (ix2 k j) = W1pK (argsOf m c) k j := by
  refine (W3_v29 m c (sumH m c) (sumHH m c) (acc0_eq m c) (acc1_eq m c) k j).trans ?_
  rw [sumH_total, sumHH_total]; rfl
theorem U3_v33 (j : Fin 64) : (U3 m c main_v33 : FVec Ideal S1x64 .f32) (ix2 0 j) = b1pK (argsOf m c) j := by
  refine (W3_v33 m c (sumH m c) (sumHH m c) (acc0_eq m c) (acc1_eq m c) j).trans ?_
  rw [sumH_total, sumHH_total]; rfl

theorem U3_arg (b : Ref sig .tc) (h1 : b ∉ hostOps1_W := by decide) (h0 : ∀ w, Pipeline.arrRef spec0 w ≠ b := by decide)
    (h00 : b ∉ hostOps0_W := by decide) :
    U3 m c b = m ((c.tc : Thread nD τ).loc b) :=
  (W3_keep m c b h1 h0).trans (StableHlo.after_of_writes_sub hostOps0 _ hostOps0_writes h00)
theorem U3_arg0 : U3 m c main_arg0 = m ((c.tc : Thread nD τ).loc main_arg0) :=
  (StableHlo.after_of_writes_sub hostOps1 _ hostOps1_writes (by decide : main_arg0 ∉ hostOps1_W)).trans
    ((W2_arr m c 0).trans (((dat0 (U1 m) c).arrAt_in 0 rfl _).trans ((A_eq0 (U1 m) c 0).trans (U1_arg0 m c))))
theorem U3_arg5 : U3 m c main_arg5 = m ((c.tc : Thread nD τ).loc main_arg5) :=
  (StableHlo.after_of_writes_sub hostOps1 _ hostOps1_writes (by decide : main_arg5 ∉ hostOps1_W)).trans
    ((W2_arr m c 1).trans (((dat0 (U1 m) c).arrAt_in 1 rfl _).trans ((A_eq0 (U1 m) c 1).trans (U1_arg5 m c))))

theorem args_ext {x y : Args} (h1 : x.feat = y.feat) (h2 : x.coord = y.coord) (h3 : x.seg = y.seg) (h4 : x.inst = y.inst)
    (h5 : x.cent = y.cent) (h6 : x.W1 = y.W1) (h7 : x.b1 = y.b1) (h8 : x.gamma = y.gamma) (h9 : x.beta = y.beta)
    (h10 : x.W2 = y.W2) (h11 : x.b2 = y.b2) (h12 : x.Wseg = y.Wseg) (h13 : x.bseg = y.bseg) (h14 : x.cw = y.cw) : x = y := by
  cases x; cases y; dsimp only at *; subst_vars; rfl

theorem aV_feat : (r1_aV (U3 m) c).feat = (argsOf m c).feat := by
  funext i j; show r1_feat (U3 m) c (ix2 i j) = _; exact congrFun (U3_arg0 m c) (ix2 i j)
theorem aV_coord : (r1_aV (U3 m) c).coord = (argsOf m c).coord := by
  funext i j; show r1_coord (U3 m) c (ix2 i j) = _; exact congrFun (U3_arg m c main_arg1) (ix2 i j)
theorem aV_cent : (r1_aV (U3 m) c).cent = (argsOf m c).cent := by
  funext i j; show r1_cent (U3 m) c (ix2 i j) = _; exact congrFun (U3_arg m c main_arg4) (ix2 i j)
theorem aV_W1 : (r1_aV (U3 m) c).W1 = (argsOf m c).W1 := by
  funext i j; show r1_w1 (U3 m) c (ix2 i j) = _; exact congrFun (U3_arg5 m c) (ix2 i j)
theorem aV_b1 : (r1_aV (U3 m) c).b1 = (argsOf m c).b1 := by
  funext j; show r1_b1 (U3 m) c (ix1 j) = _; exact congrFun (U3_arg m c main_arg6) (ix1 j)
theorem aV_gamma : (r1_aV (U3 m) c).gamma = (argsOf m c).gamma := by
  funext j; show r1_gamma (U3 m) c (ix1 j) = _; exact congrFun (U3_arg m c main_arg7) (ix1 j)
theorem aV_beta : (r1_aV (U3 m) c).beta = (argsOf m c).beta := by
  funext j; show r1_beta (U3 m) c (ix1 j) = _; exact congrFun (U3_arg m c main_arg8) (ix1 j)
theorem aV_W2 : (r1_aV (U3 m) c).W2 = (argsOf m c).W2 := by
  funext i j; show r1_w2 (U3 m) c (ix2 i j) = _; exact congrFun (U3_arg m c main_arg9) (ix2 i j)
theorem aV_b2 : (r1_aV (U3 m) c).b2 = (argsOf m c).b2 := by
  funext j; show r1_b2 (U3 m) c (ix2 (0 : Fin 1) j) = _
  rw [show r1_b2 (U3 m) c = W1 m c main_v1 from W3_keep m c main_v1 (by decide) (by decide)]; exact W1_v1 m c j
theorem aV_Wseg : (r1_aV (U3 m) c).Wseg = (argsOf m c).Wseg := by
  funext i j; show r1_wseg (U3 m) c (ix2 i j) = _; exact congrFun (U3_arg m c main_arg11) (ix2 i j)
theorem aV_bseg : (r1_aV (U3 m) c).bseg = (argsOf m c).bseg := by
  funext j; show r1_bseg (U3 m) c (ix2 (0 : Fin 1) j) = _
  rw [show r1_bseg (U3 m) c = W1 m c main_v2 from W3_keep m c main_v2 (by decide) (by decide)]; exact W1_v2 m c j
theorem aV_cw : (r1_aV (U3 m) c).cw = (argsOf m c).cw := by
  funext j; show r1_cw (U3 m) c (ix2 (0 : Fin 1) j) = _
  rw [show r1_cw (U3 m) c = W1 m c main_v3 from W3_keep m c main_v3 (by decide) (by decide)]; exact W1_v3 m c j

/-- Every field agrees: the argument arrays are never written, and each reshaped vector keeps its entries. -/
theorem aV_eq : r1_aV (U3 m) c = argsOf m c :=
  args_ext (aV_feat m c) (aV_coord m c) (funext (W3_v34 m c)) (funext (W3_v35 m c)) (aV_cent m c) (aV_W1 m c) (aV_b1 m c) (aV_gamma m c)
    (aV_beta m c) (aV_W2 m c) (aV_b2 m c) (aV_Wseg m c) (aV_bseg m c) (aV_cw m c)

theorem hV_eq : r1_hV (U3 m) c = hK (argsOf m c) := by
  funext r j
  have e1 : (fun k j => (U3 m c main_v29 : FVec Ideal S64x64 .f32) (ix2 k j)) = W1pK (argsOf m c) :=
    funext fun k => funext fun j => U3_v29 m c k j
  have e2 : (fun j => (U3 m c main_v33 : FVec Ideal S1x64 .f32) (ix2 (0 : Fin 1) j)) = b1pK (argsOf m c) :=
    funext fun j => U3_v33 m c j
  show max (lin (r1_aV (U3 m) c).feat _ _ r j) 0 = max (lin (argsOf m c).feat (W1pK (argsOf m c)) (b1pK (argsOf m c)) r j) 0
  rw [aV_eq, ← e1, ← e2]

theorem acc12_eq (k : Fin 2) : (W4 m c main_v36_0 : FVec Ideal S2x1x1 .f32) (ix3 k 0 0)
    = ∑ r : Fin 524288, wgtK (argsOf m c) (rowOf k r) := by
  refine (congrFun (W4_arr m c 12) (ix3 k 0 0)).trans ((arr1_12 (U3 m) c k).trans ?_)
  rw [aV_eq]
theorem acc13_eq (k : Fin 2) : (W4 m c main_v36_1 : FVec Ideal S2x1x1 .f32) (ix3 k 0 0)
    = ∑ r : Fin 524288, wgtK (argsOf m c) (rowOf k r) * nllK (argsOf m c) (rowOf k r) := by
  refine (congrFun (W4_arr m c 13) (ix3 k 0 0)).trans ((arr1_13 (U3 m) c k).trans ?_)
  rw [aV_eq]
theorem acc14_eq (k : Fin 2) : (W4 m c main_v36_2 : FVec Ideal S2x1x1 .f32) (ix3 k 0 0)
    = ∑ r : Fin 524288, maskF (argsOf m c) (rowOf k r) := by
  refine (congrFun (W4_arr m c 14) (ix3 k 0 0)).trans ((arr1_14 (U3 m) c k).trans ?_)
  rw [aV_eq]
theorem acc15_eq (k : Fin 2) : (W4 m c main_v36_3 : FVec Ideal S2x1x1 .f32) (ix3 k 0 0)
    = ∑ r : Fin 524288, biasDist (argsOf m c) (hK (argsOf m c)) (rowOf k r) * maskF (argsOf m c) (rowOf k r) := by
  refine (congrFun (W4_arr m c 15) (ix3 k 0 0)).trans ((arr1_15 (U3 m) c k).trans ?_)
  rw [aV_eq, hV_eq]
theorem acc16_eq (k : Fin 2) : (W4 m c main_v36_4 : FVec Ideal S2x1x1 .f32) (ix3 k 0 0)
    = ∑ r : Fin 524288, cosK (argsOf m c) (rowOf k r) * maskF (argsOf m c) (rowOf k r) := by
  refine (congrFun (W4_arr m c 16) (ix3 k 0 0)).trans ((arr1_16 (U3 m) c k).trans ?_)
  rw [aV_eq, hV_eq]; rfl

theorem kernel_value : W5 m c (Proc.devRef .tc main_v72) = asArray (outK (argsOf m c)) := by
  refine (W5_v72 m c _ _ _ _ _ (acc12_eq m c) (acc13_eq m c) (acc14_eq m c) (acc15_eq m c) (acc16_eq m c)).trans ?_
  unfold outK
  rw [sum_halves fun r => wgtK (argsOf m c) r, sum_halves fun r => wgtK (argsOf m c) r * nllK (argsOf m c) r,
    sum_halves fun r => maskF (argsOf m c) r,
    sum_halves fun r => biasDist (argsOf m c) (hK (argsOf m c)) r * maskF (argsOf m c) r,
    sum_halves fun r => cosK (argsOf m c) r * maskF (argsOf m c) r]

end Cert.KernelIdeal.Val

end
-- ==== Proof.Ref.Ops.lean ====
import proofs.«423175_j2508260901476_3_alg».proof.ReferenceIdeal
import Idealize.ShloMosaic.Lib.StableHlo.Run

noncomputable section

namespace Cert.ReferenceIdeal.Hand

open Idealize.ShloMosaic Idealize.SL.Sem

variable {F : FTy → Type} [FloatOps F] [Facts]
open Facts₀ Facts

/-- The reference's 175 operations in program order (a call stands as the called function's operations), cut where the term is cut. -/
abbrev opsA : List (HloOp τ sig (Elt F)) :=
  [ StableHlo.binary main_arg0 main_arg5 main_v0 (fun l r => Host.dotGeneral dot_S1048576x64_S64x64_S1048576x64_1_0_0_1_n_n none l r),
    StableHlo.unary main_arg6 main_v1 (broadcastInDim S1x64 ![1] bcast_S64_S1x64_1),
    StableHlo.unary main_v1 main_v2 (broadcastInDim S1048576x64 ![0, 1] bcast_S1x64_S1048576x64_0_1),
    StableHlo.binary main_v0 main_v2 main_v3 addf,
    StableHlo.nullary main_cst (constant S_ .f32 0x00000000#32),
    StableHlo.binary main_v3 main_cst main_v4 (fun x v => Host.reduceAdd x v reducesTo_S1048576x64_S64_d0 h_S_),
    StableHlo.nullary main_cst_0 (constant S_ .f32 0x49800000#32),
    StableHlo.unary main_cst_0 main_v5 (broadcastInDim S64 ![] bcast_S_S64),
    StableHlo.binary main_v4 main_v5 main_v6 Host.divf,
    StableHlo.nullary main_c (constantI S_ 32 0#32),
    StableHlo.nullary main_call0_cst (constant S_ .f32 0x00000000#32),
    StableHlo.binary main_v3 main_call0_cst main_call0_v0 (fun x v => Host.reduceAdd x v reducesTo_S1048576x64_S64_d0 h_S_),
    StableHlo.unary main_call0_v0 main_call0_v1 (broadcastInDim S1x64 ![1] bcast_S64_S1x64_1),
    StableHlo.nullary main_call0_cst_0 (constant S_ .f32 0x49800000#32),
    StableHlo.unary main_call0_cst_0 main_call0_v2 (broadcastInDim S1x64 ![] bcast_S_S1x64),
    StableHlo.binary main_call0_v1 main_call0_v2 main_call0_v3 Host.divf,
    StableHlo.unary main_call0_v3 main_call0_v4 (broadcastInDim S1048576x64 ![0, 1] bcast_S1x64_S1048576x64_0_1),
    StableHlo.binary main_v3 main_call0_v4 main_call0_v5 subf,
    StableHlo.binary main_call0_v5 main_call0_v5 main_call0_v6 mulf,
    StableHlo.unary main_c main_call0_v7 (sitofp .f32),
    StableHlo.nullary main_call0_cst_1 (constant S_ .f32 0x49800000#32),
    StableHlo.binary main_call0_cst_1 main_call0_v7 main_call0_v8 subf,
    StableHlo.nullary main_call0_cst_2 (constant S_ .f32 0x00000000#32),
    StableHlo.binary main_call0_v6 main_call0_cst_2 main_call0_v9 (fun x v => Host.reduceAdd x v reducesTo_S1048576x64_S64_d0 h_S_),
    StableHlo.unary main_call0_v8 main_call0_v10 (broadcastInDim S64 ![] bcast_S_S64),
    StableHlo.binary main_call0_v9 main_call0_v10 main_call0_v11 Host.divf,
    StableHlo.nullary main_call0_cst_3 (constant S_ .f32 0x00000000#32),
    StableHlo.binary main_call0_v8 main_call0_cst_3 main_call0_v12 (cmpf .ogt),
    StableHlo.nullary main_call0_cst_4 (constant S_ .f32 0x7FC00000#32),
    StableHlo.unary main_call0_cst_4 main_call0_call0_v0 id,
    StableHlo.unary main_call0_call0_v0 main_call0_call0_v1 (broadcastInDim S64 ![] bcast_S_S64),
    StableHlo.ternary main_call0_v12 main_call0_v11 main_call0_call0_v1 main_v7 (fun p a b => select (broadcastInDim S64 ![] bcast_S_S64 p) a b) ]

abbrev opsB : List (HloOp τ sig (Elt F)) :=
  [ StableHlo.unary main_v6 main_v8 (broadcastInDim S1x64 ![1] bcast_S64_S1x64_1),
    StableHlo.unary main_v8 main_v9 (broadcastInDim S1048576x64 ![0, 1] bcast_S1x64_S1048576x64_0_1),
    StableHlo.binary main_v3 main_v9 main_v10 subf,
    StableHlo.nullary main_cst_1 (constant S_ .f32 0x3A83126F#32),
    StableHlo.unary main_cst_1 main_v11 (broadcastInDim S64 ![] bcast_S_S64),
    StableHlo.binary main_v7 main_v11 main_v12 addf,
    StableHlo.unary main_v12 main_v13 Host.rsqrt,
    StableHlo.unary main_v13 main_v14 (broadcastInDim S1x64 ![1] bcast_S64_S1x64_1),
    StableHlo.unary main_v14 main_v15 (broadcastInDim S1048576x64 ![0, 1] bcast_S1x64_S1048576x64_0_1),
    StableHlo.binary main_v10 main_v15 main_v16 mulf,
    StableHlo.unary main_arg7 main_v17 (broadcastInDim S1x64 ![1] bcast_S64_S1x64_1),
    StableHlo.unary main_v17 main_v18 (broadcastInDim S1048576x64 ![0, 1] bcast_S1x64_S1048576x64_0_1),
    StableHlo.binary main_v16 main_v18 main_v19 mulf,
    StableHlo.unary main_arg8 main_v20 (broadcastInDim S1x64 ![1] bcast_S64_S1x64_1),
    StableHlo.unary main_v20 main_v21 (broadcastInDim S1048576x64 ![0, 1] bcast_S1x64_S1048576x64_0_1),
    StableHlo.binary main_v19 main_v21 main_v22 addf,
    StableHlo.nullary main_call1_cst (constant S_ .f32 0x00000000#32),
    StableHlo.unary main_call1_cst main_call1_v0 (broadcastInDim S1048576x64 ![] bcast_S_S1048576x64),
    StableHlo.binary main_v22 main_call1_v0 main_v23 maximumf,
    StableHlo.binary main_v23 main_arg9 main_v24 (fun l r => Host.dotGeneral dot_S1048576x64_S64x3_S1048576x3_1_0_0_1_n_n none l r),
    StableHlo.unary main_arg10 main_v25 (broadcastInDim S1x3 ![1] bcast_S3_S1x3_1),
    StableHlo.unary main_v25 main_v26 (broadcastInDim S1048576x3 ![0, 1] bcast_S1x3_S1048576x3_0_1),
    StableHlo.binary main_v24 main_v26 main_v27 addf,
    StableHlo.binary main_arg0 main_arg11 main_v28 (fun l r => Host.dotGeneral dot_S1048576x64_S64x20_S1048576x20_1_0_0_1_n_n none l r),
    StableHlo.unary main_arg12 main_v29 (broadcastInDim S1x20 ![1] bcast_S20_S1x20_1),
    StableHlo.unary main_v29 main_v30 (broadcastInDim S1048576x20 ![0, 1] bcast_S1x20_S1048576x20_0_1),
    StableHlo.binary main_v28 main_v30 main_v31 addf,
    StableHlo.nullary main_c_2 (constantI S_ 32 4294967295#32),
    StableHlo.unary main_c_2 main_v32 (broadcastInDim S1048576 ![] bcast_S_S1048576),
    StableHlo.binary main_arg2 main_v32 main_v33 (cmpi .ne),
    StableHlo.nullary main_c_3 (constantI S_ 32 0#32),
    StableHlo.unary main_c_3 main_call2_v0 id,
    StableHlo.unary main_call2_v0 main_call2_v1 (broadcastInDim S1048576 ![] bcast_S_S1048576),
    StableHlo.ternary main_v33 main_arg2 main_call2_v1 main_v34 select ]

abbrev opsC : List (HloOp τ sig (Elt F)) :=
  [ StableHlo.nullary main_call3_cst (constant S_ .f32 0xFF800000#32),
    StableHlo.binary main_v31 main_call3_cst main_call3_v0 (fun x v => Host.reduce FloatOps.maximumf x v reducesTo_S1048576x20_S1048576_d1 h_S_),
    StableHlo.nullary main_call3_cst_0 (constant S_ .f32 0xFF800000#32),
    StableHlo.unary main_call3_cst_0 main_call3_v1 (broadcastInDim S1048576 ![] bcast_S_S1048576),
    StableHlo.binary main_call3_v1 main_call3_v0 main_call3_v2 maximumf,
    StableHlo.unary main_call3_v2 main_call3_v3 (broadcastInDim S1048576x1 ![0] bcast_S1048576_S1048576x1_0),
    StableHlo.unary main_call3_v3 main_call3_v4 (broadcastInDim S1048576x20 ![0, 1] bcast_S1048576x1_S1048576x20_0_1),
    StableHlo.binary main_v31 main_call3_v4 main_call3_v5 subf,
    StableHlo.unary main_call3_v5 main_call3_v6 Host.exp,
    StableHlo.nullary main_call3_cst_1 (constant S_ .f32 0x00000000#32),
    StableHlo.binary main_call3_v6 main_call3_cst_1 main_call3_v7 (fun x v => Host.reduceAdd x v reducesTo_S1048576x20_S1048576_d1 h_S_),
    StableHlo.unary main_call3_v7 main_call3_v8 (broadcastInDim S1048576x1 ![0] bcast_S1048576_S1048576x1_0),
    StableHlo.unary main_call3_v8 main_call3_v9 Host.log,
    StableHlo.unary main_call3_v9 main_call3_v10 (broadcastInDim S1048576x20 ![0, 1] bcast_S1048576x1_S1048576x20_0_1),
    StableHlo.binary main_call3_v5 main_call3_v10 main_v35 subf,
    StableHlo.unary main_v34 main_v36 (broadcastInDim S1048576x1 ![0] bcast_S1048576_S1048576x1_0),
    StableHlo.nullary main_call4_c (constantI S_ 32 0#32),
    StableHlo.unary main_call4_c main_call4_v0 (broadcastInDim S1048576x1 ![] bcast_S_S1048576x1),
    StableHlo.binary main_v36 main_call4_v0 main_call4_v1 (cmpi .slt),
    StableHlo.nullary main_call4_c_0 (constantI S_ 32 20#32),
    StableHlo.unary main_call4_c_0 main_call4_v2 (broadcastInDim S1048576x1 ![] bcast_S_S1048576x1),
    StableHlo.binary main_v36 main_call4_v2 main_call4_v3 addi,
    StableHlo.ternary main_call4_v1 main_call4_v3 main_v36 main_call4_v4 select,
    StableHlo.reshape main_call4_v4 main_call4_v5 rfl shapeCasts_S1048576x1_S1048576x1x1,
    StableHlo.nullary main_call4_c_1 (constantI S1 32 19#32),
    StableHlo.nullary main_call4_c_2 (constantI S_ 32 0#32),
    StableHlo.unary main_call4_c_2 main_call4_v6 (broadcastInDim S1048576x1x1 ![] bcast_S_S1048576x1x1),
    StableHlo.binary main_call4_v5 main_call4_v6 main_call4_v7 (cmpi .sge),
    StableHlo.unary main_call4_c_1 main_call4_v8 (broadcastInDim S1x1x1 ![2] bcast_S1_S1x1x1_2),
    StableHlo.unary main_call4_v8 main_call4_v9 (broadcastInDim S1048576x1x1 ![0, 1, 2] bcast_S1x1x1_S1048576x1x1_0_1_2),
    StableHlo.binary main_call4_v5 main_call4_v9 main_call4_v10 (cmpi .sle),
    StableHlo.binary main_call4_v7 main_call4_v10 main_call4_v11 andi,
    StableHlo.nullary main_call4_c_3 (constantI S_ 1 1#1),
    StableHlo.binary main_call4_v11 main_call4_c_3 main_call4_v12 (fun x v => Host.reduce IntOp.andi x v reducesTo_S1048576x1x1_S1048576x1_d2 h_S_),
    StableHlo.binary main_v35 main_call4_v5 main_call4_v13 (fun x i => Host.gather gather_S1048576x20_S1048576x1x1_S1048576x1_n_1_0_0_1_2_11 x i),
    StableHlo.nullary main_call4_cst (constant S_ .f32 0x7FC00000#32),
    StableHlo.unary main_call4_cst main_call4_v14 (broadcastInDim S1048576x1 ![] bcast_S_S1048576x1),
    StableHlo.ternary main_call4_v12 main_call4_v13 main_call4_v14 main_v37 select ]

abbrev opsD : List (HloOp τ sig (Elt F)) :=
  [ StableHlo.reshape main_v37 main_v38 rfl shapeCasts_S1048576x1_S1048576,
    StableHlo.unary main_v38 main_v39 Host.negf,
    StableHlo.nullary main_c_4 (constantI S_ 32 0#32),
    StableHlo.unary main_c_4 main_v40 (broadcastInDim S1048576 ![] bcast_S_S1048576),
    StableHlo.binary main_v34 main_v40 main_v41 (cmpi .slt),
    StableHlo.nullary main_c_5 (constantI S_ 32 20#32),
    StableHlo.unary main_c_5 main_v42 (broadcastInDim S1048576 ![] bcast_S_S1048576),
    StableHlo.binary main_v34 main_v42 main_v43 addi,
    StableHlo.ternary main_v41 main_v43 main_v34 main_v44 select,
    StableHlo.unary main_v44 main_v45 (broadcastInDim S1048576x1 ![0] bcast_S1048576_S1048576x1_0),
    StableHlo.binary main_arg13 main_v45 main_v46 (fun x i => Host.gather gather_S20_S1048576x1_S1048576_n_0_n_n_0_1_1 x i),
    StableHlo.unary main_v33 main_v47 (uitofp .f32),
    StableHlo.binary main_v46 main_v47 main_v48 mulf,
    StableHlo.binary main_v48 main_v39 main_v49 mulf,
    StableHlo.nullary main_cst_6 (constant S_ .f32 0x00000000#32),
    StableHlo.binary main_v49 main_cst_6 main_v50 (fun x v => Host.reduceAdd x v reducesTo_S1048576_S_d0 h_S_),
    StableHlo.nullary main_cst_7 (constant S_ .f32 0x00000000#32),
    StableHlo.binary main_v48 main_cst_7 main_v51 (fun x v => Host.reduceAdd x v reducesTo_S1048576_S_d0 h_S_),
    StableHlo.binary main_v50 main_v51 main_v52 Host.divf,
    StableHlo.nullary main_c_8 (constantI S_ 32 4294967295#32),
    StableHlo.unary main_c_8 main_v53 (broadcastInDim S1048576 ![] bcast_S_S1048576),
    StableHlo.binary main_arg3 main_v53 main_v54 (cmpi .ne),
    StableHlo.unary main_v54 main_v55 (uitofp .f32),
    StableHlo.nullary main_cst_9 (constant S_ .f32 0x00000000#32),
    StableHlo.binary main_v55 main_cst_9 main_v56 (fun x v => Host.reduceAdd x v reducesTo_S1048576_S_d0 h_S_),
    StableHlo.nullary main_cst_10 (constant S_ .f32 0x322BCC77#32),
    StableHlo.binary main_v56 main_cst_10 main_v57 addf,
    StableHlo.binary main_arg4 main_arg1 main_v58 subf,
    StableHlo.binary main_v27 main_v58 main_v59 subf,
    StableHlo.unary main_v59 main_v60 Host.absf,
    StableHlo.nullary main_cst_11 (constant S_ .f32 0x00000000#32),
    StableHlo.binary main_v60 main_cst_11 main_v61 (fun x v => Host.reduceAdd x v reducesTo_S1048576x3_S1048576_d1 h_S_),
    StableHlo.binary main_v61 main_v55 main_v62 mulf,
    StableHlo.nullary main_cst_12 (constant S_ .f32 0x00000000#32),
    StableHlo.binary main_v62 main_cst_12 main_v63 (fun x v => Host.reduceAdd x v reducesTo_S1048576_S_d0 h_S_),
    StableHlo.binary main_v63 main_v57 main_v64 Host.divf ]

abbrev opsE : List (HloOp τ sig (Elt F)) :=
  [ StableHlo.binary main_v27 main_v27 main_call5_v0 mulf,
    StableHlo.nullary main_call5_cst (constant S_ .f32 0x00000000#32),
    StableHlo.binary main_call5_v0 main_call5_cst main_call5_v1 (fun x v => Host.reduceAdd x v reducesTo_S1048576x3_S1048576_d1 h_S_),
    StableHlo.unary main_call5_v1 main_call5_v2 (broadcastInDim S1048576x1 ![0] bcast_S1048576_S1048576x1_0),
    StableHlo.unary main_call5_v2 main_v65 Host.sqrt,
    StableHlo.nullary main_cst_13 (constant S_ .f32 0x322BCC77#32),
    StableHlo.unary main_cst_13 main_v66 (broadcastInDim S1048576x1 ![] bcast_S_S1048576x1),
    StableHlo.binary main_v65 main_v66 main_v67 addf,
    StableHlo.unary main_v67 main_v68 (broadcastInDim S1048576x3 ![0, 1] bcast_S1048576x1_S1048576x3_0_1),
    StableHlo.binary main_v27 main_v68 main_v69 Host.divf,
    StableHlo.binary main_v58 main_v58 main_call6_v0 mulf,
    StableHlo.nullary main_call6_cst (constant S_ .f32 0x00000000#32),
    StableHlo.binary main_call6_v0 main_call6_cst main_call6_v1 (fun x v => Host.reduceAdd x v reducesTo_S1048576x3_S1048576_d1 h_S_),
    StableHlo.unary main_call6_v1 main_call6_v2 (broadcastInDim S1048576x1 ![0] bcast_S1048576_S1048576x1_0),
    StableHlo.unary main_call6_v2 main_v70 Host.sqrt,
    StableHlo.nullary main_cst_14 (constant S_ .f32 0x322BCC77#32),
    StableHlo.unary main_cst_14 main_v71 (broadcastInDim S1048576x1 ![] bcast_S_S1048576x1),
    StableHlo.binary main_v70 main_v71 main_v72 addf,
    StableHlo.unary main_v72 main_v73 (broadcastInDim S1048576x3 ![0, 1] bcast_S1048576x1_S1048576x3_0_1),
    StableHlo.binary main_v58 main_v73 main_v74 Host.divf,
    StableHlo.binary main_v69 main_v74 main_v75 mulf,
    StableHlo.nullary main_cst_15 (constant S_ .f32 0x00000000#32),
    StableHlo.binary main_v75 main_cst_15 main_v76 (fun x v => Host.reduceAdd x v reducesTo_S1048576x3_S1048576_d1 h_S_),
    StableHlo.unary main_v76 main_v77 Host.negf,
    StableHlo.binary main_v77 main_v55 main_v78 mulf,
    StableHlo.nullary main_cst_16 (constant S_ .f32 0x00000000#32),
    StableHlo.binary main_v78 main_cst_16 main_v79 (fun x v => Host.reduceAdd x v reducesTo_S1048576_S_d0 h_S_),
    StableHlo.binary main_v79 main_v57 main_v80 Host.divf,
    StableHlo.binary main_v52 main_v64 main_v81 addf,
    StableHlo.binary main_v81 main_v80 main_v82 addf,
    StableHlo.unary main_v82 main_v83 (broadcastInDim S1 ![] bcast_S_S1),
    StableHlo.unary main_v52 main_v84 (broadcastInDim S1 ![] bcast_S_S1),
    StableHlo.unary main_v64 main_v85 (broadcastInDim S1 ![] bcast_S_S1),
    StableHlo.unary main_v80 main_v86 (broadcastInDim S1 ![] bcast_S_S1),
    StableHlo.nary ![main_v83, main_v84, main_v85, main_v86] main_v87 (fun u => concatenate S4 0 [⟨S1, u 0⟩, ⟨S1, u 1⟩, ⟨S1, u 2⟩, ⟨S1, u 3⟩] concatenates_S1_S1_S1_S1_S4_d0) ]

abbrev ops : List (HloOp τ sig (Elt F)) :=
  opsA ++ (opsB ++ (opsC ++ (opsD ++ opsE)))

end Cert.ReferenceIdeal.Hand

end
-- ==== Proof.Ref.Term.lean ====
import proofs.«423175_j2508260901476_3_alg».proof.ReferenceIdeal

noncomputable section

namespace Cert.ReferenceIdeal.Hand

open Idealize.ShloMosaic Idealize.SL.Sem

variable [Facts]
open Facts₀ Facts

/-- The two offsets' lengths, the cosine terms with their masked mean, and the four results laid end to end. -/
def refTermE {F : FTy → Type} [FloatOps F] (main_v27 : FVec F S1048576x3 .f32) (main_v52 : FVec F S_ .f32) (main_v55 : FVec F S1048576 .f32) (main_v57 : FVec F S_ .f32) (main_v58 : FVec F S1048576x3 .f32) (main_v64 : FVec F S_ .f32) : FVec F S4 .f32 :=
  let main_call5_v0 := mulf main_v27 main_v27
  let main_call5_cst := constant S_ .f32 0x00000000#32
  let main_call5_v1 := (fun x v => Host.reduceAdd x v reducesTo_S1048576x3_S1048576_d1 h_S_) main_call5_v0 main_call5_cst
  let main_call5_v2 := (broadcastInDim S1048576x1 ![0] bcast_S1048576_S1048576x1_0) main_call5_v1
  let main_v65 := Host.sqrt main_call5_v2
  let main_cst_13 := constant S_ .f32 0x322BCC77#32
  let main_v66 := broadcastInDim S1048576x1 ![] bcast_S_S1048576x1 main_cst_13
  let main_v67 := addf main_v65 main_v66
  let main_v68 := broadcastInDim S1048576x3 ![0, 1] bcast_S1048576x1_S1048576x3_0_1 main_v67
  let main_v69 := Host.divf main_v27 main_v68
  let main_call6_v0 := mulf main_v58 main_v58
  let main_call6_cst := constant S_ .f32 0x00000000#32
  let main_call6_v1 := (fun x v => Host.reduceAdd x v reducesTo_S1048576x3_S1048576_d1 h_S_) main_call6_v0 main_call6_cst
  let main_call6_v2 := (broadcastInDim S1048576x1 ![0] bcast_S1048576_S1048576x1_0) main_call6_v1
  let main_v70 := Host.sqrt main_call6_v2
  let main_cst_14 := constant S_ .f32 0x322BCC77#32
  let main_v71 := broadcastInDim S1048576x1 ![] bcast_S_S1048576x1 main_cst_14
  let main_v72 := addf main_v70 main_v71
  let main_v73 := broadcastInDim S1048576x3 ![0, 1] bcast_S1048576x1_S1048576x3_0_1 main_v72
  let main_v74 := Host.divf main_v58 main_v73
  let main_v75 := mulf main_v69 main_v74
  let main_cst_15 := constant S_ .f32 0x00000000#32
  let main_v76 := (fun x v => Host.reduceAdd x v reducesTo_S1048576x3_S1048576_d1 h_S_) main_v75 main_cst_15
  let main_v77 := Host.negf main_v76
  let main_v78 := mulf main_v77 main_v55
  let main_cst_16 := constant S_ .f32 0x00000000#32
  let main_v79 := (fun x v => Host.reduceAdd x v reducesTo_S1048576_S_d0 h_S_) main_v78 main_cst_16
  let main_v80 := Host.divf main_v79 main_v57
  let main_v81 := addf main_v52 main_v64
  let main_v82 := addf main_v81 main_v80
  let main_v83 := broadcastInDim S1 ![] bcast_S_S1 main_v82
  let main_v84 := broadcastInDim S1 ![] bcast_S_S1 main_v52
  let main_v85 := broadcastInDim S1 ![] bcast_S_S1 main_v64
  let main_v86 := broadcastInDim S1 ![] bcast_S_S1 main_v80
  let main_v87 := concatenate S4 0 [⟨S1, main_v83⟩, ⟨S1, main_v84⟩, ⟨S1, main_v85⟩, ⟨S1, main_v86⟩] concatenates_S1_S1_S1_S1_S4_d0
  main_v87

/-- The class-weighted cross-entropy, the instance mask with its sum plus 1e-8, the target offsets and the masked L1 mean. -/
def refTermD {F : FTy → Type} [FloatOps F] (main_arg1 : FVec F S1048576x3 .f32) (main_arg3 : IVec S1048576 32) (main_arg4 : FVec F S1048576x3 .f32) (main_arg13 : FVec F S20 .f32) (main_v27 : FVec F S1048576x3 .f32) (main_v33 : IVec S1048576 1) (main_v34 : IVec S1048576 32) (main_v37 : FVec F S1048576x1 .f32) : FVec F S4 .f32 :=
  let main_v38 := shapeCast S1048576 main_v37 shapeCasts_S1048576x1_S1048576
  let main_v39 := Host.negf main_v38
  let main_c_4 := constantI S_ 32 0#32
  let main_v40 := broadcastInDim S1048576 ![] bcast_S_S1048576 main_c_4
  let main_v41 := cmpi .slt main_v34 main_v40
  let main_c_5 := constantI S_ 32 20#32
  let main_v42 := broadcastInDim S1048576 ![] bcast_S_S1048576 main_c_5
  let main_v43 := addi main_v34 main_v42
  let main_v44 := select main_v41 main_v43 main_v34
  let main_v45 := broadcastInDim S1048576x1 ![0] bcast_S1048576_S1048576x1_0 main_v44
  let main_v46 := (fun x i => Host.gather gather_S20_S1048576x1_S1048576_n_0_n_n_0_1_1 x i) main_arg13 main_v45
  let main_v47 := uitofp .f32 main_v33
  let main_v48 := mulf main_v46 main_v47
  let main_v49 := mulf main_v48 main_v39
  let main_cst_6 := constant S_ .f32 0x00000000#32
  let main_v50 := (fun x v => Host.reduceAdd x v reducesTo_S1048576_S_d0 h_S_) main_v49 main_cst_6
  let main_cst_7 := constant S_ .f32 0x00000000#32
  let main_v51 := (fun x v => Host.reduceAdd x v reducesTo_S1048576_S_d0 h_S_) main_v48 main_cst_7
  let main_v52 := Host.divf main_v50 main_v51
  let main_c_8 := constantI S_ 32 4294967295#32
  let main_v53 := broadcastInDim S1048576 ![] bcast_S_S1048576 main_c_8
  let main_v54 := cmpi .ne main_arg3 main_v53
  let main_v55 := uitofp .f32 main_v54
  let main_cst_9 := constant S_ .f32 0x00000000#32
  let main_v56 := (fun x v => Host.reduceAdd x v reducesTo_S1048576_S_d0 h_S_) main_v55 main_cst_9
  let main_cst_10 := constant S_ .f32 0x322BCC77#32
  let main_v57 := addf main_v56 main_cst_10
  let main_v58 := subf main_arg4 main_arg1
  let main_v59 := subf main_v27 main_v58
  let main_v60 := Host.absf main_v59
  let main_cst_11 := constant S_ .f32 0x00000000#32
  let main_v61 := (fun x v => Host.reduceAdd x v reducesTo_S1048576x3_S1048576_d1 h_S_) main_v60 main_cst_11
  let main_v62 := mulf main_v61 main_v55
  let main_cst_12 := constant S_ .f32 0x00000000#32
  let main_v63 := (fun x v => Host.reduceAdd x v reducesTo_S1048576_S_d0 h_S_) main_v62 main_cst_12
  let main_v64 := Host.divf main_v63 main_v57
  refTermE (F := F) main_v27 main_v52 main_v55 main_v57 main_v58 main_v64

/-- The log-softmax along a row and its entry at the target class. -/
def refTermC {F : FTy → Type} [FloatOps F] (main_arg1 : FVec F S1048576x3 .f32) (main_arg3 : IVec S1048576 32) (main_arg4 : FVec F S1048576x3 .f32) (main_arg13 : FVec F S20 .f32) (main_v27 : FVec F S1048576x3 .f32) (main_v31 : FVec F S1048576x20 .f32) (main_v33 : IVec S1048576 1) (main_v34 : IVec S1048576 32) : FVec F S4 .f32 :=
  let main_call3_cst := constant S_ .f32 0xFF800000#32
  let main_call3_v0 := (fun x v => Host.reduce FloatOps.maximumf x v reducesTo_S1048576x20_S1048576_d1 h_S_) main_v31 main_call3_cst
  let main_call3_cst_0 := constant S_ .f32 0xFF800000#32
  let main_call3_v1 := (broadcastInDim S1048576 ![] bcast_S_S1048576) main_call3_cst_0
  let main_call3_v2 := maximumf main_call3_v1 main_call3_v0
  let main_call3_v3 := (broadcastInDim S1048576x1 ![0] bcast_S1048576_S1048576x1_0) main_call3_v2
  let main_call3_v4 := (broadcastInDim S1048576x20 ![0, 1] bcast_S1048576x1_S1048576x20_0_1) main_call3_v3
  let main_call3_v5 := subf main_v31 main_call3_v4
  let main_call3_v6 := Host.exp main_call3_v5
  let main_call3_cst_1 := constant S_ .f32 0x00000000#32
  let main_call3_v7 := (fun x v => Host.reduceAdd x v reducesTo_S1048576x20_S1048576_d1 h_S_) main_call3_v6 main_call3_cst_1
  let main_call3_v8 := (broadcastInDim S1048576x1 ![0] bcast_S1048576_S1048576x1_0) main_call3_v7
  let main_call3_v9 := Host.log main_call3_v8
  let main_call3_v10 := (broadcastInDim S1048576x20 ![0, 1] bcast_S1048576x1_S1048576x20_0_1) main_call3_v9
  let main_v35 := subf main_call3_v5 main_call3_v10
  let main_v36 := broadcastInDim S1048576x1 ![0] bcast_S1048576_S1048576x1_0 main_v34
  let main_call4_c := constantI S_ 32 0#32
  let main_call4_v0 := (broadcastInDim S1048576x1 ![] bcast_S_S1048576x1) main_call4_c
  let main_call4_v1 := (cmpi .slt) main_v36 main_call4_v0
  let main_call4_c_0 := constantI S_ 32 20#32
  let main_call4_v2 := (broadcastInDim S1048576x1 ![] bcast_S_S1048576x1) main_call4_c_0
  let main_call4_v3 := addi main_v36 main_call4_v2
  let main_call4_v4 := select main_call4_v1 main_call4_v3 main_v36
  let main_call4_v5 := shapeCast S1048576x1x1 main_call4_v4 shapeCasts_S1048576x1_S1048576x1x1
  let main_call4_c_1 := constantI S1 32 19#32
  let main_call4_c_2 := constantI S_ 32 0#32
  let main_call4_v6 := (broadcastInDim S1048576x1x1 ![] bcast_S_S1048576x1x1) main_call4_c_2
  let main_call4_v7 := (cmpi .sge) main_call4_v5 main_call4_v6
  let main_call4_v8 := (broadcastInDim S1x1x1 ![2] bcast_S1_S1x1x1_2) main_call4_c_1
  let main_call4_v9 := (broadcastInDim S1048576x1x1 ![0, 1, 2] bcast_S1x1x1_S1048576x1x1_0_1_2) main_call4_v8
  let main_call4_v10 := (cmpi .sle) main_call4_v5 main_call4_v9
  let main_call4_v11 := andi main_call4_v7 main_call4_v10
  let main_call4_c_3 := constantI S_ 1 1#1
  let main_call4_v12 := (fun x v => Host.reduce IntOp.andi x v reducesTo_S1048576x1x1_S1048576x1_d2 h_S_) main_call4_v11 main_call4_c_3
  let main_call4_v13 := (fun x i => Host.gather gather_S1048576x20_S1048576x1x1_S1048576x1_n_1_0_0_1_2_11 x i) main_v35 main_call4_v5
  let main_call4_cst := constant S_ .f32 0x7FC00000#32
  let main_call4_v14 := (broadcastInDim S1048576x1 ![] bcast_S_S1048576x1) main_call4_cst
  let main_v37 := select main_call4_v12 main_call4_v13 main_call4_v14
  refTermD (F := F) main_arg1 main_arg3 main_arg4 main_arg13 main_v27 main_v33 main_v34 main_v37

/-- The normalised layer after the maximum with 0, the two linear heads, the label bit and the target class. -/
def refTermB {F : FTy → Type} [FloatOps F] (main_arg0 : FVec F S1048576x64 .f32) (main_arg1 : FVec F S1048576x3 .f32) (main_arg2 : IVec S1048576 32) (main_arg3 : IVec S1048576 32) (main_arg4 : FVec F S1048576x3 .f32) (main_arg7 : FVec F S64 .f32) (main_arg8 : FVec F S64 .f32) (main_arg9 : FVec F S64x3 .f32) (main_arg10 : FVec F S3 .f32) (main_arg11 : FVec F S64x20 .f32) (main_arg12 : FVec F S20 .f32) (main_arg13 : FVec F S20 .f32) (main_v3 : FVec F S1048576x64 .f32) (main_v6 : FVec F S64 .f32) (main_v7 : FVec F S64 .f32) : FVec F S4 .f32 :=
  let main_v8 := broadcastInDim S1x64 ![1] bcast_S64_S1x64_1 main_v6
  let main_v9 := broadcastInDim S1048576x64 ![0, 1] bcast_S1x64_S1048576x64_0_1 main_v8
  let main_v10 := subf main_v3 main_v9
  let main_cst_1 := constant S_ .f32 0x3A83126F#32
  let main_v11 := broadcastInDim S64 ![] bcast_S_S64 main_cst_1
  let main_v12 := addf main_v7 main_v11
  let main_v13 := Host.rsqrt main_v12
  let main_v14 := broadcastInDim S1x64 ![1] bcast_S64_S1x64_1 main_v13
  let main_v15 := broadcastInDim S1048576x64 ![0, 1] bcast_S1x64_S1048576x64_0_1 main_v14
  let main_v16 := mulf main_v10 main_v15
  let main_v17 := broadcastInDim S1x64 ![1] bcast_S64_S1x64_1 main_arg7
  let main_v18 := broadcastInDim S1048576x64 ![0, 1] bcast_S1x64_S1048576x64_0_1 main_v17
  let main_v19 := mulf main_v16 main_v18
  let main_v20 := broadcastInDim S1x64 ![1] bcast_S64_S1x64_1 main_arg8
  let main_v21 := broadcastInDim S1048576x64 ![0, 1] bcast_S1x64_S1048576x64_0_1 main_v20
  let main_v22 := addf main_v19 main_v21
  let main_call1_cst := constant S_ .f32 0x00000000#32
  let main_call1_v0 := (broadcastInDim S1048576x64 ![] bcast_S_S1048576x64) main_call1_cst
  let main_v23 := maximumf main_v22 main_call1_v0
  let main_v24 := (fun l r => Host.dotGeneral dot_S1048576x64_S64x3_S1048576x3_1_0_0_1_n_n none l r) main_v23 main_arg9
  let main_v25 := broadcastInDim S1x3 ![1] bcast_S3_S1x3_1 main_arg10
  let main_v26 := broadcastInDim S1048576x3 ![0, 1] bcast_S1x3_S1048576x3_0_1 main_v25
  let main_v27 := addf main_v24 main_v26
  let main_v28 := (fun l r => Host.dotGeneral dot_S1048576x64_S64x20_S1048576x20_1_0_0_1_n_n none l r) main_arg0 main_arg11
  let main_v29 := broadcastInDim S1x20 ![1] bcast_S20_S1x20_1 main_arg12
  let main_v30 := broadcastInDim S1048576x20 ![0, 1] bcast_S1x20_S1048576x20_0_1 main_v29
  let main_v31 := addf main_v28 main_v30
  let main_c_2 := constantI S_ 32 4294967295#32
  let main_v32 := broadcastInDim S1048576 ![] bcast_S_S1048576 main_c_2
  let main_v33 := cmpi .ne main_arg2 main_v32
  let main_c_3 := constantI S_ 32 0#32
  let main_call2_v0 := id main_c_3
  let main_call2_v1 := (broadcastInDim S1048576 ![] bcast_S_S1048576) main_call2_v0
  let main_v34 := select main_v33 main_arg2 main_call2_v1
  refTermC (F := F) main_arg1 main_arg3 main_arg4 main_arg13 main_v27 main_v31 main_v33 main_v34

/-- The first linear layer, its column means and its column variances. -/
def refTermA {F : FTy → Type} [FloatOps F] (main_arg0 : FVec F S1048576x64 .f32) (main_arg1 : FVec F S1048576x3 .f32) (main_arg2 : IVec S1048576 32) (main_arg3 : IVec S1048576 32) (main_arg4 : FVec F S1048576x3 .f32) (main_arg5 : FVec F S64x64 .f32) (main_arg6 : FVec F S64 .f32) (main_arg7 : FVec F S64 .f32) (main_arg8 : FVec F S64 .f32) (main_arg9 : FVec F S64x3 .f32) (main_arg10 : FVec F S3 .f32) (main_arg11 : FVec F S64x20 .f32) (main_arg12 : FVec F S20 .f32) (main_arg13 : FVec F S20 .f32) : FVec F S4 .f32 :=
  let main_v0 := (fun l r => Host.dotGeneral dot_S1048576x64_S64x64_S1048576x64_1_0_0_1_n_n none l r) main_arg0 main_arg5
  let main_v1 := broadcastInDim S1x64 ![1] bcast_S64_S1x64_1 main_arg6
  let main_v2 := broadcastInDim S1048576x64 ![0, 1] bcast_S1x64_S1048576x64_0_1 main_v1
  let main_v3 := addf main_v0 main_v2
  let main_cst := constant S_ .f32 0x00000000#32
  let main_v4 := (fun x v => Host.reduceAdd x v reducesTo_S1048576x64_S64_d0 h_S_) main_v3 main_cst
  let main_cst_0 := constant S_ .f32 0x49800000#32
  let main_v5 := broadcastInDim S64 ![] bcast_S_S64 main_cst_0
  let main_v6 := Host.divf main_v4 main_v5
  let main_c := constantI S_ 32 0#32
  let main_call0_cst := constant S_ .f32 0x00000000#32
  let main_call0_v0 := (fun x v => Host.reduceAdd x v reducesTo_S1048576x64_S64_d0 h_S_) main_v3 main_call0_cst
  let main_call0_v1 := (broadcastInDim S1x64 ![1] bcast_S64_S1x64_1) main_call0_v0
  let main_call0_cst_0 := constant S_ .f32 0x49800000#32
  let main_call0_v2 := (broadcastInDim S1x64 ![] bcast_S_S1x64) main_call0_cst_0
  let main_call0_v3 := Host.divf main_call0_v1 main_call0_v2
  let main_call0_v4 := (broadcastInDim S1048576x64 ![0, 1] bcast_S1x64_S1048576x64_0_1) main_call0_v3
  let main_call0_v5 := subf main_v3 main_call0_v4
  let main_call0_v6 := mulf main_call0_v5 main_call0_v5
  let main_call0_v7 := (sitofp .f32) main_c
  let main_call0_cst_1 := constant S_ .f32 0x49800000#32
  let main_call0_v8 := subf main_call0_cst_1 main_call0_v7
  let main_call0_cst_2 := constant S_ .f32 0x00000000#32
  let main_call0_v9 := (fun x v => Host.reduceAdd x v reducesTo_S1048576x64_S64_d0 h_S_) main_call0_v6 main_call0_cst_2
  let main_call0_v10 := (broadcastInDim S64 ![] bcast_S_S64) main_call0_v8
  let main_call0_v11 := Host.divf main_call0_v9 main_call0_v10
  let main_call0_cst_3 := constant S_ .f32 0x00000000#32
  let main_call0_v12 := (cmpf .ogt) main_call0_v8 main_call0_cst_3
  let main_call0_cst_4 := constant S_ .f32 0x7FC00000#32
  let main_call0_call0_v0 := id main_call0_cst_4
  let main_call0_call0_v1 := (broadcastInDim S64 ![] bcast_S_S64) main_call0_call0_v0
  let main_v7 := (fun p a b => select (broadcastInDim S64 ![] bcast_S_S64 p) a b) main_call0_v12 main_call0_v11 main_call0_call0_v1
  refTermB (F := F) main_arg0 main_arg1 main_arg2 main_arg3 main_arg4 main_arg7 main_arg8 main_arg9 main_arg10 main_arg11 main_arg12 main_arg13 main_v3 main_v6 main_v7

/-- The reference's value as one term of its fourteen arguments: its operations in program order, cut into five stretches. -/
def refTerm {F : FTy → Type} [FloatOps F] (a0 : FVec F S1048576x64 .f32) (a1 : FVec F S1048576x3 .f32) (a2 : IVec S1048576 32) (a3 : IVec S1048576 32) (a4 : FVec F S1048576x3 .f32) (a5 : FVec F S64x64 .f32) (a6 : FVec F S64 .f32) (a7 : FVec F S64 .f32) (a8 : FVec F S64 .f32) (a9 : FVec F S64x3 .f32) (a10 : FVec F S3 .f32) (a11 : FVec F S64x20 .f32) (a12 : FVec F S20 .f32) (a13 : FVec F S20 .f32) : FVec F S4 .f32 :=
  refTermA (F := F) a0 a1 a2 a3 a4 a5 a6 a7 a8 a9 a10 a11 a12 a13

end Cert.ReferenceIdeal.Hand

end
-- ==== Proof.Ref.Run.lean ====
import proofs.«423175_j2508260901476_3_alg».proof.Proof.Ref.Ops
import proofs.«423175_j2508260901476_3_alg».proof.Proof.Ref.Term
import Idealize.ShloMosaic.Lib.StableHlo.Run
import Idealize.ShloMosaic.Lib.Pipeline.Frame

noncomputable section

namespace Cert.ReferenceIdeal.Hand

open Idealize.ShloMosaic Idealize.ShloMosaic.TcCoe Idealize.SL.Sem Idealize.ShloMosaic.StableHlo

variable {F : FTy → Type} [FloatOps F] [Facts]
open Facts₀ Facts

attribute [local irreducible] Host.reduce Host.reduceAdd Host.gather shapeCast broadcastInDim in
set_option maxRecDepth 8192 in
set_option maxHeartbeats 4000000 in
/-- The program is the list of its operations in order: both sides unfold to the same chain of steps. -/
theorem main_eq (c : Dev nD) : main (F := F) c = seq ops := rfl

set_option maxRecDepth 8192 in
theorem scopedRefs_eq : (Finset.univ.filter fun b : Ref sig .tc => b.isScoped) = ∅ := by decide
theorem scopedSems_eq : (Finset.univ.filter fun sm : SemLoc sig => sm.isScoped .tc) = ∅ := by decide

/-- Each stretch's operations touch TensorCore buffers only. -/
theorem ops_sub : (ops : List (HloOp τ sig (Elt F))).Forall fun op => op.bufs ⊆ tcRefs τ sig := by
  simp only [ops, List.forall_append]
  refine ⟨?_, ?_, ?_, ?_, ?_⟩ <;>
    simp only [opsA, opsB, opsC, opsD, opsE, List.forall_cons, List.Forall, nullary_bufs_sub, unary_bufs_sub, binary_bufs_sub, ternary_bufs_sub, reshape_bufs_sub, nary_bufs_sub, and_self]

/-- Every operation writes a buffer that comes after the fourteen arguments. -/
theorem ops_writes : (ops : List (HloOp τ sig (Elt F))).Forall fun op =>
    ∀ r : Ref sig .tc, Proc.devRef (τ := τ) .tc r ∈ op.writes → 14 ≤ r.idx.val := by
  simp only [ops, List.forall_append]
  refine ⟨?_, ?_, ?_, ?_, ?_⟩ <;>
    (simp only [opsA, opsB, opsC, opsD, opsE, List.forall_cons, List.Forall, nullary_writes, unary_writes, binary_writes, ternary_writes,
       reshape_writes, nary_writes, Finset.mem_singleton]
     repeat' apply And.intro
     all_goals (intro r h; obtain rfl := Proc.devRef_injective _ h; decide))

/-- So an argument buffer keeps its contents through the whole line. -/
theorem keep (V : Valuation τ sig (Elt F)) (r : Ref sig .tc) (hr : r.idx.val < 14 := by decide) :
    after ops V (Proc.devRef .tc r) = V (Proc.devRef .tc r) :=
  after_of_forall_not_mem ops V fun op hop hb =>
    absurd (List.forall_iff_forall_mem.mp ops_writes op hop r hb) (Nat.not_le.mpr hr)

/-- Each stretch's term read at the buffers it takes, from contents `W`. -/
def atE (W : Valuation τ sig (Elt F)) := refTermE (F := F) (W (Proc.devRef .tc main_v27)) (W (Proc.devRef .tc main_v52)) (W (Proc.devRef .tc main_v55)) (W (Proc.devRef .tc main_v57)) (W (Proc.devRef .tc main_v58)) (W (Proc.devRef .tc main_v64))
def atD (W : Valuation τ sig (Elt F)) := refTermD (F := F) (W (Proc.devRef .tc main_arg1)) (W (Proc.devRef .tc main_arg3)) (W (Proc.devRef .tc main_arg4)) (W (Proc.devRef .tc main_arg13)) (W (Proc.devRef .tc main_v27)) (W (Proc.devRef .tc main_v33)) (W (Proc.devRef .tc main_v34)) (W (Proc.devRef .tc main_v37))
def atC (W : Valuation τ sig (Elt F)) := refTermC (F := F) (W (Proc.devRef .tc main_arg1)) (W (Proc.devRef .tc main_arg3)) (W (Proc.devRef .tc main_arg4)) (W (Proc.devRef .tc main_arg13)) (W (Proc.devRef .tc main_v27)) (W (Proc.devRef .tc main_v31)) (W (Proc.devRef .tc main_v33)) (W (Proc.devRef .tc main_v34))
def atB (W : Valuation τ sig (Elt F)) := refTermB (F := F) (W (Proc.devRef .tc main_arg0)) (W (Proc.devRef .tc main_arg1)) (W (Proc.devRef .tc main_arg2)) (W (Proc.devRef .tc main_arg3)) (W (Proc.devRef .tc main_arg4)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_v3)) (W (Proc.devRef .tc main_v6)) (W (Proc.devRef .tc main_v7))
def atA (W : Valuation τ sig (Elt F)) := refTerm (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13))

set_option maxRecDepth 8192 in
set_option maxHeartbeats 4000000 in
/-- A stretch's operations compose the same functions as its term: the next term read after the stretch is this term read before it. -/
theorem stretchE (W : Valuation τ sig (Elt F)) : after opsE W (Proc.devRef .tc main_v87) = atE W := by
  simp only [atE, opsE]
  after_results_simp <;> rfl

set_option maxRecDepth 8192 in
set_option maxHeartbeats 4000000 in
theorem stretchD (W : Valuation τ sig (Elt F)) : atE (after opsD W) = atD W := by
  simp only [atE, atD, opsD]
  after_results_simp <;> rfl

set_option maxRecDepth 8192 in
set_option maxHeartbeats 4000000 in
theorem stretchC (W : Valuation τ sig (Elt F)) : atD (after opsC W) = atC W := by
  simp only [atD, atC, opsC]
  after_results_simp <;> rfl

set_option maxRecDepth 8192 in
set_option maxHeartbeats 4000000 in
theorem stretchB (W : Valuation τ sig (Elt F)) : atC (after opsB W) = atB W := by
  simp only [atC, atB, opsB]
  after_results_simp <;> rfl

set_option maxRecDepth 8192 in
set_option maxHeartbeats 4000000 in
theorem stretchA (W : Valuation τ sig (Elt F)) : atB (after opsA W) = atA W := by
  simp only [atB, atA, opsA]
  after_results_simp <;> rfl

theorem result_eq (V : Valuation τ sig (Elt F)) : after ops V (Proc.devRef .tc main_v87) = atA V := by
  simp only [ops, after_append]
  exact (stretchE _).trans ((stretchD _).trans ((stretchC _).trans ((stretchB _).trans (stretchA V))))

/-- The straight line's final contents are the fold of its operations over the launch contents: the result buffer holds the term, an argument what it held. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v87) = refTerm (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v87).trans (result_eq (launchContents m c)),
      (h c main_arg0).trans (keep (launchContents m c) main_arg0),
      (h c main_arg1).trans (keep (launchContents m c) main_arg1),
      (h c main_arg2).trans (keep (launchContents m c) main_arg2),
      (h c main_arg3).trans (keep (launchContents m c) main_arg3),
      (h c main_arg4).trans (keep (launchContents m c) main_arg4),
      (h c main_arg5).trans (keep (launchContents m c) main_arg5),
      (h c main_arg6).trans (keep (launchContents m c) main_arg6),
      (h c main_arg7).trans (keep (launchContents m c) main_arg7),
      (h c main_arg8).trans (keep (launchContents m c) main_arg8),
      (h c main_arg9).trans (keep (launchContents m c) main_arg9),
      (h c main_arg10).trans (keep (launchContents m c) main_arg10),
      (h c main_arg11).trans (keep (launchContents m c) main_arg11),
      (h c main_arg12).trans (keep (launchContents m c) main_arg12),
      (h c main_arg13).trans (keep (launchContents m c) main_arg13)⟩)
    (run_seq scopedRefs_eq scopedSems_eq defs main (fun _ => ops) main_eq (fun _ => ops_sub) m ρ)

end Cert.ReferenceIdeal.Hand

end
-- ==== Proof.Ref.OpsRead.lean ====
import proofs.«423175_j2508260901476_3_alg».proof.Proof.Ref.Term
import proofs.«423175_j2508260901476_3_alg».proof.Proof.Spec
import Idealize.ShloMosaic.Lib.IdealHost
import Idealize.ShloMosaic.Lib.Pipeline.Value
import Idealize.ShloMosaic.PureOps.Ideal.Laws
import Idealize.ShloMosaic.Lib.StableHlo.Predicate
import Idealize.ShloMosaic.Lib.Affine
import Idealize.ShloMosaic.Lib.StackMember
import Idealize.ShloMosaic.Lib.KernelVsHost
import Idealize.ShloMosaic.Lib.ValueIdxRank1

noncomputable section

namespace Cert.ReferenceIdeal.Hand

open Idealize.ShloMosaic Idealize.ShloMosaic.ValueIdx
open scoped BigOperators

variable [Facts]
open Facts₀ Facts

/-- A plain matrix product read at an entry: the sum over the 64 contracted coordinates. -/
theorem dot_apply {N n : Nat} (d : DotDims ⟨2, ![N, 64]⟩ ⟨2, ![64, n]⟩ ⟨2, ![N, n]⟩) (hd : d = DotDims.plain N 64 n)
    (l : FVec Ideal ⟨2, ![N, 64]⟩ .f32) (r : FVec Ideal ⟨2, ![64, n]⟩ .f32) (j : (⟨2, ![N, n]⟩ : Shape).Idx) :
    Host.dotGeneral d none l r j = ∑ k : Fin 64, l (ix2 (j 0) k) * r (ix2 k (j 1)) := by
  subst hd
  rw [eq_ix2 j]
  exact StackMember.dotGeneral_plain_apply none l r (j 0) (j 1)

/-- Copying a one-row matrix down the rows keeps the column. -/
theorem bcastRows_apply {N n : Nat} {α : Type} (h : (⟨2, ![1, n]⟩ : Shape).BroadcastsInDim ⟨2, ![N, n]⟩ ![0, 1])
    (x : (⟨2, ![1, n]⟩ : Shape).Idx → α) (i : (⟨2, ![N, n]⟩ : Shape).Idx) :
    broadcastInDim ⟨2, ![N, n]⟩ ![0, 1] h x i = x (ix2 0 (i 1)) := by
  rw [eq_ix2 i]
  exact broadcastInDim_oneRow_apply h x (i 0) (i 1)

/-- A vector laid out as a one-row matrix. -/
theorem bcastAsRow_apply {n : Nat} {α : Type} (h : (⟨1, ![n]⟩ : Shape).BroadcastsInDim ⟨2, ![1, n]⟩ ![1])
    (x : (⟨1, ![n]⟩ : Shape).Idx → α) (i : (⟨2, ![1, n]⟩ : Shape).Idx) :
    broadcastInDim ⟨2, ![1, n]⟩ ![1] h x i = x (ix1 (i 1)) := by
  refine broadcastInDim_apply _ _ _ i (ix1 (i 1)) fun a => ?_
  match a with
  | ⟨0, _⟩ =>
    show (i 1).val = if n = 1 then 0 else (i 1).val
    split
    · have := idx2_lt1 i; omega
    · rfl

/-- A vector laid out as a one-column matrix. -/
theorem bcastAsCol_apply {N : Nat} {α : Type} (h : (⟨1, ![N]⟩ : Shape).BroadcastsInDim ⟨2, ![N, 1]⟩ ![0])
    (x : (⟨1, ![N]⟩ : Shape).Idx → α) (i : (⟨2, ![N, 1]⟩ : Shape).Idx) :
    broadcastInDim ⟨2, ![N, 1]⟩ ![0] h x i = x (ix1 (i 0)) := by
  refine broadcastInDim_apply _ _ _ i (ix1 (i 0)) fun a => ?_
  match a with
  | ⟨0, _⟩ =>
    show (i 0).val = if N = 1 then 0 else (i 0).val
    split
    · have := idx2_lt0 i; omega
    · rfl

/-- Copying a one-column matrix along the columns keeps the row. -/
theorem bcastCols_apply {N n : Nat} {α : Type} (h : (⟨2, ![N, 1]⟩ : Shape).BroadcastsInDim ⟨2, ![N, n]⟩ ![0, 1])
    (x : (⟨2, ![N, 1]⟩ : Shape).Idx → α) (i : (⟨2, ![N, n]⟩ : Shape).Idx) :
    broadcastInDim ⟨2, ![N, n]⟩ ![0, 1] h x i = x (ix2 (i 0) 0) := by
  refine broadcastInDim_apply _ _ _ i (ix2 (i 0) 0) fun a => ?_
  match a with
  | ⟨0, _⟩ =>
    show (i 0).val = if N = 1 then 0 else (i 0).val
    split
    · have := idx2_lt0 i; omega
    · rfl
  | ⟨1, _⟩ => rfl

/-- A reduction with add along one axis is the initial value plus the sum over that axis (here and in the next three). -/
theorem sumRows64_apply (x : FVec Ideal S1048576x64 .f32) (init : FVec Ideal S_ .f32) (j : S64.Idx) :
    Host.reduceAdd x init reducesTo_S1048576x64_S64_d0 h_S_ j = init ix0 + ∑ r : Fin 1048576, x (ix2 r (j 0)) := by
  rw [hostReduceAdd_apply, Ideal.hostReduceAdd_single _ (by decide : S1048576x64.Reduces [0] S64)]
  refine congrArg₂ (· + ·) (congrArg init (eq_ix0 _)) (Finset.sum_congr rfl fun r _ => congrArg x ?_)
  funext a
  refine Fin.ext ?_
  match a with
  | ⟨0, _⟩ => rfl
  | ⟨1, _⟩ => rfl

theorem sumCols20_apply (x : FVec Ideal S1048576x20 .f32) (init : FVec Ideal S_ .f32) (j : S1048576.Idx) :
    Host.reduceAdd x init reducesTo_S1048576x20_S1048576_d1 h_S_ j = init ix0 + ∑ q : Fin 20, x (ix2 (j 0) q) := by
  rw [hostReduceAdd_apply, Ideal.hostReduceAdd_single _ (by decide : S1048576x20.Reduces [1] S1048576)]
  refine congrArg₂ (· + ·) (congrArg init (eq_ix0 _)) (Finset.sum_congr rfl fun r _ => congrArg x ?_)
  funext a
  refine Fin.ext ?_
  match a with
  | ⟨0, _⟩ => rfl
  | ⟨1, _⟩ => rfl

theorem sumCols3_apply (x : FVec Ideal S1048576x3 .f32) (init : FVec Ideal S_ .f32) (j : S1048576.Idx) :
    Host.reduceAdd x init reducesTo_S1048576x3_S1048576_d1 h_S_ j = init ix0 + ∑ d : Fin 3, x (ix2 (j 0) d) := by
  rw [hostReduceAdd_apply, Ideal.hostReduceAdd_single _ (by decide : S1048576x3.Reduces [1] S1048576)]
  refine congrArg₂ (· + ·) (congrArg init (eq_ix0 _)) (Finset.sum_congr rfl fun r _ => congrArg x ?_)
  funext a
  refine Fin.ext ?_
  match a with
  | ⟨0, _⟩ => rfl
  | ⟨1, _⟩ => rfl

theorem sumAll_apply (x : FVec Ideal S1048576 .f32) (init : FVec Ideal S_ .f32) (j : S_.Idx) :
    Host.reduceAdd x init reducesTo_S1048576_S_d0 h_S_ j = init ix0 + ∑ r : Fin 1048576, x (ix1 r) := by
  rw [hostReduceAdd_apply, Ideal.hostReduceAdd_total _ (fun b => b.elim0)]
  exact congrArg₂ (· + ·) (congrArg init (eq_ix0 _)) (Equiv.sum_comp (idxEquiv1 (n := 1048576)).symm x).symm

theorem ofBits_negInf : Ideal.ofBits .f32 0xFF800000#32 = ⊥ := by simp [Ideal.ofBits, Ideal.ieee]

theorem nnE_eq : Cert.Spec.nnE = ((1048576 : ℝ) : EReal) := by
  unfold Cert.Spec.nnE
  simp [Ideal.ofBits, Ideal.ieee, -EReal.coe_mul]; norm_num

/-- Folding the maximum from the least element gives the supremum. -/
theorem fold_max_bot_eq_sup {ι : Type} [DecidableEq ι] (s : Finset ι) (g : ι → EReal) : s.fold max ⊥ g = s.sup g := by
  induction s using Finset.induction_on with
  | empty => simp
  | insert a s ha ih => rw [Finset.fold_insert ha, Finset.sup_insert, ih]

/-- The row maximum from minus infinity is the supremum of the row. -/
theorem maxCols20_apply (x : FVec Ideal S1048576x20 .f32) (j : S1048576.Idx) :
    Host.reduce FloatOps.maximumf x (constant (F := Ideal) S_ .f32 0xFF800000#32) reducesTo_S1048576x20_S1048576_d1 h_S_ j
      = Finset.univ.sup fun q : Fin 20 => x (ix2 (j 0) q) := by
  rw [Host.reduce_eq_fold_single FloatOps.maximumf x _ _ (by decide : S1048576x20.Reduces [1] S1048576)]
  have hlift : (x ∘ (Shape.Reduces.lift (by decide : S1048576x20.Reduces [1] S1048576) j))
      = fun q : Fin 20 => x (ix2 (j 0) q) := by
    funext q
    refine congrArg x ?_
    funext a
    refine Fin.ext ?_
    match a with
    | ⟨0, _⟩ => rfl
    | ⟨1, _⟩ => rfl
  rw [hlift]
  exact (congrArg (fun b => Finset.fold max b (fun q : Fin 20 => x (ix2 (j 0) q)) Finset.univ) ofBits_negInf).trans
    (fold_max_bot_eq_sup _ _)

theorem sitofp_zero32 : FloatOps.sitofp (F := Ideal) .f32 (0#32) = (0 : EReal) := by
  show (((0#32 : BitVec 32).toInt : ℝ) : EReal) = 0
  simp

theorem uitofp_bit (b : BitVec 1) : FloatOps.uitofp (F := Ideal) .f32 b = if b = 1#1 then (1 : EReal) else 0 := by
  show (((b.toNat : ℕ) : ℝ) : EReal) = _
  rcases BitVec.eq_zero_or_eq_one b with h | h <;> subst h <;> simp

theorem nnE_pos : (0 : EReal) < Cert.Spec.nnE := by
  rw [nnE_eq]
  exact EReal.coe_pos.mpr (by norm_num)

/-- The row count is positive, so the variance's guard `N - 0 > 0` holds. -/
theorem cmp_ogt_nn : Ideal.cmp .ogt (Cert.Spec.nnE - 0) 0 = 1#1 := by
  rw [sub_zero]
  show BitVec.ofBool (decide ((0 : EReal) < Cert.Spec.nnE)) = 1#1
  rw [decide_eq_true nnE_pos]
  rfl

/-- A reshape between a one-column matrix and a vector (or a cube with two unit axes) keeps the row. -/
theorem colToVec_apply {α : Type} (x : S1048576x1.Idx → α) (j : S1048576.Idx) :
    shapeCast S1048576 x shapeCasts_S1048576x1_S1048576 j = x (ix2 (j 0) 0) := by
  refine shapeCast_apply x _ j (ix2 (j 0) 0) ?_
  rw [Shape.rowMajor_val_two, Shape.rowMajor_val_one]
  show (j 0).val * 1 + 0 = (j 0).val
  omega

theorem colToCube_apply {α : Type} (x : S1048576x1.Idx → α) (j : S1048576x1x1.Idx) :
    shapeCast S1048576x1x1 x shapeCasts_S1048576x1_S1048576x1x1 j = x (ix2 (j 0) 0) := by
  refine shapeCast_apply x _ j (ix2 (j 0) 0) ?_
  rw [Shape.rowMajor_val_two, Shape.rowMajor_val_three]
  have h1 : (j 1).val < 1 := (j 1).isLt
  have h2 : (j 2).val < 1 := (j 2).isLt
  show (j 0).val * 1 + 0 = ((j 0).val * 1 + (j 1).val) * 1 + (j 2).val
  omega

/-- A gather from a table of 20 reads the entry at the start index, read signed and clamped into the table. -/
theorem gatherTable_apply (x : FVec Ideal S20 .f32) (idx : IVec S1048576x1 32) (j : S1048576.Idx) :
    Host.gather gather_S20_S1048576x1_S1048576_n_0_n_n_0_1_1 x idx j = x (ix1 ⟨min (idx (ix2 (j 0) 0)).toInt.toNat 19, by omega⟩) := by
  obtain ⟨p, rfl⟩ : ∃ p, j = ix1 p := ⟨j 0, eq_ix1 j⟩
  have e2 : (StableHlo.Predicate.ixP p : S1048576x1.Idx) = ix2 p 0 :=
    funext fun a => by match a with | ⟨0, _⟩ => rfl | ⟨1, _⟩ => rfl
  have h := StableHlo.Predicate.gather_take gather_S20_S1048576x1_S1048576_n_0_n_n_0_1_1 rfl rfl rfl rfl x idx p (by decide)
  have e1 : (Shape.Idx.ofFin p : S1048576.Idx) = ix1 p := funext fun a => by match a with | ⟨0, _⟩ => rfl
  rw [e1] at h
  refine h.trans (congrArg x ?_)
  funext a
  refine Fin.ext ?_
  match a with
  | ⟨0, _⟩ =>
    show min (idx (StableHlo.Predicate.ixP p)).toInt.toNat (20 - 1) = min (idx (ix2 p 0)).toInt.toNat 19
    rw [e2]

/-- A row-wise gather reads each row at that row's start index, read signed and clamped. -/
theorem gatherRow_apply (x : FVec Ideal S1048576x20 .f32) (idx : IVec S1048576x1x1 32) (j : S1048576x1.Idx) :
    Host.gather gather_S1048576x20_S1048576x1x1_S1048576x1_n_1_0_0_1_2_11 x idx j
      = x (ix2 (j 0) ⟨min (idx (ix3 (j 0) (j 1) 0)).toInt.toNat 19, by omega⟩) := by
  set d := gather_S1048576x20_S1048576x1x1_S1048576x1_n_1_0_0_1_2_11 with hd
  unfold Host.gather
  refine congrArg x ?_
  funext a
  refine Fin.ext ?_
  match a with
  | ⟨0, _⟩ =>
    show d.start j idx 0 + d.batchCoord j 0 + d.offCoord j 0 = (j 0).val
    rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin S1048576x20.rank) ∈ d.operandBatchingDims from List.mem_singleton.mpr rfl)]
    simp only [Nat.zero_add, Nat.add_zero]
    rfl
  | ⟨1, _⟩ =>
    show d.start j idx 1 + d.batchCoord j 1 + d.offCoord j 1 = min (idx (ix3 (j 0) (j 1) 0)).toInt.toNat 19
    rw [GatherDims.batchCoord_eq_zero _ _ _ (show ¬(1 : Fin S1048576x20.rank) ∈ d.operandBatchingDims from
        fun h => absurd (List.mem_singleton.mp h) (by decide)),
      GatherDims.offCoord_eq_zero _ _ _ (fun h => ((GatherDims.mem_sKept _ _).mp h).1 (List.mem_singleton.mpr rfl))]
    unfold GatherDims.start
    rw [dif_pos (show (1 : Fin S1048576x20.rank) ∈ d.startIndexMap from List.mem_singleton.mpr rfl)]
    have hsi : d.siIdx j ⟨List.idxOf (1 : Fin S1048576x20.rank) d.startIndexMap,
        List.idxOf_lt_length_iff.2 (List.mem_singleton.mpr rfl)⟩ = ix3 (j 0) (j 1) 0 := by
      funext b
      refine Fin.ext ?_
      match b with
      | ⟨0, _⟩ => rfl
      | ⟨1, _⟩ => rfl
      | ⟨2, _⟩ => rfl
    rw [hsi]
    rfl

/-- A word below 20 is not negative, is at most 19, and is its own clamp (this and the next three). -/
theorem slt_zero_of_small {t : BitVec 32} (ht : t.toNat < 20) : IntOp.cmpi .slt t 0#32 = 0#1 := by
  refine eq_zero_of_ne_one fun h => ?_
  have h1 := IntOp.cmpi_slt.mp h
  rw [StableHlo.Predicate.toInt_eq_toNat_of_lt (by omega)] at h1
  simp at h1
  omega

theorem sge_zero_of_small {t : BitVec 32} (ht : t.toNat < 20) : IntOp.cmpi .sge t 0#32 = 1#1 := by
  refine IntOp.cmpi_sge.mpr ?_
  rw [StableHlo.Predicate.toInt_eq_toNat_of_lt (a := t) (by omega)]
  simp

theorem sle_19_of_small {t : BitVec 32} (ht : t.toNat < 20) : IntOp.cmpi .sle t 19#32 = 1#1 := by
  refine IntOp.cmpi_sle.mpr ?_
  rw [StableHlo.Predicate.toInt_eq_toNat_of_lt (a := t) (by omega)]
  simp
  omega

theorem clamp_of_small {t : BitVec 32} (ht : t.toNat < 20) : min t.toInt.toNat 19 = t.toNat % 20 := by
  rw [StableHlo.Predicate.toInt_eq_toNat_of_lt (a := t) (by omega)]
  simp
  omega

/-- The conjunction of set bits along a unit axis is set. -/
theorem andAll_apply (x : IVec S1048576x1x1 1) (hx : ∀ i, x i = 1#1) (j : S1048576x1.Idx) :
    Host.reduce IntOp.andi x (constantI S_ 1 1#1) reducesTo_S1048576x1x1_S1048576x1_d2 h_S_ j = 1#1 := by
  rw [Host.reduce_eq_fold_single IntOp.andi x _ _ (by decide : S1048576x1x1.Reduces [2] S1048576x1)]
  obtain rfl : x = fun _ => 1#1 := funext hx
  have hu : (Finset.univ : Finset (Fin 1)) = {0} := by decide
  show Finset.fold IntOp.andi (1#1) (fun _ => 1#1) (Finset.univ : Finset (Fin 1)) = 1#1
  rw [hu, Finset.fold_singleton]
  rfl

/-- Four one-element arrays laid end to end: entry `c` is the element of the `c`-th. -/
theorem concat4_apply (v0 v1 v2 v3 : FVec Ideal S1 .f32) (c : Fin 4) :
    concatenate S4 0 [⟨S1, v0⟩, ⟨S1, v1⟩, ⟨S1, v2⟩, ⟨S1, v3⟩] concatenates_S1_S1_S1_S1_S4_d0 (ix1 c)
      = (match c with | ⟨0, _⟩ => v0 | ⟨1, _⟩ => v1 | ⟨2, _⟩ => v2 | ⟨3, _⟩ => v3) (ix1 0) := by
  match c with
  | ⟨0, _⟩ =>
    exact concatenate_apply_piece 0 [⟨S1, v0⟩, ⟨S1, v1⟩, ⟨S1, v2⟩, ⟨S1, v3⟩] concatenates_S1_S1_S1_S1_S4_d0 _ 0 (show 0 < 4 from by decide) S1 v0 rfl rfl 0 rfl (ix1 0)
      (fun b hb => (hb (Subsingleton.elim _ _)).elim) rfl
  | ⟨1, _⟩ =>
    exact concatenate_apply_piece 0 [⟨S1, v0⟩, ⟨S1, v1⟩, ⟨S1, v2⟩, ⟨S1, v3⟩] concatenates_S1_S1_S1_S1_S4_d0 _ 1 (show 1 < 4 from by decide) S1 v1 rfl rfl 1 rfl (ix1 0)
      (fun b hb => (hb (Subsingleton.elim _ _)).elim) rfl
  | ⟨2, _⟩ =>
    exact concatenate_apply_piece 0 [⟨S1, v0⟩, ⟨S1, v1⟩, ⟨S1, v2⟩, ⟨S1, v3⟩] concatenates_S1_S1_S1_S1_S4_d0 _ 2 (show 2 < 4 from by decide) S1 v2 rfl rfl 2 rfl (ix1 0)
      (fun b hb => (hb (Subsingleton.elim _ _)).elim) rfl
  | ⟨3, _⟩ =>
    exact concatenate_apply_piece 0 [⟨S1, v0⟩, ⟨S1, v1⟩, ⟨S1, v2⟩, ⟨S1, v3⟩] concatenates_S1_S1_S1_S1_S4_d0 _ 3 (show 3 < 4 from by decide) S1 v3 rfl rfl 3 rfl (ix1 0)
      (fun b hb => (hb (Subsingleton.elim _ _)).elim) rfl

end Cert.ReferenceIdeal.Hand

end
-- ==== Proof.Ref.Vals.lean ====
import proofs.«423175_j2508260901476_3_alg».proof.Proof.Ref.Term
import proofs.«423175_j2508260901476_3_alg».proof.Proof.Spec

noncomputable section

namespace Cert.ReferenceIdeal.Hand

open Idealize.ShloMosaic Cert.Spec
open scoped BigOperators

variable (A : Cert.Spec.Args)

/-- The arrays one stretch hands to the next: each entry is the specification's function at the index's coordinates. -/
def vH0 : FVec Ideal S1048576x64 .f32 := fun i => h0 A (i 0) (i 1)

def vMean : FVec Ideal S64 .f32 := fun j => mean A (j 0)

def vVar : FVec Ideal S64 .f32 := fun j => varR A (j 0)

def vBias : FVec Ideal S1048576x3 .f32 := fun i => biasPred A (hR A) (i 0) (i 1)

def vLogits : FVec Ideal S1048576x20 .f32 := fun i => logits A (i 0) (i 1)

def vValid : IVec S1048576 1 := fun i => IntOp.cmpi .ne (A.seg (i 0)) 4294967295#32

def vTgt : IVec S1048576 32 := fun i => tgt A (i 0)

def vLogp : FVec Ideal S1048576x1 .f32 := fun i => logpR A (i 0) (tgtIdx A (i 0))

def vSeg : FVec Ideal S_ .f32 := fun _ => Ideal.div (∑ r, wgtR A r * nllR A r) (∑ r, wgtR A r)

def vMask : FVec Ideal S1048576 .f32 := fun i => maskF A (i 0)

def vDen : FVec Ideal S_ .f32 := fun _ => (∑ r, maskF A r) + tinyE

def vGt : FVec Ideal S1048576x3 .f32 := fun i => biasGt A (i 0) (i 1)

def vL1 : FVec Ideal S_ .f32 := fun _ => Ideal.div (∑ r, biasDist A (hR A) r * maskF A r) ((∑ r, maskF A r) + tinyE)

end Cert.ReferenceIdeal.Hand

end
-- ==== Proof.Ref.HostAt.lean ====
import Idealize.ShloMosaic.Lib.IdealHost

noncomputable section

namespace Cert.ReferenceIdeal.Hand

open Idealize.ShloMosaic

variable {s : Shape}

/-- The host's one-operand operations act entry by entry. -/
theorem hostSqrt_apply (x : FVec Ideal s .f32) (i : s.Idx) : Host.sqrt x i = Ideal.sqrt (x i) := rfl
theorem hostRsqrt_apply (x : FVec Ideal s .f32) (i : s.Idx) : Host.rsqrt x i = Ideal.rsqrt (x i) := rfl
theorem hostNegf_apply (x : FVec Ideal s .f32) (i : s.Idx) : Host.negf x i = -(x i) := rfl
theorem hostAbsf_apply (x : FVec Ideal s .f32) (i : s.Idx) : Host.absf x i = max (x i) (-(x i)) := rfl
theorem uitofp_apply {w : Nat} (x : IVec s w) (i : s.Idx) :
    (uitofp .f32 x : FVec Ideal s .f32) i = FloatOps.uitofp (F := Ideal) .f32 (x i) := rfl

end Cert.ReferenceIdeal.Hand

end
-- ==== Proof.Ref.Read.lean ====
import proofs.«423175_j2508260901476_3_alg».proof.Proof.Ref.OpsRead
import proofs.«423175_j2508260901476_3_alg».proof.Proof.Ref.Vals
import proofs.«423175_j2508260901476_3_alg».proof.Proof.Ref.HostAt

set_option maxRecDepth 16384

noncomputable section

namespace Cert.ReferenceIdeal.Hand

open Idealize.ShloMosaic Idealize.ShloMosaic.ValueIdx Cert.Spec
open scoped BigOperators

variable [Facts]
open Facts₀ Facts

theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

/-- A label that is a class or the ignored label gives a target class below 20. -/
theorem tgt_small {A : Args} (hl : A.LabelsInRange) (r : Fin 1048576) : (tgt A r).toNat < 20 := by
  unfold tgt
  split
  · rcases hl r with h | h
    · contradiction
    · exact h
  · decide

section Stretches

variable {a0 : FVec Ideal S1048576x64 .f32} {a1 : FVec Ideal S1048576x3 .f32} {a2 : IVec S1048576 32} {a3 : IVec S1048576 32} {a4 : FVec Ideal S1048576x3 .f32} {a5 : FVec Ideal S64x64 .f32} {a6 : FVec Ideal S64 .f32} {a7 : FVec Ideal S64 .f32} {a8 : FVec Ideal S64 .f32} {a9 : FVec Ideal S64x3 .f32} {a10 : FVec Ideal S3 .f32} {a11 : FVec Ideal S64x20 .f32} {a12 : FVec Ideal S20 .f32} {a13 : FVec Ideal S20 .f32}
  {A : Args} (hA : A = Args.ofArrays a0 a1 a2 a3 a4 a5 a6 a7 a8 a9 a10 a11 a12 a13)
include hA

/-- The first stretch yields the first layer, its column means and its column variances (the guard `N - 0 > 0` holds). -/
theorem refTermA_eq :
    refTermA (F := Ideal) a0 a1 a2 a3 a4 a5 a6 a7 a8 a9 a10 a11 a12 a13
      = refTermB (F := Ideal) a0 a1 a2 a3 a4 a7 a8 a9 a10 a11 a12 a13 (vH0 A) (vMean A) (vVar A) := by
  subst hA
  set A := Args.ofArrays a0 a1 a2 a3 a4 a5 a6 a7 a8 a9 a10 a11 a12 a13 with hA
  conv_lhs => unfold refTermA
  extract_lets -merge main_v0 main_v1 main_v2 main_v3 main_cst main_v4 main_cst_0 main_v5 main_v6 main_c main_call0_cst main_call0_v0 main_call0_v1 main_call0_cst_0 main_call0_v2 main_call0_v3 main_call0_v4 main_call0_v5 main_call0_v6 main_call0_v7 main_call0_cst_1 main_call0_v8 main_call0_cst_2 main_call0_v9 main_call0_v10 main_call0_v11 main_call0_cst_3 main_call0_v12 main_call0_cst_4 main_call0_call0_v0 main_call0_call0_v1 main_v7
  have e0 : ∀ i, main_v0 i = ∑ k : Fin 64, a0 (ix2 (i 0) k) * a5 (ix2 k (i 1)) := fun i => dot_apply _ rfl a0 a5 i
  have e2 : ∀ i, main_v2 i = a6 (ix1 (i 1)) := fun i =>
    (bcastRows_apply _ main_v1 i).trans (bcastAsRow_apply _ a6 _)
  have e3 : main_v3 = vH0 A := funext fun i => by
    show main_v0 i + main_v2 i = _
    rw [e0, e2]; rfl
  have e4 : ∀ j, main_v4 j = ∑ r : Fin 1048576, h0 A r (j 0) := fun j => by
    refine (sumRows64_apply main_v3 main_cst j).trans ?_
    rw [e3]
    show Ideal.ofBits .f32 0x00000000#32 + _ = _
    rw [Ideal.ofBits_zero_f32, zero_add]
    rfl
  have e6 : main_v6 = vMean A := funext fun j => by
    show Ideal.div (main_v4 j) (main_v5 j) = _
    rw [e4]; rfl
  have ec0 : ∀ j, main_call0_v0 j = ∑ r : Fin 1048576, h0 A r (j 0) := e4
  have ec4 : ∀ i, main_call0_v4 i = mean A (i 1) := fun i => by
    refine (bcastRows_apply _ main_call0_v3 i).trans ?_
    show Ideal.div (main_call0_v1 (ix2 0 (i 1))) (main_call0_v2 (ix2 0 (i 1))) = _
    rw [show main_call0_v1 (ix2 0 (i 1)) = main_call0_v0 (ix1 (i 1)) from bcastAsRow_apply _ main_call0_v0 _, ec0]
    rfl
  have ec9 : ∀ j, main_call0_v9 j
      = ∑ r : Fin 1048576, (h0 A r (j 0) - mean A (j 0)) * (h0 A r (j 0) - mean A (j 0)) := fun j => by
    refine (sumRows64_apply main_call0_v6 main_call0_cst_2 j).trans ?_
    show Ideal.ofBits .f32 0x00000000#32 + _ = _
    rw [Ideal.ofBits_zero_f32, zero_add]
    refine Finset.sum_congr rfl fun r _ => ?_
    show (main_v3 (ix2 r (j 0)) - main_call0_v4 (ix2 r (j 0))) * (main_v3 (ix2 r (j 0)) - main_call0_v4 (ix2 r (j 0))) = _
    rw [e3, ec4]; rfl
  have ec8 : ∀ i, main_call0_v8 i = nnE - 0 := fun i => by
    show Ideal.ofBits .f32 0x49800000#32 - FloatOps.sitofp (F := Ideal) .f32 (0#32) = _
    rw [sitofp_zero32]; rfl
  have e7 : main_v7 = vVar A := funext fun j => by
    have hp : (broadcastInDim S64 ![] bcast_S_S64 main_call0_v12) j = 1#1 := by
      rw [broadcastInDim_scalar_apply]
      show Ideal.cmp .ogt (main_call0_v8 ix0) (Ideal.ofBits .f32 0x00000000#32) = 1#1
      rw [ec8, Ideal.ofBits_zero_f32]; exact cmp_ogt_nn
    show Scalar.select ((broadcastInDim S64 ![] bcast_S_S64 main_call0_v12) j) (main_call0_v11 j) (main_call0_call0_v1 j) = _
    rw [hp, select_one]
    show Ideal.div (main_call0_v9 j) (main_call0_v10 j) = _
    rw [ec9, show main_call0_v10 j = main_call0_v8 ix0 from broadcastInDim_scalar_apply _ _ _, ec8, sub_zero]
    rfl
  rw [e3, e6, e7]

/-- The second stretch yields the predicted offsets, the class scores, the label bit and the target class. -/
theorem refTermB_eq :
    refTermB (F := Ideal) a0 a1 a2 a3 a4 a7 a8 a9 a10 a11 a12 a13 (vH0 A) (vMean A) (vVar A)
      = refTermC (F := Ideal) a1 a3 a4 a13 (vBias A) (vLogits A) (vValid A) (vTgt A) := by
  subst hA
  set A := Args.ofArrays a0 a1 a2 a3 a4 a5 a6 a7 a8 a9 a10 a11 a12 a13 with hA
  conv_lhs => unfold refTermB
  extract_lets -merge main_v8 main_v9 main_v10 main_cst_1 main_v11 main_v12 main_v13 main_v14 main_v15 main_v16 main_v17 main_v18 main_v19 main_v20 main_v21 main_v22 main_call1_cst main_call1_v0 main_v23 main_v24 main_v25 main_v26 main_v27 main_v28 main_v29 main_v30 main_v31 main_c_2 main_v32 main_v33 main_c_3 main_call2_v0 main_call2_v1 main_v34
  have e23 : ∀ i, main_v23 i = hR A (i 0) (i 1) := fun i => by
    show max (main_v10 i * main_v15 i * main_v18 i + main_v21 i) (main_call1_v0 i) = _
    rw [show main_v15 i = main_v13 (ix1 (i 1)) from (bcastRows_apply _ main_v14 i).trans (bcastAsRow_apply _ main_v13 _),
      show main_v18 i = a7 (ix1 (i 1)) from (bcastRows_apply _ main_v17 i).trans (bcastAsRow_apply _ a7 _),
      show main_v21 i = a8 (ix1 (i 1)) from (bcastRows_apply _ main_v20 i).trans (bcastAsRow_apply _ a8 _),
      show main_v10 i = h0 A (i 0) (i 1) - mean A (i 1) from by
        show vH0 A i - main_v9 i = _
        rw [show main_v9 i = vMean A (ix1 (i 1)) from (bcastRows_apply _ main_v8 i).trans (bcastAsRow_apply _ (vMean A) _)]
        rfl,
      show main_call1_v0 i = 0 from Ideal.ofBits_zero_f32]
    rfl
  have e27 : main_v27 = vBias A := funext fun i => by
    show main_v24 i + main_v26 i = _
    rw [show main_v24 i = _ from dot_apply _ rfl main_v23 a9 i,
      show main_v26 i = a10 (ix1 (i 1)) from (bcastRows_apply _ main_v25 i).trans (bcastAsRow_apply _ a10 _)]
    simp only [e23]
    rfl
  have e31 : main_v31 = vLogits A := funext fun i => by
    show main_v28 i + main_v30 i = _
    rw [show main_v28 i = _ from dot_apply _ rfl a0 a11 i,
      show main_v30 i = a12 (ix1 (i 1)) from (bcastRows_apply _ main_v29 i).trans (bcastAsRow_apply _ a12 _)]
    rfl
  have e33 : main_v33 = vValid A := funext fun i => by
    obtain ⟨r, rfl⟩ : ∃ r, i = ix1 r := ⟨i 0, eq_ix1 i⟩
    rfl
  have e34 : main_v34 = vTgt A := funext fun i => by
    obtain ⟨r, rfl⟩ : ∃ r, i = ix1 r := ⟨i 0, eq_ix1 i⟩
    show Scalar.select (IntOp.cmpi .ne (a2 (ix1 r)) 4294967295#32) (a2 (ix1 r)) 0#32
      = if a2 (ix1 r) ≠ 4294967295#32 then a2 (ix1 r) else 0#32
    by_cases h : a2 (ix1 r) = 4294967295#32
    · rw [eq_zero_of_ne_one (fun h1 => (IntOp.cmpi_ne.mp h1) h), select_zero, if_neg (not_not.mpr h)]
    · rw [IntOp.cmpi_ne.mpr h, select_one, if_pos h]
  rw [e27, e31, e33, e34]

/-- The third stretch yields the log-probability of the target class: the gather's position is in range, so its guard holds. -/
theorem refTermC_eq (hl : A.LabelsInRange) :
    refTermC (F := Ideal) a1 a3 a4 a13 (vBias A) (vLogits A) (vValid A) (vTgt A)
      = refTermD (F := Ideal) a1 a3 a4 a13 (vBias A) (vValid A) (vTgt A) (vLogp A) := by
  subst hA
  set A := Args.ofArrays a0 a1 a2 a3 a4 a5 a6 a7 a8 a9 a10 a11 a12 a13 with hA
  conv_lhs => unfold refTermC
  extract_lets -merge main_call3_cst main_call3_v0 main_call3_cst_0 main_call3_v1 main_call3_v2 main_call3_v3 main_call3_v4 main_call3_v5 main_call3_v6 main_call3_cst_1 main_call3_v7 main_call3_v8 main_call3_v9 main_call3_v10 main_v35 main_v36 main_call4_c main_call4_v0 main_call4_v1 main_call4_c_0 main_call4_v2 main_call4_v3 main_call4_v4 main_call4_v5 main_call4_c_1 main_call4_c_2 main_call4_v6 main_call4_v7 main_call4_v8 main_call4_v9 main_call4_v10 main_call4_v11 main_call4_c_3 main_call4_v12 main_call4_v13 main_call4_cst main_call4_v14 main_v37
  have ev0 : ∀ j, main_call3_v0 j = Finset.univ.sup fun q : Fin 20 => vLogits A (ix2 (j 0) q) := fun j => by
    simp only [main_call3_v0, main_call3_cst]
    exact maxCols20_apply (vLogits A) j
  clear_value main_call3_v0
  have ev2 : ∀ j, main_call3_v2 j = mx A (j 0) := fun j => by
    simp only [main_call3_v2]
    rw [maximumf_apply, ev0]
    simp only [main_call3_v1, main_call3_cst_0]
    rw [broadcastInDim_scalar_apply, constant_apply, ofBits_negInf, max_bot_left]
    unfold mx vLogits
    rfl
  have ev5 : ∀ i, main_call3_v5 i = logits A (i 0) (i 1) - mx A (i 0) := fun i => by
    simp only [main_call3_v5]
    rw [subf_apply, show main_call3_v4 i = main_call3_v2 (ix1 (i 0)) from
      (bcastCols_apply _ main_call3_v3 i).trans (bcastAsCol_apply _ main_call3_v2 _), ev2]
    rfl
  have ev7 : ∀ j, main_call3_v7 j = sexp A (j 0) := fun j => by
    refine (sumCols20_apply main_call3_v6 main_call3_cst_1 j).trans ?_
    simp only [main_call3_cst_1, main_call3_v6]
    rw [constant_apply, Ideal.ofBits_zero_f32, zero_add]
    refine Finset.sum_congr rfl fun q _ => ?_
    rw [hostExp_apply, ev5]
  have ev35 : ∀ i, main_v35 i = logpR A (i 0) (i 1) := fun i => by
    simp only [main_v35]
    rw [subf_apply, ev5, show main_call3_v10 i = main_call3_v9 (ix2 (i 0) 0) from bcastCols_apply _ main_call3_v9 i]
    simp only [main_call3_v9]
    rw [hostLog_apply, show main_call3_v8 (ix2 (i 0) 0) = main_call3_v7 (ix1 (i 0)) from bcastAsCol_apply _ main_call3_v7 _, ev7]
    rfl
  have ev4 : ∀ i, main_call4_v4 i = tgt A (i 0) := fun i => by
    have h36 : main_v36 i = tgt A (i 0) := bcastAsCol_apply _ (vTgt A) i
    show Scalar.select (IntOp.cmpi .slt (main_v36 i) 0#32) (main_call4_v3 i) (main_v36 i) = _
    rw [h36, slt_zero_of_small (tgt_small hl (i 0)), select_zero]
  have ev5' : ∀ k, main_call4_v5 k = tgt A (k 0) := fun k =>
    (colToCube_apply main_call4_v4 k).trans (ev4 _)
  have ev12 : ∀ i, main_call4_v12 i = 1#1 := fun i => by
    simp only [main_call4_v12, main_call4_c_3]
    refine andAll_apply main_call4_v11 (fun k => ?_) i
    show IntOp.andi (IntOp.cmpi .sge (main_call4_v5 k) 0#32) (IntOp.cmpi .sle (main_call4_v5 k) 19#32) = 1#1
    rw [ev5', sge_zero_of_small (tgt_small hl (k 0)), sle_19_of_small (tgt_small hl (k 0))]
    rfl
  clear_value main_call4_v12
  have e37 : main_v37 = vLogp A := funext fun i => by
    show Scalar.select (main_call4_v12 i) (main_call4_v13 i) (main_call4_v14 i) = _
    rw [ev12, select_one]
    refine (gatherRow_apply main_v35 main_call4_v5 i).trans ?_
    rw [ev35]
    refine congrArg (logpR A (i 0)) (Fin.ext ?_)
    show min (main_call4_v5 (ix3 (i 0) (i 1) 0)).toInt.toNat 19 = (tgt A (i 0)).toNat % 20
    rw [ev5']
    exact clamp_of_small (tgt_small hl (i 0))
  rw [e37]

/-- The fourth stretch yields the weighted cross-entropy, the instance mask with its sum, the target offsets and the masked L1 mean. -/
theorem refTermD_eq (hl : A.LabelsInRange) :
    refTermD (F := Ideal) a1 a3 a4 a13 (vBias A) (vValid A) (vTgt A) (vLogp A)
      = refTermE (F := Ideal) (vBias A) (vSeg A) (vMask A) (vDen A) (vGt A) (vL1 A) := by
  subst hA
  set A := Args.ofArrays a0 a1 a2 a3 a4 a5 a6 a7 a8 a9 a10 a11 a12 a13 with hA
  conv_lhs => unfold refTermD
  extract_lets -merge main_v38 main_v39 main_c_4 main_v40 main_v41 main_c_5 main_v42 main_v43 main_v44 main_v45 main_v46 main_v47 main_v48 main_v49 main_cst_6 main_v50 main_cst_7 main_v51 main_v52 main_c_8 main_v53 main_v54 main_v55 main_cst_9 main_v56 main_cst_10 main_v57 main_v58 main_v59 main_v60 main_cst_11 main_v61 main_v62 main_cst_12 main_v63 main_v64
  have e39 : ∀ j, main_v39 j = nllR A (j 0) := fun j => by
    simp only [main_v39]
    rw [hostNegf_apply, show main_v38 j = vLogp A (ix2 (j 0) 0) from colToVec_apply _ j]
    rfl
  have e44 : ∀ j, main_v44 j = tgt A (j 0) := fun j => by
    show Scalar.select (IntOp.cmpi .slt (tgt A (j 0)) 0#32) (main_v43 j) (tgt A (j 0)) = _
    rw [slt_zero_of_small (tgt_small hl (j 0)), select_zero]
  have e47 : ∀ j, main_v47 j = validF A (j 0) := fun j => by
    simp only [main_v47]
    rw [uitofp_apply, uitofp_bit]
    exact if_congr IntOp.cmpi_ne rfl rfl
  have e48 : ∀ j, main_v48 j = wgtR A (j 0) := fun j => by
    simp only [main_v48]
    rw [mulf_apply, e47, show main_v46 j = _ from gatherTable_apply a13 main_v45 j]
    refine congrArg (· * validF A (j 0)) ?_
    refine congrArg (fun q => a13 (ix1 q)) (Fin.ext ?_)
    show min (main_v45 (ix2 (j 0) 0)).toInt.toNat 19 = (tgt A (j 0)).toNat % 20
    rw [show main_v45 (ix2 (j 0) 0) = main_v44 (ix1 (j 0)) from bcastAsCol_apply _ main_v44 _, e44]
    exact clamp_of_small (tgt_small hl (j 0))
  have e50 : ∀ i, main_v50 i = ∑ r : Fin 1048576, wgtR A r * nllR A r := fun i => by
    refine (sumAll_apply main_v49 main_cst_6 i).trans ?_
    simp only [main_cst_6, main_v49]
    rw [constant_apply, Ideal.ofBits_zero_f32, zero_add]
    refine Finset.sum_congr rfl fun r _ => ?_
    rw [mulf_apply, e48, e39]
  have e51 : ∀ i, main_v51 i = ∑ r : Fin 1048576, wgtR A r := fun i => by
    refine (sumAll_apply main_v48 main_cst_7 i).trans ?_
    simp only [main_cst_7]
    rw [constant_apply, Ideal.ofBits_zero_f32, zero_add]
    refine Finset.sum_congr rfl fun r _ => ?_
    rw [e48]
  have e52 : main_v52 = vSeg A := funext fun i => by
    simp only [main_v52]
    rw [hostDivf_apply, e50, e51]
    rfl
  have e55 : main_v55 = vMask A := funext fun j => by
    obtain ⟨r, rfl⟩ : ∃ r, j = ix1 r := ⟨j 0, eq_ix1 j⟩
    simp only [main_v55]
    rw [uitofp_apply, uitofp_bit]
    exact if_congr IntOp.cmpi_ne rfl rfl
  have e57 : main_v57 = vDen A := funext fun i => by
    simp only [main_v57, main_cst_10]
    rw [addf_apply, constant_apply, show main_v56 i = _ from sumAll_apply main_v55 main_cst_9 i, e55]
    simp only [main_cst_9]
    rw [constant_apply, Ideal.ofBits_zero_f32, zero_add]
    rfl
  have e58 : main_v58 = vGt A := funext fun i => by
    obtain ⟨r, d, rfl⟩ : ∃ r d, i = ix2 r d := ⟨i 0, i 1, eq_ix2 i⟩
    simp only [main_v58]
    rw [subf_apply]
    rfl
  have e61 : ∀ j, main_v61 j = biasDist A (hR A) (j 0) := fun j => by
    refine (sumCols3_apply main_v60 main_cst_11 j).trans ?_
    simp only [main_cst_11, main_v60, main_v59]
    rw [constant_apply, Ideal.ofBits_zero_f32, zero_add]
    refine Finset.sum_congr rfl fun d _ => ?_
    rw [hostAbsf_apply, subf_apply, e58]
    rfl
  have e64 : main_v64 = vL1 A := funext fun i => by
    simp only [main_v64]
    rw [hostDivf_apply, e57, show main_v63 i = _ from sumAll_apply main_v62 main_cst_12 i]
    simp only [main_cst_12, main_v62]
    rw [constant_apply, Ideal.ofBits_zero_f32, zero_add, e55]
    have hs : ∑ r : Fin 1048576, mulf main_v61 (vMask A) (ix1 r)
        = ∑ r : Fin 1048576, biasDist A (hR A) r * maskF A r := by
      refine Finset.sum_congr rfl fun r _ => ?_
      rw [mulf_apply, e61]
      rfl
    rw [hs]
    rfl
  rw [e52, e55, e57, e58, e64]

end Stretches

/-- The last stretch yields the masked cosine mean and lays the four results end to end. -/
theorem refTermE_eq (A : Args) :
    refTermE (F := Ideal) (vBias A) (vSeg A) (vMask A) (vDen A) (vGt A) (vL1 A) = asArray (outR A) := by
  conv_lhs => unfold refTermE
  extract_lets -merge main_call5_v0 main_call5_cst main_call5_v1 main_call5_v2 main_v65 main_cst_13 main_v66 main_v67 main_v68 main_v69 main_call6_v0 main_call6_cst main_call6_v1 main_call6_v2 main_v70 main_cst_14 main_v71 main_v72 main_v73 main_v74 main_v75 main_cst_15 main_v76 main_v77 main_v78 main_cst_16 main_v79 main_v80 main_v81 main_v82 main_v83 main_v84 main_v85 main_v86 main_v87
  have key : ∀ (x : FVec Ideal S1048576x3 .f32) i,
      broadcastInDim S1048576x3 ![0, 1] bcast_S1048576x1_S1048576x3_0_1 (addf (Host.sqrt (broadcastInDim S1048576x1 ![0] bcast_S1048576_S1048576x1_0
        (Host.reduceAdd (mulf x x) (constant S_ .f32 0x00000000#32) reducesTo_S1048576x3_S1048576_d1 h_S_)))
        (broadcastInDim S1048576x1 ![] bcast_S_S1048576x1 (constant S_ .f32 0x322BCC77#32))) i
      = Ideal.sqrt (∑ e : Fin 3, x (ix2 (i 0) e) * x (ix2 (i 0) e)) + tinyE := fun x i => by
    refine (bcastCols_apply _ _ i).trans ?_
    rw [addf_apply, hostSqrt_apply, broadcastInDim_scalar_apply, constant_apply, bcastAsCol_apply, sumCols3_apply,
      constant_apply, Ideal.ofBits_zero_f32, zero_add]
    simp only [mulf_apply]
    rfl
  have e68 : ∀ i, main_v68 i = Ideal.sqrt (∑ e : Fin 3, biasPred A (hR A) (i 0) e * biasPred A (hR A) (i 0) e) + tinyE := key (vBias A)
  have e73 : ∀ i, main_v73 i = Ideal.sqrt (∑ e : Fin 3, biasGt A (i 0) e * biasGt A (i 0) e) + tinyE := key (vGt A)
  have e76 : ∀ j, main_v76 j = cosSum A (hR A) (j 0) := fun j => by
    refine (sumCols3_apply main_v75 main_cst_15 j).trans ?_
    simp only [main_cst_15, main_v75, main_v69, main_v74]
    rw [constant_apply, Ideal.ofBits_zero_f32, zero_add]
    refine Finset.sum_congr rfl fun d _ => ?_
    rw [mulf_apply, hostDivf_apply, hostDivf_apply, e68, e73]
    rfl
  have e80 : ∀ i, main_v80 i
      = Ideal.div (∑ r : Fin 1048576, cosR A r * maskF A r) ((∑ r : Fin 1048576, maskF A r) + tinyE) := fun i => by
    simp only [main_v80]
    rw [hostDivf_apply, show main_v79 i = _ from sumAll_apply main_v78 main_cst_16 i]
    simp only [main_cst_16, main_v78, main_v77]
    rw [constant_apply, Ideal.ofBits_zero_f32, zero_add]
    have hs : ∑ r : Fin 1048576, mulf (Host.negf main_v76) (vMask A) (ix1 r)
        = ∑ r : Fin 1048576, cosR A r * maskF A r := by
      refine Finset.sum_congr rfl fun r _ => ?_
      rw [mulf_apply, hostNegf_apply, e76]
      rfl
    rw [hs]
    rfl
  funext j
  obtain ⟨c, rfl⟩ : ∃ c, j = ix1 c := ⟨j 0, eq_ix1 j⟩
  simp only [main_v87]
  rw [concat4_apply]
  match c with
  | ⟨0, _⟩ =>
    simp only [main_v83, main_v82, main_v81]
    rw [broadcastInDim_scalar_apply, addf_apply, addf_apply, e80]
    rfl
  | ⟨1, _⟩ =>
    simp only [main_v84]
    rw [broadcastInDim_scalar_apply]
    rfl
  | ⟨2, _⟩ =>
    simp only [main_v85]
    rw [broadcastInDim_scalar_apply]
    rfl
  | ⟨3, _⟩ =>
    simp only [main_v86]
    rw [broadcastInDim_scalar_apply, e80]
    rfl

/-- The five stretches chain: the reference's term is the specification's four results. -/
theorem refTerm_eq (a0 : FVec Ideal S1048576x64 .f32) (a1 : FVec Ideal S1048576x3 .f32) (a2 : IVec S1048576 32) (a3 : IVec S1048576 32) (a4 : FVec Ideal S1048576x3 .f32) (a5 : FVec Ideal S64x64 .f32) (a6 : FVec Ideal S64 .f32) (a7 : FVec Ideal S64 .f32) (a8 : FVec Ideal S64 .f32) (a9 : FVec Ideal S64x3 .f32) (a10 : FVec Ideal S3 .f32) (a11 : FVec Ideal S64x20 .f32) (a12 : FVec Ideal S20 .f32) (a13 : FVec Ideal S20 .f32)
    (hl : (Args.ofArrays a0 a1 a2 a3 a4 a5 a6 a7 a8 a9 a10 a11 a12 a13).LabelsInRange) :
    refTerm (F := Ideal) a0 a1 a2 a3 a4 a5 a6 a7 a8 a9 a10 a11 a12 a13 = asArray (outR (Args.ofArrays a0 a1 a2 a3 a4 a5 a6 a7 a8 a9 a10 a11 a12 a13)) :=
  (refTermA_eq rfl).trans ((refTermB_eq rfl).trans ((refTermC_eq rfl hl).trans ((refTermD_eq rfl hl).trans (refTermE_eq _))))

end Cert.ReferenceIdeal.Hand

end
-- ==== Proof.PreRead.lean ====
import proofs.«423175_j2508260901476_3_alg».proof.Pre_finite_inputs
import proofs.«423175_j2508260901476_3_alg».proof.Proof.Spec
import Idealize.ShloMosaic.Lib.ReduceAll
import Idealize.ShloMosaic.Lib.ValueIdx

noncomputable section

namespace Cert.Pre_finite_inputs.Hand

open Idealize.ShloMosaic Idealize.ShloMosaic.ValueIdx Cert.Pre_finite_inputs

instance : Subsingleton S_.Idx := ⟨fun a b => funext fun d => d.elim0⟩

theorem inf_bits : Ideal.ofBits .f32 0x7F800000#32 = ⊤ := by simp [Ideal.ofBits, Ideal.ieee]

/-- At ⊤ and at ⊥ the maximum of x and -x is ⊤, so a value whose maximum is below ⊤ is a real. -/
theorem real_of_abs_lt_inf (x : EReal) (h : Ideal.cmp .olt (max x (-x)) (Ideal.ofBits .f32 0x7F800000#32) = 1#1) :
    ∃ r : ℝ, x = (r : EReal) := by
  rw [inf_bits] at h
  induction x using EReal.rec with
  | bot => simp [Ideal.cmp] at h
  | coe r => exact ⟨r, rfl⟩
  | top => simp [Ideal.cmp] at h

theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
      (constantI S_ 1 1#1) hr hu ix0 = 1#1)
    (i : s.Idx) : ∃ r : ℝ, (x i : EReal) = (r : EReal) :=
  real_of_abs_lt_inf (x i) (Host.reduce_andi_all _ _ hr hu ix0 e i)

/-- Signed, the only word of [-1, 0) is that of -1; a word of [0, 20) has the same value unsigned. -/
theorem label_of_range (s : BitVec 32)
    (h : IntOp.andi (IntOp.cmpi .sge s 4294967295#32) (IntOp.cmpi .slt s 20#32) = 1#1) :
    s = 4294967295#32 ∨ s.toNat < 20 := by
  obtain ⟨h1, h2⟩ := IntOp.andi_eq_one.1 h
  rw [IntOp.cmpi_sge] at h1
  rw [IntOp.cmpi_slt] at h2
  have c1 : (4294967295#32 : BitVec 32).toInt = -1 := by decide
  have c2 : (20#32 : BitVec 32).toInt = 20 := by decide
  rw [c1] at h1
  rw [c2] at h2
  have hs := s.isLt
  rw [BitVec.toInt_eq_toNat_cond] at h1 h2
  by_cases hc : 2 * s.toNat < 2 ^ 32
  · right
    rw [if_pos hc] at h2
    omega
  · left
    rw [if_neg hc] at h1
    apply BitVec.eq_of_toNat_eq
    show s.toNat = 4294967295
    omega

variable [Facts] (a0 : FVec Ideal S1048576x64 .f32) (a1 : FVec Ideal S1048576x3 .f32) (a2 : IVec S1048576 32)
    (a3 : IVec S1048576 32) (a4 : FVec Ideal S1048576x3 .f32) (a5 : FVec Ideal S64x64 .f32) (a6 : FVec Ideal S64 .f32)
    (a7 : FVec Ideal S64 .f32) (a8 : FVec Ideal S64 .f32) (a9 : FVec Ideal S64x3 .f32) (a10 : FVec Ideal S3 .f32)
    (a11 : FVec Ideal S64x20 .f32) (a12 : FVec Ideal S20 .f32) (a13 : FVec Ideal S20 .f32)
    (h : fn (F := Ideal) a0 a1 a2 a3 a4 a5 a6 a7 a8 a9 a10 a11 a12 a13 = (fun _ => 1#1))
include h

/-- The precondition joins thirteen whole-array tests by "and": each one holds, and holds at every element. -/
theorem read_pre :
    (Cert.Spec.Args.ofArrays a0 a1 a2 a3 a4 a5 a6 a7 a8 a9 a10 a11 a12 a13).Finite
      ∧ (Cert.Spec.Args.ofArrays a0 a1 a2 a3 a4 a5 a6 a7 a8 a9 a10 a11 a12 a13).LabelsInRange := by
  have e := congrFun h ix0
  dsimp only [fn, fn_part1, fn_part2, fn_part3] at e
  simp only [Idealize.ShloMosaic.andi, IntOp.andi_eq_one] at e
  obtain ⟨⟨⟨⟨⟨⟨⟨⟨⟨⟨⟨⟨e0, e1⟩, e4⟩, e5⟩, e6⟩, e7⟩, e8⟩, e9⟩, e10⟩, e11⟩, e12⟩, e13⟩, es⟩ := e
  exact ⟨⟨fun r k => all_real a0 _ _ _ e0 (ix2 r k), fun r d => all_real a1 _ _ _ e1 (ix2 r d),
    fun r d => all_real a4 _ _ _ e4 (ix2 r d), fun k j => all_real a5 _ _ _ e5 (ix2 k j),
    fun j => all_real a6 _ _ _ e6 (ix1 j), fun j => all_real a7 _ _ _ e7 (ix1 j), fun j => all_real a8 _ _ _ e8 (ix1 j),
    fun k d => all_real a9 _ _ _ e9 (ix2 k d), fun d => all_real a10 _ _ _ e10 (ix1 d),
    fun k q => all_real a11 _ _ _ e11 (ix2 k q), fun q => all_real a12 _ _ _ e12 (ix1 q),
    fun q => all_real a13 _ _ _ e13 (ix1 q)⟩,
    fun r => label_of_range (a2 (ix1 r)) (Host.reduce_andi_all _ _ _ _ ix0 es (ix1 r))⟩

theorem finite_of_pre : (Cert.Spec.Args.ofArrays a0 a1 a2 a3 a4 a5 a6 a7 a8 a9 a10 a11 a12 a13).Finite :=
  (read_pre a0 a1 a2 a3 a4 a5 a6 a7 a8 a9 a10 a11 a12 a13 h).1

theorem labels_of_pre : (Cert.Spec.Args.ofArrays a0 a1 a2 a3 a4 a5 a6 a7 a8 a9 a10 a11 a12 a13).LabelsInRange :=
  (read_pre a0 a1 a2 a3 a4 a5 a6 a7 a8 a9 a10 a11 a12 a13 h).2

end Cert.Pre_finite_inputs.Hand

end
-- ==== Proof.Algebra.lean ====
import proofs.«423175_j2508260901476_3_alg».proof.Proof.Spec
import Mathlib.Data.EReal.Basic
import Mathlib.Data.EReal.Operations
import Mathlib.Algebra.BigOperators.Group.Finset.Basic
import Mathlib.Algebra.BigOperators.Ring.Finset
import Mathlib.Algebra.Order.BigOperators.Group.Finset
import Mathlib.Data.Finset.Lattice.Fold
import Mathlib.Analysis.SpecialFunctions.Log.Basic
import Mathlib.Tactic.Ring
import Mathlib.Tactic.LinearCombination
import Mathlib.Tactic.Positivity

noncomputable section

namespace Cert.Spec

open Idealize.ShloMosaic

theorem coe_finset_sum {ι : Type*} (s : Finset ι) (f : ι → ℝ) :
    ∑ i ∈ s, (f i : EReal) = ((∑ i ∈ s, f i : ℝ) : EReal) :=
  (map_sum (⟨⟨Real.toEReal, EReal.coe_zero⟩, EReal.coe_add⟩ : ℝ →+ EReal) f s).symm

theorem sup_coe_real {n : ℕ} (L : Fin (n + 1) → ℝ) :
    ∃ m : ℝ, Finset.univ.sup (fun q => (L q : EReal)) = (m : EReal) := by
  have hbot : Finset.univ.sup (fun q => (L q : EReal)) ≠ ⊥ := by
    have h : (L 0 : EReal) ≤ Finset.univ.sup (fun q => (L q : EReal)) :=
      Finset.le_sup (f := fun q => (L q : EReal)) (Finset.mem_univ 0)
    exact ne_of_gt (lt_of_lt_of_le (EReal.bot_lt_coe _) h)
  have htop : Finset.univ.sup (fun q => (L q : EReal)) ≠ ⊤ :=
    ne_of_lt ((Finset.sup_lt_iff bot_lt_top).mpr fun q _ => EReal.coe_lt_top _)
  exact ⟨_, (EReal.coe_toReal htop hbot).symm⟩

theorem sub_add_coe (x m l : ℝ) : (x : EReal) - ((m : EReal) + (l : EReal)) = ((x : EReal) - m) - l := by
  rw [← EReal.coe_add, ← EReal.coe_sub, ← EReal.coe_sub, ← EReal.coe_sub, sub_add_eq_sub_sub]

theorem nnE_eq : nnE = ((1048576 : ℝ) : EReal) := by
  simp [nnE, Ideal.ofBits, Ideal.ieee, -EReal.coe_mul]; norm_num

theorem epsE_pos : ∃ e : ℝ, 0 < e ∧ epsE = (e : EReal) := by
  simp [epsE, Ideal.ofBits, Ideal.ieee, -EReal.coe_mul]

theorem div_nnE (x : EReal) : Ideal.div x nnE = x * (((1 / 1048576 : ℝ)) : EReal) := by
  rw [nnE_eq]; exact Ideal.div_coe (by norm_num) x

/-- E[h²] − (E h)² = E[(h − E h)²], where c = 1/n. -/
theorem var_identity {n : ℕ} (H : Fin n → ℝ) (c : ℝ) (hc : c * n = 1) :
    (∑ r, H r * H r) * c - ((∑ r, H r) * c) * ((∑ r, H r) * c)
      = (∑ r, (H r - (∑ r, H r) * c) * (H r - (∑ r, H r) * c)) * c := by
  obtain ⟨μ, hμ⟩ : ∃ μ : ℝ, μ = (∑ r, H r) * c := ⟨_, rfl⟩
  rw [← hμ]
  have hexp : ∀ r, (H r - μ) * (H r - μ) = H r * H r - 2 * μ * H r + μ * μ := fun r => by ring
  have hsum : ∑ r, (H r - μ) * (H r - μ) = (∑ r, H r * H r) - 2 * μ * (∑ r, H r) + n * (μ * μ) := by
    simp only [hexp, Finset.sum_add_distrib, Finset.sum_sub_distrib, ← Finset.mul_sum, Finset.sum_const,
      Finset.card_univ, Fintype.card_fin, nsmul_eq_mul]
    ring
  rw [hsum]
  linear_combination (-2 * μ) * hμ - (μ * μ) * hc

/-- Scaling the weights and the bias by γρ scales the centred output: the distributive law among reals. -/
theorem fold_identity (x w : Fin 64 → ℝ) (b μ γ β ρ : ℝ) :
    (∑ k, x k * (w k * (γ * ρ))) + ((b - μ) * (γ * ρ) + β)
      = (((∑ k, x k * w k) + b) - μ) * ρ * γ + β := by
  have h : ∑ k, x k * (w k * (γ * ρ)) = (∑ k, x k * w k) * (γ * ρ) := by
    rw [Finset.sum_mul]; exact Finset.sum_congr rfl fun k _ => by ring
  rw [h]; ring

theorem fold_coe (x w : Fin 64 → ℝ) (b μ γ β ρ : ℝ) :
    (∑ k, (x k : EReal) * ((w k : EReal) * ((γ : EReal) * (ρ : EReal))))
        + (((b : EReal) - (μ : EReal)) * ((γ : EReal) * (ρ : EReal)) + (β : EReal))
      = (((∑ k, (x k : EReal) * (w k : EReal)) + (b : EReal)) - (μ : EReal)) * (ρ : EReal) * (γ : EReal) + (β : EReal) := by
  simp only [← EReal.coe_mul, ← EReal.coe_sub, ← EReal.coe_add, coe_finset_sum]
  rw [fold_identity]

variable (a : Args)

theorem lin_real {n d : ℕ} (X : Fin n → Fin 64 → EReal) (W : Fin 64 → Fin d → EReal) (b : Fin d → EReal)
    (hX : ∀ r k, ∃ x : ℝ, X r k = (x : EReal)) (hW : ∀ k j, ∃ x : ℝ, W k j = (x : EReal))
    (hb : ∀ j, ∃ x : ℝ, b j = (x : EReal)) (r : Fin n) (j : Fin d) :
    ∃ y : ℝ, lin X W b r j = (y : EReal) := by
  choose x hx using hX
  choose w hw using hW
  choose b' hb' using hb
  refine ⟨(∑ k, x r k * w k j) + b' j, ?_⟩
  simp only [lin, hx, hw, hb', ← EReal.coe_mul, coe_finset_sum, ← EReal.coe_add]

theorem h0_real (hf : a.Finite) (r : Fin 1048576) (j : Fin 64) : ∃ y : ℝ, h0 a r j = (y : EReal) :=
  lin_real a.feat a.W1 a.b1 hf.feat hf.W1 hf.b1 r j

theorem mean_coe (j : Fin 64) (H : Fin 1048576 → ℝ) (hH : ∀ r, h0 a r j = (H r : EReal)) :
    mean a j = (((∑ r, H r) * (1 / 1048576) : ℝ) : EReal) := by
  rw [mean, div_nnE]; simp only [hH]; rw [coe_finset_sum, ← EReal.coe_mul]

theorem mean_real (hf : a.Finite) (j : Fin 64) : ∃ y : ℝ, mean a j = (y : EReal) := by
  choose H hH using fun r => h0_real a hf r j
  exact ⟨_, mean_coe a j H hH⟩

theorem varR_coe (j : Fin 64) (H : Fin 1048576 → ℝ) (hH : ∀ r, h0 a r j = (H r : EReal)) (μ : ℝ)
    (hμ : mean a j = (μ : EReal)) :
    varR a j = (((∑ r, (H r - μ) * (H r - μ)) * (1 / 1048576) : ℝ) : EReal) := by
  rw [varR, div_nnE, hμ]
  simp only [hH, ← EReal.coe_sub, ← EReal.coe_mul, coe_finset_sum]

theorem varK_eq_varR (hf : a.Finite) (j : Fin 64) : varK a j = varR a j := by
  choose H hH using fun r => h0_real a hf r j
  have hμ := mean_coe a j H hH
  rw [varR_coe a j H hH _ hμ, varK, div_nnE, hμ]
  simp only [hH, ← EReal.coe_mul, ← EReal.coe_sub, coe_finset_sum]
  rw [var_identity H (1 / 1048576) (by norm_num)]

/-- A mean of squares is nonnegative and ε is positive, so the reciprocal root of their sum is finite. -/
theorem rsqrt_real (hf : a.Finite) (j : Fin 64) : ∃ y : ℝ, Ideal.rsqrt (varR a j + epsE) = (y : EReal) := by
  choose H hH using fun r => h0_real a hf r j
  obtain ⟨μ, hμ⟩ := mean_real a hf j
  obtain ⟨e, he, hE⟩ := epsE_pos
  have hpos : 0 < (∑ r, (H r - μ) * (H r - μ)) * (1 / 1048576) + e :=
    add_pos_of_nonneg_of_pos
      (mul_nonneg (Finset.sum_nonneg fun r _ => mul_self_nonneg _) (by norm_num)) he
  rw [varR_coe a j H hH μ hμ, hE, ← EReal.coe_add, Ideal.rsqrt_coe, if_neg (not_lt.mpr hpos.le), if_neg hpos.ne']
  exact ⟨_, rfl⟩

theorem hK_eq_hR (hf : a.Finite) : hK a = hR a := by
  funext r j
  obtain ⟨μ, hμ⟩ := mean_real a hf j
  obtain ⟨ρ, hρ⟩ := rsqrt_real a hf j
  choose x hx using hf.feat r
  choose w hw using fun k => hf.W1 k j
  obtain ⟨b, hb⟩ := hf.b1 j
  obtain ⟨γ, hγ⟩ := hf.gamma j
  obtain ⟨β, hβ⟩ := hf.beta j
  have hs : scaleK a j = (γ : EReal) * (ρ : EReal) := by rw [scaleK, varK_eq_varR a hf j, hρ, hγ]
  have hW : ∀ k, W1pK a k j = (w k : EReal) * ((γ : EReal) * (ρ : EReal)) := fun k => by rw [W1pK, hs, hw]
  have hB : b1pK a j = ((b : EReal) - (μ : EReal)) * ((γ : EReal) * (ρ : EReal)) + (β : EReal) := by
    rw [b1pK, hs, hb, hμ, hβ]
  have h0' : h0 a r j = (∑ k, (x k : EReal) * (w k : EReal)) + (b : EReal) := by
    rw [h0, lin, hb]; simp only [hx, hw]
  rw [hK, hR, lin, hB, h0', hμ, hρ, hγ, hβ]
  simp only [hW, hx]
  rw [fold_coe]

theorem tgt_lt (hl : a.LabelsInRange) (r : Fin 1048576) : (tgt a r).toNat < 20 := by
  by_cases h : a.seg r = 4294967295#32
  · simp [tgt, h]
  · have h2 := (hl r).resolve_left h
    simp [tgt, h, h2]

theorem ofNat_eq_tgt_iff (hl : a.LabelsInRange) (r : Fin 1048576) (q : Fin 20) :
    BitVec.ofNat 32 q.val = tgt a r ↔ q = tgtIdx a r := by
  have ht := tgt_lt a hl r
  have hq := q.isLt
  rw [← BitVec.toNat_inj, BitVec.toNat_ofNat, Fin.ext_iff, Nat.mod_eq_of_lt (show q.val < 2 ^ 32 by omega)]
  show q.val = (tgt a r).toNat ↔ q.val = (tgt a r).toNat % 20
  rw [Nat.mod_eq_of_lt ht]

/-- Only the target class survives a sum against the one-hot row. -/
theorem sum_mul_onehot (hl : a.LabelsInRange) (r : Fin 1048576) (f : Fin 20 → EReal) :
    ∑ q, f q * onehot a r q = f (tgtIdx a r) := by
  have h : ∀ q, f q * onehot a r q = if q = tgtIdx a r then f q else 0 := fun q => by
    rw [onehot]; simp only [ofNat_eq_tgt_iff a hl r q]; split_ifs <;> simp
  simp only [h, Finset.sum_ite_eq', Finset.mem_univ, if_true]

theorem wgtK_eq_wgtR (hl : a.LabelsInRange) : wgtK a = wgtR a := by
  funext r; rw [wgtK, wgtR, Finset.sum_congr rfl fun q _ => mul_comm (onehot a r q) (a.cw q), sum_mul_onehot a hl]

/-- Scores, maximum and logarithm are all finite, and among reals x − (m + l) = (x − m) − l. -/
theorem nllK_eq_nllR (hf : a.Finite) (hl : a.LabelsInRange) : nllK a = nllR a := by
  funext r
  choose L hL using fun q => lin_real a.feat a.Wseg a.bseg hf.feat hf.Wseg hf.bseg r q
  have hL2 : ∀ q, logits a r q = (L q : EReal) := hL
  have hL' : logits a r = fun q => (L q : EReal) := funext hL2
  obtain ⟨m, hm⟩ : ∃ m : ℝ, mx a r = (m : EReal) := by
    rw [mx, hL']; exact sup_coe_real (n := 19) L
  have hs : sexp a r = ((∑ q, Real.exp (L q - m) : ℝ) : EReal) := by
    rw [sexp, hm]; simp only [hL2, ← EReal.coe_sub, Ideal.exp_coe, coe_finset_sum]
  have hpos : 0 < ∑ q, Real.exp (L q - m) :=
    Finset.sum_pos (fun q _ => Real.exp_pos _) Finset.univ_nonempty
  have hlog : Ideal.log (sexp a r) = ((Real.log (∑ q, Real.exp (L q - m)) : ℝ) : EReal) := by
    rw [hs, Ideal.log_coe, if_neg (not_le.mpr hpos)]
  rw [nllK, sum_mul_onehot a hl r (fun q => logits a r q - lseK a r), nllR, logpR, lseK, zero_sub, hlog, hm,
    hL2, sub_add_coe]

theorem cosK_eq_cosR (hf : a.Finite) : cosK a = cosR a := by
  funext r; rw [cosK, cosR, hK_eq_hR a hf, zero_sub]

theorem outK_eq_outR (hf : a.Finite) (hl : a.LabelsInRange) : outK a = outR a := by
  rw [outK, outR, wgtK_eq_wgtR a hl, nllK_eq_nllR a hf hl, hK_eq_hR a hf, cosK_eq_cosR a hf]

end Cert.Spec

end
-- ==== Proof.lean ====
/-
  Two passes over the points (column statistics of the first layer; then, with the normalisation folded into that layer's
  weights, the four loss sums per half of the points) and a little host arithmetic, against the plain reference. Over the
  extended reals both end at the same four numbers when the float inputs are finite and every label is a class or the
  ignored label: E[h²] − E[h]² is the variance, a folded affine map is the normalised layer, and a sum against a one-hot
  row is a read at the label.
-/
import proofs.«423175_j2508260901476_3_alg».proof.Defs
import proofs.«423175_j2508260901476_3_alg».proof.Proof.Gen.Kernel
import proofs.«423175_j2508260901476_3_alg».proof.Proof.Gen.KernelIdeal
import proofs.«423175_j2508260901476_3_alg».proof.Proof.Gen.ReferenceIdeal
import proofs.«423175_j2508260901476_3_alg».proof.Proof.Gen.Pre_finite_inputs
import proofs.«423175_j2508260901476_3_alg».proof.Proof.KB.RunArgs
import proofs.«423175_j2508260901476_3_alg».proof.Proof.KI.Value
import proofs.«423175_j2508260901476_3_alg».proof.Proof.Ref.Run
import proofs.«423175_j2508260901476_3_alg».proof.Proof.Ref.Read
import proofs.«423175_j2508260901476_3_alg».proof.Proof.PreRead
import proofs.«423175_j2508260901476_3_alg».proof.Proof.Algebra

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

theorem frame_k : Cert.frame_Kernel := fun m ρ _ => Cert.Kernel.Gen.frameH m ρ

theorem frame_ki : Cert.frame_KernelIdeal := fun m ρ _ => Cert.KernelIdeal.Gen.frameH m ρ

theorem frame_ri : Cert.frame_ReferenceIdeal := fun m ρ _ =>
  (θ_run Cert.ReferenceIdeal.defs _ _).mono (fun _ h c => (h c).2) (Cert.ReferenceIdeal.Hand.run m ρ)

/-- The kernel ends at its arrangement of the four results, the reference at its own, and the two agree under the precondition. -/
theorem algebraic : Cert.algebraic_KernelIdeal_ReferenceIdeal := by
  intro m ρ m' ρ' hpre hagree
  refine ⟨fun c => Cert.Spec.asArray (Cert.Spec.outK (Cert.KernelIdeal.Val.argsOf m c)), ?_, ?_⟩
  · exact (θ_run Cert.KernelIdeal.defs _ _).mono
      (fun r h c => ⟨(h c).1.trans (Cert.KernelIdeal.Val.kernel_value m c), (h c).2⟩)
      (Cert.KernelIdeal.Gen.runResult m ρ)
  · refine (θ_run Cert.ReferenceIdeal.defs _ _).mono (fun r h c => ⟨(h c).1.trans ?_, (h c).2⟩)
      (Cert.ReferenceIdeal.Hand.run m' ρ')
    obtain ⟨e0, e1, e2, e3, e4, e5, e6, e7, e8, e9, e10, e11, e12, e13⟩ := hagree c
    rw [e0, e1, e2, e3, e4, e5, e6, e7, e8, e9, e10, e11, e12, e13]
    have hl := Cert.Pre_finite_inputs.Hand.labels_of_pre _ _ _ _ _ _ _ _ _ _ _ _ _ _ (hpre c)
    have hf := Cert.Pre_finite_inputs.Hand.finite_of_pre _ _ _ _ _ _ _ _ _ _ _ _ _ _ (hpre c)
    rw [Cert.ReferenceIdeal.Hand.refTerm_eq _ _ _ _ _ _ _ _ _ _ _ _ _ _ hl]
    exact congrArg Cert.Spec.asArray (Cert.Spec.outK_eq_outR _ hf hl).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
